-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x8 : Shape := ⟨2, ![200000, 8]⟩
abbrev S3200000 : Shape := ⟨1, ![3200000]⟩
abbrev S200000 : Shape := ⟨1, ![200000]⟩
abbrev S40x16 : Shape := ⟨2, ![40, 16]⟩
abbrev S40 : Shape := ⟨1, ![40]⟩
abbrev S40x24 : Shape := ⟨2, ![40, 24]⟩
abbrev S24 : Shape := ⟨1, ![24]⟩
abbrev S24x32 : Shape := ⟨2, ![24, 32]⟩
abbrev S24x24 : Shape := ⟨2, ![24, 24]⟩
abbrev S1x24 : Shape := ⟨2, ![1, 24]⟩
abbrev S1 : Shape := ⟨1, ![1]⟩
abbrev S_ : Shape := ⟨0, ![]⟩

class Facts : Prop where
  bcast_S_S200000x8 : S_.BroadcastsInDim S200000x8 (![] : Fin 0 → Fin S200000x8.rank)
  reducesTo_S200000x8_S_d0_1 : S200000x8.ReducesTo [0, 1] S_
  h_S_ : 0 < S_.numel
  bcast_S_S40x16 : S_.BroadcastsInDim S40x16 (![] : Fin 0 → Fin S40x16.rank)
  reducesTo_S40x16_S_d0_1 : S40x16.ReducesTo [0, 1] S_
  bcast_S_S40 : S_.BroadcastsInDim S40 (![] : Fin 0 → Fin S40.rank)
  reducesTo_S40_S_d0 : S40.ReducesTo [0] S_
  bcast_S_S40x24 : S_.BroadcastsInDim S40x24 (![] : Fin 0 → Fin S40x24.rank)
  reducesTo_S40x24_S_d0_1 : S40x24.ReducesTo [0, 1] S_
  bcast_S_S24 : S_.BroadcastsInDim S24 (![] : Fin 0 → Fin S24.rank)
  reducesTo_S24_S_d0 : S24.ReducesTo [0] S_
  bcast_S_S24x32 : S_.BroadcastsInDim S24x32 (![] : Fin 0 → Fin S24x32.rank)
  reducesTo_S24x32_S_d0_1 : S24x32.ReducesTo [0, 1] S_
  bcast_S_S24x24 : S_.BroadcastsInDim S24x24 (![] : Fin 0 → Fin S24x24.rank)
  reducesTo_S24x24_S_d0_1 : S24x24.ReducesTo [0, 1] S_
  bcast_S_S1x24 : S_.BroadcastsInDim S1x24 (![] : Fin 0 → Fin S1x24.rank)
  reducesTo_S1x24_S_d0_1 : S1x24.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S24x24 .f32) (main_arg15 : FVec F S24 .f32) (main_arg16 : FVec F S1x24 .f32) (main_arg17 : FVec F S1 .f32) (main_v48 : IVec S_ 1) (main_v49 : FVec F S24 .f32) (main_v50 : FVec F S24 .f32) : IVec S_ 1 :=
  let main_v51 : IVec S24 1 := cmpf .olt main_v49 main_v50
  let main_c_19 : IVec S_ 1 := constantI S_ 1 1#1
  let main_v52 : IVec S_ 1 := (fun x v => Host.reduce IntOp.andi x v reducesTo_S24_S_d0 h_S_) main_v51 main_c_19
  let main_v53 : IVec S_ 1 := andi main_v48 main_v52
  let main_v54 : FVec F S24x24 .f32 := Host.absf main_arg14
  let main_cst_20 : FVec F S_ .f32 := constant S_ .f32 0x7F800000#32
  let main_v55 : FVec F S24x24 .f32 := broadcastInDim S24x24 ![] bcast_S_S24x24 main_cst_20
  let main_v56 : IVec S24x24 1 := cmpf .olt main_v54 main_v55
  let main_c_21 : IVec S_ 1 := constantI S_ 1 1#1
  let main_v57 : IVec S_ 1 := (fun x v => Host.reduce IntOp.andi x v reducesTo_S24x24_S_d0_1 h_S_) main_v56 main_c_21
  let main_v58 : IVec S_ 1 := andi main_v53 main_v57
  let main_v59 : FVec F S24 .f32 := Host.absf main_arg15
  let main_cst_22 : FVec F S_ .f32 := constant S_ .f32 0x7F800000#32
  let main_v60 : FVec F S24 .f32 := broadcastInDim S24 ![] bcast_S_S24 main_cst_22
  let main_v61 : IVec S24 1 := cmpf .olt main_v59 main_v60
  let main_c_23 : IVec S_ 1 := constantI S_ 1 1#1
  let main_v62 : IVec S_ 1 := (fun x v => Host.reduce IntOp.andi x v reducesTo_S24_S_d0 h_S_) main_v61 main_c_23
  let main_v63 : IVec S_ 1 := andi main_v58 main_v62
  let main_v64 : FVec F S1x24 .f32 := Host.absf main_arg16
  let main_cst_24 : FVec F S_ .f32 := constant S_ .f32 0x7F800000#32
  let main_v65 : FVec F S1x24 .f32 := broadcastInDim S1x24 ![] bcast_S_S1x24 main_cst_24
  let main_v66 : IVec S1x24 1 := cmpf .olt main_v64 main_v65
  let main_c_25 : IVec S_ 1 := constantI S_ 1 1#1
  let main_v67 : IVec S_ 1 := (fun x v => Host.reduce IntOp.andi x v reducesTo_S1x24_S_d0_1 h_S_) main_v66 main_c_25
  fn_part4 (F := F) main_arg17 main_v63 main_v67

def fn_part2 {F : FTy → Type} [FloatOps F] (main_arg10 : FVec F S40x24 .f32) (main_arg11 : FVec F S24 .f32) (main_arg12 : FVec F S24x32 .f32) (main_arg13 : FVec F S24 .f32) (main_arg14 : FVec F S24x24 .f32) (main_arg15 : FVec F S24 .f32) (main_arg16 : FVec F S1x24 .f32) (main_arg17 : FVec F S1 .f32) (main_v33 : IVec S_ 1) : IVec S_ 1 :=
  let main_v34 : FVec F S40x24 .f32 := Host.absf main_arg10
  let main_cst_12 : FVec F S_ .f32 := constant S_ .f32 0x7F800000#32
  let main_v35 : FVec F S40x24 .f32 := broadcastInDim S40x24 ![] bcast_S_S40x24 main_cst_12
  let main_v36 : IVec S40x24 1 := cmpf .olt main_v34 main_v35
  let main_c_13 : IVec S_ 1 := constantI S_ 1 1#1
  let main_v37 : IVec S_ 1 := (fun x v => Host.reduce IntOp.andi x v reducesTo_S40x24_S_d0_1 h_S_) main_v36 main_c_13
  let main_v38 : IVec S_ 1 := andi main_v33 main_v37
  let main_v39 : FVec F S24 .f32 := Host.absf main_arg11
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S24x32 .f32 := Host.absf main_arg12
  let main_cst_16 : FVec F S_ .f32 := constant S_ .f32 0x7F800000#32
  let main_v45 : FVec F S24x32 .f32 := broadcastInDim S24x32 ![] bcast_S_S24x32 main_cst_16
  let main_v46 : IVec S24x32 1 := cmpf .olt main_v44 main_v45
  let main_c_17 : IVec S_ 1 := constantI S_ 1 1#1
  let main_v47 : IVec S_ 1 := (fun x v => Host.reduce IntOp.andi x v reducesTo_S24x32_S_d0_1 h_S_) main_v46 main_c_17
  let main_v48 : IVec S_ 1 := andi main_v43 main_v47
  let main_v49 : FVec F S24 .f32 := Host.absf main_arg13
  let main_cst_18 : FVec F S_ .f32 := constant S_ .f32 0x7F800000#32
  let main_v50 : FVec F S24 .f32 := broadcastInDim S24 ![] bcast_S_S24 main_cst_18
  fn_part3 (F := F) main_arg14 main_arg15 main_arg16 main_arg17 main_v48 main_v49 main_v50

def fn_part1 {F : FTy → Type} [FloatOps F] (main_arg7 : FVec F S40 .f32) (main_arg8 : FVec F S40 .f32) (main_arg9 : FVec F S40 .f32) (main_arg10 : FVec F S40x24 .f32) (main_arg11 : FVec F S24 .f32) (main_arg12 : FVec F S24x32 .f32) (main_arg13 : FVec F S24 .f32) (main_arg14 : FVec F S24x24 .f32) (main_arg15 : FVec F S24 .f32) (main_arg16 : FVec F S1x24 .f32) (main_arg17 : FVec F S1 .f32) (main_v13 : IVec S_ 1) (main_v16 : IVec S40x16 1) : IVec S_ 1 :=
  let main_c_5 : IVec S_ 1 := constantI S_ 1 1#1
  let main_v17 : IVec S_ 1 := (fun x v => Host.reduce IntOp.andi x v reducesTo_S40x16_S_d0_1 h_S_) main_v16 main_c_5
  let main_v18 : IVec S_ 1 := andi main_v13 main_v17
  let main_v19 : FVec F S40 .f32 := Host.absf main_arg7
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40 .f32 := Host.absf main_arg8
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40 .f32 := Host.absf main_arg9
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S200000x8 .f32) (main_arg1 : FVec F S200000x8 .f32) (main_arg2 : FVec F S200000x8 .f32) (main_arg3 : IVec S3200000 32) (main_arg4 : IVec S3200000 32) (main_arg5 : IVec S200000 32) (main_arg6 : FVec F S40x16 .f32) (main_arg7 : FVec F S40 .f32) (main_arg8 : FVec F S40 .f32) (main_arg9 : FVec F S40 .f32) (main_arg10 : FVec F S40x24 .f32) (main_arg11 : FVec F S24 .f32) (main_arg12 : FVec F S24x32 .f32) (main_arg13 : FVec F S24 .f32) (main_arg14 : FVec F S24x24 .f32) (main_arg15 : FVec F S24 .f32) (main_arg16 : FVec F S1x24 .f32) (main_arg17 : FVec F S1 .f32) : IVec S_ 1 :=
  let main_v0 : FVec F S200000x8 .f32 := Host.absf main_arg0
  let main_cst : FVec F S_ .f32 := constant S_ .f32 0x7F800000#32
  let main_v1 : FVec F S200000x8 .f32 := broadcastInDim S200000x8 ![] bcast_S_S200000x8 main_cst
  let main_v2 : IVec S200000x8 1 := cmpf .olt main_v0 main_v1
  let main_c : IVec S_ 1 := constantI S_ 1 1#1
  let main_v3 : IVec S_ 1 := (fun x v => Host.reduce IntOp.andi x v reducesTo_S200000x8_S_d0_1 h_S_) main_v2 main_c
  let main_v4 : FVec F S200000x8 .f32 := Host.absf main_arg1
  let main_cst_0 : FVec F S_ .f32 := constant S_ .f32 0x7F800000#32
  let main_v5 : FVec F S200000x8 .f32 := broadcastInDim S200000x8 ![] bcast_S_S200000x8 main_cst_0
  let main_v6 : IVec S200000x8 1 := cmpf .olt main_v4 main_v5
  let main_c_1 : IVec S_ 1 := constantI S_ 1 1#1
  let main_v7 : IVec S_ 1 := (fun x v => Host.reduce IntOp.andi x v reducesTo_S200000x8_S_d0_1 h_S_) main_v6 main_c_1
  let main_v8 : IVec S_ 1 := andi main_v3 main_v7
  let main_v9 : FVec F S200000x8 .f32 := Host.absf main_arg2
  let main_cst_2 : FVec F S_ .f32 := constant S_ .f32 0x7F800000#32
  let main_v10 : FVec F S200000x8 .f32 := broadcastInDim S200000x8 ![] bcast_S_S200000x8 main_cst_2
  let main_v11 : IVec S200000x8 1 := cmpf .olt main_v9 main_v10
  let main_c_3 : IVec S_ 1 := constantI S_ 1 1#1
  let main_v12 : IVec S_ 1 := (fun x v => Host.reduce IntOp.andi x v reducesTo_S200000x8_S_d0_1 h_S_) main_v11 main_c_3
  let main_v13 : IVec S_ 1 := andi main_v8 main_v12
  let main_v14 : FVec F S40x16 .f32 := Host.absf main_arg6
  let main_cst_4 : FVec F S_ .f32 := constant S_ .f32 0x7F800000#32
  let main_v15 : FVec F S40x16 .f32 := broadcastInDim S40x16 ![] bcast_S_S40x16 main_cst_4
  let main_v16 : IVec S40x16 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S200000x8 : Shape := ⟨2, ![200000, 8]⟩
abbrev S3200000 : Shape := ⟨1, ![3200000]⟩
abbrev S200000 : Shape := ⟨1, ![200000]⟩
abbrev S40x16 : Shape := ⟨2, ![40, 16]⟩
abbrev S40 : Shape := ⟨1, ![40]⟩
abbrev S40x24 : Shape := ⟨2, ![40, 24]⟩
abbrev S24 : Shape := ⟨1, ![24]⟩
abbrev S24x32 : Shape := ⟨2, ![24, 32]⟩
abbrev S24x24 : Shape := ⟨2, ![24, 24]⟩
abbrev S1x24 : Shape := ⟨2, ![1, 24]⟩
abbrev S1 : Shape := ⟨1, ![1]⟩
abbrev S_ : Shape := ⟨0, ![]⟩
abbrev S3200000x1 : Shape := ⟨2, ![3200000, 1]⟩
abbrev S200000x1 : Shape := ⟨2, ![200000, 1]⟩
abbrev S200000x2 : Shape := ⟨2, ![200000, 2]⟩
abbrev S200000x16 : Shape := ⟨2, ![200000, 16]⟩
abbrev S1x40 : Shape := ⟨2, ![1, 40]⟩
abbrev S24x8 : Shape := ⟨2, ![24, 8]⟩
abbrev S1x1 : Shape := ⟨2, ![1, 1]⟩
abbrev S4000x16 : Shape := ⟨2, ![4000, 16]⟩
abbrev S16x40 : Shape := ⟨2, ![16, 40]⟩
abbrev S4000x40 : Shape := ⟨2, ![4000, 40]⟩
abbrev S200000x24 : Shape := ⟨2, ![200000, 24]⟩
abbrev S4000x1 : Shape := ⟨2, ![4000, 1]⟩
abbrev S4000x24 : Shape := ⟨2, ![4000, 24]⟩
abbrev S3200000x24 : Shape := ⟨2, ![3200000, 24]⟩
abbrev S4000x2 : Shape := ⟨2, ![4000, 2]⟩
abbrev S4000x8 : Shape := ⟨2, ![4000, 8]⟩
abbrev S8x24 : Shape := ⟨2, ![8, 24]⟩
abbrev S64x1 : Shape := ⟨2, ![64, 1]⟩
abbrev S64x24 : Shape := ⟨2, ![64, 24]⟩
abbrev S4000x64 : Shape := ⟨2, ![4000, 64]⟩
abbrev S64 : Shape := ⟨1, ![64]⟩

abbrev nBuf : Space → Nat
  | .hbm => 101
  | .vmem => 44
  | .smem => 0
  | _ => 0

abbrev bufTy : (tb : Table) → Fin (tcTables nBuf tb) → BufTy
  | .hbm, ⟨0, _⟩ => ⟨S200000x8, .f32⟩
  | .hbm, ⟨1, _⟩ => ⟨S200000x8, .f32⟩
  | .hbm, ⟨2, _⟩ => ⟨S200000x8, .f32⟩
  | .hbm, ⟨3, _⟩ => ⟨S3200000, .i32⟩
  | .hbm, ⟨4, _⟩ => ⟨S3200000, .i32⟩
  | .hbm, ⟨5, _⟩ => ⟨S200000, .i32⟩
  | .hbm, ⟨6, _⟩ => ⟨S40x16, .f32⟩
  | .hbm, ⟨7, _⟩ => ⟨S40, .f32⟩
  | .hbm, ⟨8, _⟩ => ⟨S40, .f32⟩
  | .hbm, ⟨9, _⟩ => ⟨S40, .f32⟩
  | .hbm, ⟨10, _⟩ => ⟨S40x24, .f32⟩
  | .hbm, ⟨11, _⟩ => ⟨S24, .f32⟩
  | .hbm, ⟨12, _⟩ => ⟨S24x32, .f32⟩
  | .hbm, ⟨13, _⟩ => ⟨S24, .f32⟩
  | .hbm, ⟨14, _⟩ => ⟨S24x24, .f32⟩
  | .hbm, ⟨15, _⟩ => ⟨S24, .f32⟩
  | .hbm, ⟨16, _⟩ => ⟨S1x24, .f32⟩
  | .hbm, ⟨17, _⟩ => ⟨S1, .f32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S200000, .f32⟩
  | .hbm, ⟨22, _⟩ => ⟨S3200000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S3200000x1, .i32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .f32⟩
  | .hbm, ⟨33, _⟩ => ⟨S200000, .f32⟩
  | .hbm, ⟨34, _⟩ => ⟨S200000, .f32⟩
  | .hbm, ⟨35, _⟩ => ⟨S200000x1, .f32⟩
  | .hbm, ⟨36, _⟩ => ⟨S_, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000x2, .f32⟩
  | .hbm, ⟨45, _⟩ => ⟨S200000x16, .f32⟩
  | .hbm, ⟨46, _⟩ => ⟨S1x40, .f32⟩
  | .hbm, ⟨47, _⟩ => ⟨S1x40, .f32⟩
  | .hbm, ⟨48, _⟩ => ⟨S1x40, .f32⟩
  | .hbm, ⟨49, _⟩ => ⟨S1x24, .f32⟩
  | .hbm, ⟨50, _⟩ => ⟨S24x24, .f32⟩
  | .hbm, ⟨51, _⟩ => ⟨S24x8, .f32⟩
  | .hbm, ⟨52, _⟩ => ⟨S1x24, .f32⟩
  | .hbm, ⟨53, _⟩ => ⟨S1x24, .f32⟩
  | .hbm, ⟨54, _⟩ => ⟨S1x1, .f32⟩
  | .hbm, ⟨55, _⟩ => ⟨S200000x1, .i32⟩
  | .hbm, ⟨56, _⟩ => ⟨S1x40, .f32⟩
  | .hbm, ⟨57, _⟩ => ⟨S1x40, .f32⟩
  | .hbm, ⟨58, _⟩ => ⟨S_, .f32⟩
  | .hbm, ⟨59, _⟩ => ⟨S1x40, .f32⟩
  | .hbm, ⟨60, _⟩ => ⟨S1x40, .f32⟩
  | .hbm, ⟨61, _⟩ => ⟨S_, .f32⟩
  | .hbm, ⟨62, _⟩ => ⟨S1x40, .f32⟩
  | .hbm, ⟨63, _⟩ => ⟨S1x40, .f32⟩
  | .hbm, ⟨64, _⟩ => ⟨S1x40, .f32⟩
  | .hbm, ⟨65, _⟩ => ⟨S1x40, .f32⟩
  | .hbm, ⟨66, _⟩ => ⟨S_, .f32⟩
  | .hbm, ⟨67, _⟩ => ⟨S1x40, .f32⟩
  | .hbm, ⟨68, _⟩ => ⟨S1x40, .f32⟩
  | .hbm, ⟨69, _⟩ => ⟨S200000x24, .bf16⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x24, .bf16⟩
  | .hbm, ⟨79, _⟩ => ⟨S3200000x24, .f32⟩
  | .hbm, ⟨80, _⟩ => ⟨S_, .f32⟩
  | .hbm, ⟨81, _⟩ => ⟨S200000x24, .f32⟩
  | .hbm, ⟨82, _⟩ => ⟨S3200000x1, .i32⟩
  | .hbm, ⟨83, _⟩ => ⟨S200000x24, .f32⟩
  | .hbm, ⟨84, _⟩ => ⟨S200000x24, .bf16⟩
  | .hbm, ⟨85, _⟩ => ⟨S_, .i32⟩
  | .hbm, ⟨86, _⟩ => ⟨S3200000, .i32⟩
  | .hbm, ⟨87, _⟩ => ⟨S3200000, .i1⟩
  | .hbm, ⟨88, _⟩ => ⟨S_, .i32⟩
  | .hbm, ⟨89, _⟩ => ⟨S3200000, .i32⟩
  | .hbm, ⟨90, _⟩ => ⟨S3200000, .i32⟩
  | .hbm, ⟨91, _⟩ => ⟨S3200000, .i32⟩
  | .hbm, ⟨92, _⟩ => ⟨S3200000x1, .i32⟩
  | .hbm, ⟨93, _⟩ => ⟨S3200000x24, .bf16⟩
  | .hbm, ⟨94, _⟩ => ⟨S3200000x24, .f32⟩
  | .hbm, ⟨95, _⟩ => ⟨S_, .f32⟩
  | .hbm, ⟨96, _⟩ => ⟨S200000x24, .f32⟩
  | .hbm, ⟨97, _⟩ => ⟨S3200000x1, .i32⟩
  | .hbm, ⟨98, _⟩ => ⟨S200000x24, .f32⟩
  | .hbm, ⟨99, _⟩ => ⟨S64x1, .f32⟩
  | .hbm, ⟨100, _⟩ => ⟨S64, .f32⟩
  | .local _ .vmem, ⟨0, _⟩ => ⟨S4000x16, .f32⟩
  | .local _ .vmem, ⟨1, _⟩ => ⟨S4000x16, .f32⟩
  | .local _ .vmem, ⟨2, _⟩ => ⟨S40x16, .f32⟩
  | .local _ .vmem, ⟨3, _⟩ => ⟨S1x40, .f32⟩
  | .local _ .vmem, ⟨4, _⟩ => ⟨S1x40, .f32⟩
  | .local _ .vmem, ⟨5, _⟩ => ⟨S1x40, .f32⟩
  | .local _ .vmem, ⟨6, _⟩ => ⟨S4000x16, .f32⟩
  | .local _ .vmem, ⟨7, _⟩ => ⟨S4000x16, .f32⟩
  | .local _ .vmem, ⟨8, _⟩ => ⟨S40x16, .f32⟩
  | .local _ .vmem, ⟨9, _⟩ => ⟨S1x40, .f32⟩
  | .local _ .vmem, ⟨10, _⟩ => ⟨S1x40, .f32⟩
  | .local _ .vmem, ⟨11, _⟩ => ⟨S1x40, .f32⟩
  | .local _ .vmem, ⟨12, _⟩ => ⟨S1x40, .f32⟩
  | .local _ .vmem, ⟨13, _⟩ => ⟨S1x40, .f32⟩
  | .local _ .vmem, ⟨14, _⟩ => ⟨S4000x1, .f32⟩
  | .local _ .vmem, ⟨15, _⟩ => ⟨S4000x1, .f32⟩
  | .local _ .vmem, ⟨16, _⟩ => ⟨S40x24, .f32⟩
  | .local _ .vmem, ⟨17, _⟩ => ⟨S4000x24, .bf16⟩
  | .local _ .vmem, ⟨18, _⟩ => ⟨S4000x24, .bf16⟩
  | .local _ .vmem, ⟨19, _⟩ => ⟨S4000x24, .f32⟩
  | .local _ .vmem, ⟨20, _⟩ => ⟨S4000x24, .f32⟩
  | .local _ .vmem, ⟨21, _⟩ => ⟨S4000x2, .f32⟩
  | .local _ .vmem, ⟨22, _⟩ => ⟨S4000x2, .f32⟩
  | .local _ .vmem, ⟨23, _⟩ => ⟨S1x24, .f32⟩
  | .local _ .vmem, ⟨24, _⟩ => ⟨S4000x8, .f32⟩
  | .local _ .vmem, ⟨25, _⟩ => ⟨S4000x8, .f32⟩
  | .local _ .vmem, ⟨26, _⟩ => ⟨S24x24, .f32⟩
  | .local _ .vmem, ⟨27, _⟩ => ⟨S24x8, .f32⟩
  | .local _ .vmem, ⟨28, _⟩ => ⟨S1x24, .f32⟩
  | .local _ .vmem, ⟨29, _⟩ => ⟨S24x24, .f32⟩
  | .local _ .vmem, ⟨30, _⟩ => ⟨S4000x24, .bf16⟩
  | .local _ .vmem, ⟨31, _⟩ => ⟨S4000x24, .bf16⟩
  | .local _ .vmem, ⟨32, _⟩ => ⟨S4000x24, .f32⟩
  | .local _ .vmem, ⟨33, _⟩ => ⟨S4000x24, .f32⟩
  | .local _ .vmem, ⟨34, _⟩ => ⟨S4000x1, .f32⟩
  | .local _ .vmem, ⟨35, _⟩ => ⟨S4000x1, .f32⟩
  | .local _ .vmem, ⟨36, _⟩ => ⟨S1x24, .f32⟩
  | .local _ .vmem, ⟨37, _⟩ => ⟨S4000x1, .i32⟩
  | .local _ .vmem, ⟨38, _⟩ => ⟨S4000x1, .i32⟩
  | .local _ .vmem, ⟨39, _⟩ => ⟨S1x24, .f32⟩
  | .local _ .vmem, ⟨40, _⟩ => ⟨S1x1, .f32⟩
  | .local _ .vmem, ⟨41, _⟩ => ⟨S64x1, .f32⟩
  | .local _ .vmem, ⟨42, _⟩ => ⟨S64x24, .f32⟩
  | .local _ .vmem, ⟨43, _⟩ => ⟨S64x1, .f32⟩
  | _, _ => ⟨S200000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v7 : Ref sig .tc := ⟨.hbm, 31, rfl⟩
abbrev main_cst_3 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v11 : Ref sig .tc := ⟨.hbm, 39, rfl⟩
abbrev main_cst_5 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c : Ref sig .tc := ⟨.hbm, 70, rfl⟩
abbrev main_v37 : Ref sig .tc := ⟨.hbm, 71, rfl⟩
abbrev main_v38 : Ref sig .tc := ⟨.hbm, 72, rfl⟩
abbrev main_c_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_10 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_11 : Ref sig .tc := ⟨.hbm, 85, rfl⟩
abbrev main_v49 : Ref sig .tc := ⟨.hbm, 86, rfl⟩
abbrev main_v50 : Ref sig .tc := ⟨.hbm, 87, rfl⟩
abbrev main_c_12 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_scratch0 : Ref sig .tc := ⟨.vmem, 42, rfl⟩
abbrev cc3_scratch1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem3_1 : DmaSem sig := 38
abbrev cc3_sem4_0 : DmaSem sig := 39
abbrev cc3_sem5_0 : DmaSem sig := 40
abbrev cc3_sem6_0 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S40x24 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x24 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x24 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S24x24 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S24x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x24 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S24x24 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x24 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_18 : BitVec 32 := 0#32
  let v37 : BitVec 1 := Scalar.cmpi .ne v36 c0_i32_18
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x24 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x24 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  shapeCasts_S200000_S200000x1 : S200000.ShapeCasts S200000x1
  concatenates_S200000x1_S200000x1_S200000x2_d1 : Shape.Concatenates [S200000x1, S200000x1] S200000x2 1
  concatenates_S200000x8_S200000x8_S200000x16_d1 : Shape.Concatenates [S200000x8, S200000x8] S200000x16 1
  shapeCasts_S40_S1x40 : S40.ShapeCasts S1x40
  shapeCasts_S24_S1x24 : S24.ShapeCasts S1x24
  slices_S24x32_S24x24_0_0 : S24x32.Slices ![0, 0] S24x24
  slices_S24x32_S24x8_0_24 : S24x32.Slices ![0, 24] S24x8
  shapeCasts_S1_S1x1 : S1.ShapeCasts S1x1
  inb_S1x40_S1x40_0_0 : ∀ a, (![0, 0] : Fin 2 → Nat) a + S1x40.size a ≤ S1x40.size a
  h_S1x40 : 0 < S1x40.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  bitsLt_bf16_f32 : FTy.bits .bf16 < FTy.bits .f32
  inb_S40x16_S40x16_0_0 : ∀ a, (![0, 0] : Fin 2 → Nat) a + S40x16.size a ≤ S40x16.size a
  h_S40x16 : 0 < S40x16.numel
  transposes_S40x16_p1_0_S16x40 : S40x16.Transposes [1, 0] S16x40
  shapeCasts_S1x40_S1x40 : S1x40.ShapeCasts S1x40
  broadcasts_S1x40_S4000x40 : S1x40.Broadcasts S4000x40
  reduces_S4000x40_S40 : S4000x40.Reduces [0] S40
  bcast_S_S1x40 : S_.BroadcastsInDim S1x40 (![] : Fin 0 → Fin S1x40.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x40 : S4000x1.Broadcasts S4000x40
  inb_S40x24_S40x24_0_0 : ∀ a, (![0, 0] : Fin 2 → Nat) a + S40x24.size a ≤ S40x24.size a
  h_S40x24 : 0 < S40x24.numel
  inb_S4000x24_S4000x24_0_0 : ∀ a, (![0, 0] : Fin 2 → Nat) a + S4000x24.size a ≤ S4000x24.size a
  h_S4000x24 : 0 < S4000x24.numel
  packedbf16_S4000x24_S4000x24_0_0 : (Rect.unit (s := S4000x24) ![0, 0] S4000x24.size inb_S4000x24_S4000x24_0_0).PackedRows (EltTy.packing .bf16)
  bcast_S_S200000x24 : S_.BroadcastsInDim S200000x24 (![] : Fin 0 → Fin S200000x24.rank)
  inb_S4000x2_S4000x1_0_0 : ∀ a, (![0, 0] : Fin 2 → Nat) a + S4000x1.size a ≤ S4000x2.size a
  inb_S4000x2_S4000x1_0_1 : ∀ a, (![0, 1] : Fin 2 → Nat) a + S4000x1.size a ≤ S4000x2.size a
  shapeCasts_S4000x24_S4000x24 : S4000x24.ShapeCasts S4000x24
  broadcasts_S4000x1_S4000x24 : S4000x1.Broadcasts S4000x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S4000x24 : S1x24.Broadcasts S4000x24
  inb_S4000x8_S4000x8_0_0 : ∀ a, (![0, 0] : Fin 2 → Nat) a + S4000x8.size a ≤ S4000x8.size a
  h_S4000x8 : 0 < S4000x8.numel
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S24x8_S24x8_0_0 : ∀ a, (![0, 0] : Fin 2 → Nat) a + S24x8.size a ≤ S24x8.size a
  h_S24x8 : 0 < S24x8.numel
  shapeCasts_S24x8_S24x8 : S24x8.ShapeCasts S24x8
  transposes_S24x24_p1_0_S24x24 : S24x24.Transposes [1, 0] S24x24
  transposes_S24x8_p1_0_S8x24 : S24x8.Transposes [1, 0] S8x24
  inb_S64x24_S64x24_0_0 : ∀ a, (![0, 0] : Fin 2 → Nat) a + S64x24.size a ≤ S64x24.size a
  h_S64x24 : 0 < S64x24.numel
  shapeCasts_S64x24_S64x24 : S64x24.ShapeCasts S64x24
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S4000x64_d1_w32 : S4000x64.Iotas .tc 32 [1]
  broadcasts_S4000x1_S4000x64 : S4000x1.Broadcasts S4000x64
  natLt_1_32 : 1 < 32
  broadcasts_S64x1_S64x24 : S64x1.Broadcasts S64x24
  broadcasts_S1x24_S64x24 : S1x24.Broadcasts S64x24
  reduces_S64x24_S64 : S64x24.Reduces [1] S64
  shapeCasts_S64_S64x1 : S64.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S200000_S3200000x1_S3200000_n_0_0_1_wf : ScatterDims.WF S200000 S3200000x1 S3200000 [] [0] [0] 1
  dot_S4000x16_S16x40_S4000x40_1_0_0_1_n_n_wf : DotDims.WF S4000x16 S16x40 S4000x40 [1] [0] [0] [1] [] []
  dot_S4000x40_S40x24_S4000x24_1_0_0_1_n_n_wf : DotDims.WF S4000x40 S40x24 S4000x24 [1] [0] [0] [1] [] []
  gather_S200000x24_S3200000x1_S3200000x24_1_0_n_n_0_1_124_wf : GatherDims.WF S200000x24 S3200000x1 S3200000x24 [1] [0] [] [0] [] 1 ![1, 24]
  scatter_S200000x24_S3200000x1_S3200000x24_1_0_0_1_wf : ScatterDims.WF S200000x24 S3200000x1 S3200000x24 [1] [0] [0] 1
  dot_S4000x24_S24x24_S4000x24_1_0_0_1_n_n_wf : DotDims.WF S4000x24 S24x24 S4000x24 [1] [0] [0] [1] [] []
  dot_S4000x8_S8x24_S4000x24_1_0_0_1_n_n_wf : DotDims.WF S4000x8 S8x24 S4000x24 [1] [0] [0] [1] [] []
  dot_S4000x64_S4000x24_S64x24_0_0_1_1_n_n_wf : DotDims.WF S4000x64 S4000x24 S64x24 [0] [0] [1] [1] [] []
  dot_S4000x64_S4000x1_S64x1_0_0_1_1_n_n_wf : DotDims.WF S4000x64 S4000x1 S64x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S200000x16.size a
  hwx0_0 : ∀ i : grid0.Coords, EltTy.bits .f32 = 32 ∨ (Rect.block (s := S200000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x16.size a ≤ S40x16.size a
  hwx0_1 : ∀ i : grid0.Coords, EltTy.bits .f32 = 32 ∨ (Rect.block (s := S40x16) S40x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x16.size a ≤ S40x16.size a
  hwx1_1 : ∀ i : grid1.Coords, EltTy.bits .f32 = 32 ∨ (Rect.block (s := S40x16) S40x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x40.size a ≤ S1x40.size a
  hwx1_6 : ∀ i : grid1.Coords, EltTy.bits .f32 = 32 ∨ (Rect.block (s := S1x40) S1x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x1.size a ≤ S200000x1.size a
  hwx1_7 : ∀ i : grid1.Coords, EltTy.bits .f32 = 32 ∨ (Rect.block (s := S200000x1) S4000x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S40x24.size a ≤ S40x24.size a
  hwx1_8 : ∀ i : grid1.Coords, EltTy.bits .f32 = 32 ∨ (Rect.block (s := S40x24) S40x24.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x24.size a ≤ S200000x24.size a
  hwx1_9 : ∀ i : grid1.Coords, EltTy.bits .bf16 = 32 ∨ (Rect.block (s := S200000x24) S4000x24.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x24.size a ≤ S200000x24.size a
  hwx2_0 : ∀ i : grid2.Coords, EltTy.bits .f32 = 32 ∨ (Rect.block (s := S200000x24) S4000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x2.size a ≤ S200000x2.size a
  hwx2_1 : ∀ i : grid2.Coords, EltTy.bits .f32 = 32 ∨ (Rect.block (s := S200000x2) S4000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x24.size a ≤ S1x24.size a
  hwx2_2 : ∀ i : grid2.Coords, EltTy.bits .f32 = 32 ∨ (Rect.block (s := S1x24) S1x24.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x8.size a ≤ S200000x8.size a
  hwx2_3 : ∀ i : grid2.Coords, EltTy.bits .f32 = 32 ∨ (Rect.block (s := S200000x8) S4000x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S24x24.size a ≤ S24x24.size a
  hwx2_4 : ∀ i : grid2.Coords, EltTy.bits .f32 = 32 ∨ (Rect.block (s := S24x24) S24x24.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S24x8.size a ≤ S24x8.size a
  hwx2_5 : ∀ i : grid2.Coords, EltTy.bits .f32 = 32 ∨ (Rect.block (s := S24x8) S24x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x24.size a ≤ S1x24.size a
  hwx2_6 : ∀ i : grid2.Coords, EltTy.bits .f32 = 32 ∨ (Rect.block (s := S1x24) S1x24.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S24x24.size a ≤ S24x24.size a
  hwx2_7 : ∀ i : grid2.Coords, EltTy.bits .f32 = 32 ∨ (Rect.block (s := S24x24) S24x24.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x24.size a ≤ S200000x24.size a
  hwx2_8 : ∀ i : grid2.Coords, EltTy.bits .bf16 = 32 ∨ (Rect.block (s := S200000x24) S4000x24.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x24.size a ≤ S200000x24.size a
  hwx3_0 : ∀ i : grid3.Coords, EltTy.bits .f32 = 32 ∨ (Rect.block (s := S200000x24) S4000x24.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x24.size a ≤ S1x24.size a
  hwx3_2 : ∀ i : grid3.Coords, EltTy.bits .f32 = 32 ∨ (Rect.block (s := S1x24) S1x24.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S200000x1.size a
  hwx3_3 : ∀ i : grid3.Coords, EltTy.bits .i32 = 32 ∨ (Rect.block (s := S200000x1) S4000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x24.size a ≤ S1x24.size a
  hwx3_4 : ∀ i : grid3.Coords, EltTy.bits .f32 = 32 ∨ (Rect.block (s := S1x24) S1x24.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)

variable [Facts₀]

def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def dot_S4000x40_S40x24_S4000x24_1_0_0_1_n_n : DotDims S4000x40 S40x24 S4000x24 where
  lhsContracting := [1]
  rhsContracting := [0]
  lhsNonContracting := [0]
  rhsNonContracting := [1]
  lhsBatch := []
  rhsBatch := []
  wf := dot_S4000x40_S40x24_S4000x24_1_0_0_1_n_n_wf
def gather_S200000x24_S3200000x1_S3200000x24_1_0_n_n_0_1_124 : GatherDims S200000x24 S3200000x1 S3200000x24 where
  offsetDims := [1]
  collapsedSliceDims := [0]
  operandBatchingDims := []
  startIndicesBatchingDims := []
  startIndexMap := [0]
  indexVectorDim := 1
  sliceSizes := ![1, 24]
  wf := gather_S200000x24_S3200000x1_S3200000x24_1_0_n_n_0_1_124_wf
def scatter_S200000x24_S3200000x1_S3200000x24_1_0_0_1 : ScatterDims S200000x24 S3200000x1 S3200000x24 where
  updateWindowDims := [1]
  insertedWindowDims := [0]
  scatterDimsToOperandDims := [0]
  indexVectorDim := 1
  wf := scatter_S200000x24_S3200000x1_S3200000x24_1_0_0_1_wf
def dot_S4000x24_S24x24_S4000x24_1_0_0_1_n_n : DotDims S4000x24 S24x24 S4000x24 where
  lhsContracting := [1]
  rhsContracting := [0]
  lhsNonContracting := [0]
  rhsNonContracting := [1]
  lhsBatch := []
  rhsBatch := []
  wf := dot_S4000x24_S24x24_S4000x24_1_0_0_1_n_n_wf
def dot_S4000x8_S8x24_S4000x24_1_0_0_1_n_n : DotDims S4000x8 S8x24 S4000x24 where
  lhsContracting := [1]
  rhsContracting := [0]
  lhsNonContracting := [0]
  rhsNonContracting := [1]
  lhsBatch := []
  rhsBatch := []
  wf := dot_S4000x8_S8x24_S4000x24_1_0_0_1_n_n_wf
def dot_S4000x64_S4000x24_S64x24_0_0_1_1_n_n : DotDims S4000x64 S4000x24 S64x24 where
  lhsContracting := [0]
  rhsContracting := [0]
  lhsNonContracting := [1]
  rhsNonContracting := [1]
  lhsBatch := []
  rhsBatch := []
  wf := dot_S4000x64_S4000x24_S64x24_0_0_1_1_n_n_wf
def dot_S4000x64_S4000x1_S64x1_0_0_1_1_n_n : DotDims S4000x64 S4000x1 S64x1 where
  lhsContracting := [0]
  rhsContracting := [0]
  lhsNonContracting := [1]
  rhsNonContracting := [1]
  lhsBatch := []
  rhsBatch := []
  wf := dot_S4000x64_S4000x1_S64x1_0_0_1_1_n_n_wf

abbrev win0_0 : Pipeline.Window sig grid0 :=
  Pipeline.Window.ofSpec (Memref.whole main_v16) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S40x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S1x40.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S1x40.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S40x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S4000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S40x24.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S4000x24.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47) S4000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x24.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S4000x8.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S24x24.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v22) S24x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23) S1x24.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S24x24.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S4000x24.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v59) S4000x24.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S1x24.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S64x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S200000x8 : Shape := ⟨2, ![200000, 8]⟩
abbrev S3200000 : Shape := ⟨1, ![3200000]⟩
abbrev S200000 : Shape := ⟨1, ![200000]⟩
abbrev S40x16 : Shape := ⟨2, ![40, 16]⟩
abbrev S40 : Shape := ⟨1, ![40]⟩
abbrev S40x24 : Shape := ⟨2, ![40, 24]⟩
abbrev S24 : Shape := ⟨1, ![24]⟩
abbrev S24x32 : Shape := ⟨2, ![24, 32]⟩
abbrev S24x24 : Shape := ⟨2, ![24, 24]⟩
abbrev S1x24 : Shape := ⟨2, ![1, 24]⟩
abbrev S1 : Shape := ⟨1, ![1]⟩
abbrev S200000x16 : Shape := ⟨2, ![200000, 16]⟩
abbrev S16x40 : Shape := ⟨2, ![16, 40]⟩
abbrev S200000x40 : Shape := ⟨2, ![200000, 40]⟩
abbrev S1x40 : Shape := ⟨2, ![1, 40]⟩
abbrev S_ : Shape := ⟨0, ![]⟩
abbrev S3200000x1 : Shape := ⟨2, ![3200000, 1]⟩
abbrev S200000x1 : Shape := ⟨2, ![200000, 1]⟩
abbrev S200000x24 : Shape := ⟨2, ![200000, 24]⟩
abbrev S3200000x24 : Shape := ⟨2, ![3200000, 24]⟩
abbrev S200000x32 : Shape := ⟨2, ![200000, 32]⟩
abbrev S32x24 : Shape := ⟨2, ![32, 24]⟩
abbrev S64x24 : Shape := ⟨2, ![64, 24]⟩
abbrev S64 : Shape := ⟨1, ![64]⟩
abbrev S64x1 : Shape := ⟨2, ![64, 1]⟩
abbrev S24x1 : Shape := ⟨2, ![24, 1]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S200000x8, .f32⟩
  | 1 => ⟨S200000x8, .f32⟩
  | 2 => ⟨S200000x8, .f32⟩
  | 3 => ⟨S3200000, .i32⟩
  | 4 => ⟨S3200000, .i32⟩
  | 5 => ⟨S200000, .i32⟩
  | 6 => ⟨S40x16, .f32⟩
  | 7 => ⟨S40, .f32⟩
  | 8 => ⟨S40, .f32⟩
  | 9 => ⟨S40, .f32⟩
  | 10 => ⟨S40x24, .f32⟩
  | 11 => ⟨S24, .f32⟩
  | 12 => ⟨S24x32, .f32⟩
  | 13 => ⟨S24, .f32⟩
  | 14 => ⟨S24x24, .f32⟩
  | 15 => ⟨S24, .f32⟩
  | 16 => ⟨S1x24, .f32⟩
  | 17 => ⟨S1, .f32⟩
  | 18 => ⟨S200000x16, .f32⟩
  | 19 => ⟨S16x40, .f32⟩
  | 20 => ⟨S200000x40, .f32⟩
  | 21 => ⟨S1x40, .f32⟩
  | 22 => ⟨S200000x40, .f32⟩
  | 23 => ⟨S200000x40, .f32⟩
  | 24 => ⟨S_, .f32⟩
  | 25 => ⟨S200000x40, .f32⟩
  | 26 => ⟨S200000x40, .f32⟩
  | 27 => ⟨S_, .f32⟩
  | 28 => ⟨S40, .f32⟩
  | 29 => ⟨S_, .f32⟩
  | 30 => ⟨S40, .f32⟩
  | 31 => ⟨S40, .f32⟩
  | 32 => ⟨S1x40, .f32⟩
  | 33 => ⟨S200000x40, .f32⟩
  | 34 => ⟨S200000x40, .f32⟩
  | 35 => ⟨S200000x40, .f32⟩
  | 36 => ⟨S_, .f32⟩
  | 37 => ⟨S40, .f32⟩
  | 38 => ⟨S_, .f32⟩
  | 39 => ⟨S40, .f32⟩
  | 40 => ⟨S40, .f32⟩
  | 41 => ⟨S1x40, .f32⟩
  | 42 => ⟨S200000x40, .f32⟩
  | 43 => ⟨S200000x40, .f32⟩
  | 44 => ⟨S_, .f32⟩
  | 45 => ⟨S40, .f32⟩
  | 46 => ⟨S40, .f32⟩
  | 47 => ⟨S40, .f32⟩
  | 48 => ⟨S1x40, .f32⟩
  | 49 => ⟨S200000x40, .f32⟩
  | 50 => ⟨S200000x40, .f32⟩
  | 51 => ⟨S1x40, .f32⟩
  | 52 => ⟨S200000x40, .f32⟩
  | 53 => ⟨S200000x40, .f32⟩
  | 54 => ⟨S1x40, .f32⟩
  | 55 => ⟨S200000x40, .f32⟩
  | 56 => ⟨S200000x40, .f32⟩
  | 57 => ⟨S_, .f32⟩
  | 58 => ⟨S3200000, .f32⟩
  | 59 => ⟨S_, .f32⟩
  | 60 => ⟨S200000, .f32⟩
  | 61 => ⟨S3200000x1, .i32⟩
  | 62 => ⟨S200000, .f32⟩
  | 63 => ⟨S_, .f32⟩
  | 64 => ⟨S200000, .f32⟩
  | 65 => ⟨S3200000x1, .i32⟩
  | 66 => ⟨S200000, .f32⟩
  | 67 => ⟨S_, .f32⟩
  | 68 => ⟨S_, .f32⟩
  | 69 => ⟨S200000, .f32⟩
  | 70 => ⟨S200000, .f32⟩
  | 71 => ⟨S_, .f32⟩
  | 72 => ⟨S200000, .f32⟩
  | 73 => ⟨S200000, .f32⟩
  | 74 => ⟨S_, .f32⟩
  | 75 => ⟨S_, .f32⟩
  | 76 => ⟨S200000, .f32⟩
  | 77 => ⟨S200000, .f32⟩
  | 78 => ⟨S_, .f32⟩
  | 79 => ⟨S200000, .f32⟩
  | 80 => ⟨S200000, .f32⟩
  | 81 => ⟨S200000x1, .f32⟩
  | 82 => ⟨S200000x40, .f32⟩
  | 83 => ⟨S200000x40, .f32⟩
  | 84 => ⟨S200000x24, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x24, .f32⟩
  | 94 => ⟨S_, .f32⟩
  | 95 => ⟨S200000x24, .f32⟩
  | 96 => ⟨S3200000x1, .i32⟩
  | 97 => ⟨S200000x24, .f32⟩
  | 98 => ⟨S200000x1, .f32⟩
  | 99 => ⟨S200000x24, .f32⟩
  | 100 => ⟨S200000x24, .f32⟩
  | 101 => ⟨S1x24, .f32⟩
  | 102 => ⟨S200000x24, .f32⟩
  | 103 => ⟨S200000x24, .f32⟩
  | 104 => ⟨S200000x32, .f32⟩
  | 105 => ⟨S32x24, .f32⟩
  | 106 => ⟨S200000x24, .f32⟩
  | 107 => ⟨S1x24, .f32⟩
  | 108 => ⟨S200000x24, .f32⟩
  | 109 => ⟨S200000x24, .f32⟩
  | 110 => ⟨S_, .f32⟩
  | 111 => ⟨S200000x24, .f32⟩
  | 112 => ⟨S200000x24, .f32⟩
  | 113 => ⟨S_, .f32⟩
  | 114 => ⟨S3200000, .f32⟩
  | 115 => ⟨S_, .f32⟩
  | 116 => ⟨S200000, .f32⟩
  | 117 => ⟨S3200000x1, .i32⟩
  | 118 => ⟨S200000, .f32⟩
  | 119 => ⟨S_, .f32⟩
  | 120 => ⟨S200000, .f32⟩
  | 121 => ⟨S3200000x1, .i32⟩
  | 122 => ⟨S200000, .f32⟩
  | 123 => ⟨S_, .f32⟩
  | 124 => ⟨S_, .f32⟩
  | 125 => ⟨S200000, .f32⟩
  | 126 => ⟨S200000, .f32⟩
  | 127 => ⟨S_, .f32⟩
  | _ => ⟨S200000x8, .f32⟩

abbrev hbmTy0_1 (i : Nat) : BufTy := match i % 128 with
  | 0 => ⟨S200000, .f32⟩
  | 1 => ⟨S200000, .f32⟩
  | 2 => ⟨S_, .f32⟩
  | 3 => ⟨S_, .f32⟩
  | 4 => ⟨S200000, .f32⟩
  | 5 => ⟨S200000, .f32⟩
  | 6 => ⟨S_, .f32⟩
  | 7 => ⟨S200000, .f32⟩
  | 8 => ⟨S200000, .f32⟩
  | 9 => ⟨S200000x1, .f32⟩
  | 10 => ⟨S200000x24, .f32⟩
  | 11 => ⟨S200000x24, .f32⟩
  | 12 => ⟨S200000x24, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000x24, .f32⟩
  | 22 => ⟨S_, .f32⟩
  | 23 => ⟨S200000x24, .f32⟩
  | 24 => ⟨S3200000x1, .i32⟩
  | 25 => ⟨S200000x24, .f32⟩
  | 26 => ⟨S200000x1, .f32⟩
  | 27 => ⟨S200000x24, .f32⟩
  | 28 => ⟨S200000x24, .f32⟩
  | 29 => ⟨S1x24, .f32⟩
  | 30 => ⟨S200000x24, .f32⟩
  | 31 => ⟨S200000x24, .f32⟩
  | 32 => ⟨S_, .f32⟩
  | 33 => ⟨S64x24, .f32⟩
  | 34 => ⟨S200000x1, .i32⟩
  | 35 => ⟨S64x24, .f32⟩
  | 36 => ⟨S_, .f32⟩
  | 37 => ⟨S200000, .f32⟩
  | 38 => ⟨S_, .f32⟩
  | 39 => ⟨S64, .f32⟩
  | 40 => ⟨S200000x1, .i32⟩
  | 41 => ⟨S64, .f32⟩
  | 42 => ⟨S_, .f32⟩
  | 43 => ⟨S_, .f32⟩
  | 44 => ⟨S64, .f32⟩
  | 45 => ⟨S64, .f32⟩
  | 46 => ⟨S64x1, .f32⟩
  | 47 => ⟨S64x24, .f32⟩
  | 48 => ⟨S64x24, .f32⟩
  | 49 => ⟨S24x1, .f32⟩
  | 50 => ⟨S64x1, .f32⟩
  | 51 => ⟨S1x1, .f32⟩
  | 52 => ⟨S64x1, .f32⟩
  | 53 => ⟨S64x1, .f32⟩
  | 54 => ⟨S64, .f32⟩
  | _ => ⟨S200000x8, .f32⟩

abbrev hbmTy (i : Nat) : BufTy := match i / 128 with
  | 0 => hbmTy0_0 i
  | 1 => hbmTy0_1 i
  | _ => ⟨S200000x8, .f32⟩

abbrev bufTy : (tb : Table) → Fin (tcTables nBuf tb) → BufTy
  | .hbm, ⟨i, _⟩ => hbmTy i
  | _, _ => ⟨S200000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call0_cst : Ref sig .tc := ⟨.hbm, 24, rfl⟩
abbrev main_call0_v0 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c : Ref sig .tc := ⟨.hbm, 85, rfl⟩
abbrev main_v49 : Ref sig .tc := ⟨.hbm, 86, rfl⟩
abbrev main_v50 : Ref sig .tc := ⟨.hbm, 87, rfl⟩
abbrev main_c_11 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call3_cst : Ref sig .tc := ⟨.hbm, 110, rfl⟩
abbrev main_call3_v0 : Ref sig .tc := ⟨.hbm, 111, rfl⟩
abbrev main_v71 : Ref sig .tc := ⟨.hbm, 112, rfl⟩
abbrev main_cst_13 : Ref sig .tc := ⟨.hbm, 113, rfl⟩
abbrev main_v72 : Ref sig .tc := ⟨.hbm, 114, rfl⟩
abbrev main_cst_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_15 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_16 : Ref sig .tc := ⟨.hbm, 123, rfl⟩
abbrev main_call4_v0 : Ref sig .tc := ⟨.hbm, 124, rfl⟩
abbrev main_call4_v1 : Ref sig .tc := ⟨.hbm, 125, rfl⟩
abbrev main_v79 : Ref sig .tc := ⟨.hbm, 126, rfl⟩
abbrev main_cst_17 : Ref sig .tc := ⟨.hbm, 127, rfl⟩
abbrev main_v80 : Ref sig .tc := ⟨.hbm, 128, rfl⟩
abbrev main_v81 : Ref sig .tc := ⟨.hbm, 129, rfl⟩
abbrev main_cst_18 : Ref sig .tc := ⟨.hbm, 130, rfl⟩
abbrev main_call5_v0 : Ref sig .tc := ⟨.hbm, 131, rfl⟩
abbrev main_call5_v1 : Ref sig .tc := ⟨.hbm, 132, rfl⟩
abbrev main_v82 : Ref sig .tc := ⟨.hbm, 133, rfl⟩
abbrev main_cst_19 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_c_20 : Ref sig .tc := ⟨.hbm, 141, rfl⟩
abbrev main_v89 : Ref sig .tc := ⟨.hbm, 142, rfl⟩
abbrev main_v90 : Ref sig .tc := ⟨.hbm, 143, rfl⟩
abbrev main_c_21 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_22 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_23 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_24 : Ref sig .tc := ⟨.hbm, 164, rfl⟩
abbrev main_v108 : Ref sig .tc := ⟨.hbm, 165, rfl⟩
abbrev main_cst_25 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_26 : Ref sig .tc := ⟨.hbm, 170, rfl⟩
abbrev main_call6_v0 : Ref sig .tc := ⟨.hbm, 171, rfl⟩
abbrev main_call6_v1 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩

abbrev nD : Nat := 1
abbrev τ : Topo := Topo.v7x

variable {F : FTy → Type} [FloatOps F]

class Facts₀ : Prop where
  concatenates_S200000x8_S200000x8_S200000x16_d1 : Shape.Concatenates [S200000x8, S200000x8] S200000x16 1
  transposes_S40x16_S16x40_1_0 : S40x16.Transposes [1, 0] S16x40
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  bcast_S_S200000x40 : S_.BroadcastsInDim S200000x40 (![] : Fin 0 → Fin S200000x40.rank)
  reducesTo_S200000x40_S40_d0 : S200000x40.ReducesTo [0] S40
  h_S_ : 0 < S_.numel
  bcast_S_S40 : S_.BroadcastsInDim S40 (![] : Fin 0 → Fin S40.rank)
  bcast_S_S3200000 : S_.BroadcastsInDim S3200000 (![] : Fin 0 → Fin S3200000.rank)
  bcast_S_S200000 : S_.BroadcastsInDim S200000 (![] : Fin 0 → Fin S200000.rank)
  bcast_S3200000_S3200000x1_0 : S3200000.BroadcastsInDim S3200000x1 (![0] : Fin 1 → Fin S3200000x1.rank)
  bcast_S200000_S200000x1_0 : S200000.BroadcastsInDim S200000x1 (![0] : Fin 1 → Fin S200000x1.rank)
  bcast_S200000x1_S200000x40_0_1 : S200000x1.BroadcastsInDim S200000x40 (![0, 1] : Fin 2 → Fin S200000x40.rank)
  bcast_S_S200000x24 : S_.BroadcastsInDim S200000x24 (![] : Fin 0 → Fin S200000x24.rank)
  bcast_S200000x1_S200000x24_0_1 : S200000x1.BroadcastsInDim S200000x24 (![0, 1] : Fin 2 → Fin S200000x24.rank)
  bcast_S24_S1x24_1 : S24.BroadcastsInDim S1x24 (![1] : Fin 1 → Fin S1x24.rank)
  bcast_S1x24_S200000x24_0_1 : S1x24.BroadcastsInDim S200000x24 (![0, 1] : Fin 2 → Fin S200000x24.rank)
  concatenates_S200000x24_S200000x8_S200000x32_d1 : Shape.Concatenates [S200000x24, S200000x8] S200000x32 1
  transposes_S24x32_S32x24_1_0 : S24x32.Transposes [1, 0] S32x24
  bcast_S_S64x24 : S_.BroadcastsInDim S64x24 (![] : Fin 0 → Fin S64x24.rank)
  bcast_S_S64 : S_.BroadcastsInDim S64 (![] : Fin 0 → Fin S64.rank)
  bcast_S64_S64x1_0 : S64.BroadcastsInDim S64x1 (![0] : Fin 1 → Fin S64x1.rank)
  bcast_S64x1_S64x24_0_1 : S64x1.BroadcastsInDim S64x24 (![0, 1] : Fin 2 → Fin S64x24.rank)
  transposes_S1x24_S24x1_1_0 : S1x24.Transposes [1, 0] S24x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S200000x16_S16x40_S200000x40_1_0_0_1_n_n_wf : DotDims.WF S200000x16 S16x40 S200000x40 [1] [0] [0] [1] [] []
  scatter_S200000_S3200000x1_S3200000_n_0_0_1_wf : ScatterDims.WF S200000 S3200000x1 S3200000 [] [0] [0] 1
  dot_S200000x40_S40x24_S200000x24_1_0_0_1_n_n_wf : DotDims.WF S200000x40 S40x24 S200000x24 [1] [0] [0] [1] [] []
  gather_S200000x24_S3200000x1_S3200000x24_1_0_n_n_0_1_124_wf : GatherDims.WF S200000x24 S3200000x1 S3200000x24 [1] [0] [] [0] [] 1 ![1, 24]
  scatter_S200000x24_S3200000x1_S3200000x24_1_0_0_1_wf : ScatterDims.WF S200000x24 S3200000x1 S3200000x24 [1] [0] [0] 1
  dot_S200000x32_S32x24_S200000x24_1_0_0_1_n_n_wf : DotDims.WF S200000x32 S32x24 S200000x24 [1] [0] [0] [1] [] []
  dot_S200000x24_S24x24_S200000x24_1_0_0_1_n_n_wf : DotDims.WF S200000x24 S24x24 S200000x24 [1] [0] [0] [1] [] []
  scatter_S64x24_S200000x1_S200000x24_1_0_0_1_wf : ScatterDims.WF S64x24 S200000x1 S200000x24 [1] [0] [0] 1
  scatter_S64_S200000x1_S200000_n_0_0_1_wf : ScatterDims.WF S64 S200000x1 S200000 [] [0] [0] 1
  dot_S64x24_S24x1_S64x1_1_0_0_1_n_n_wf : DotDims.WF S64x24 S24x1 S64x1 [1] [0] [0] [1] [] []

variable [Facts₀]

def dot_S200000x16_S16x40_S200000x40_1_0_0_1_n_n : DotDims S200000x16 S16x40 S200000x40 where
  lhsContracting := [1]
  rhsContracting := [0]
  lhsNonContracting := [0]
  rhsNonContracting := [1]
  lhsBatch := []
  rhsBatch := []
  wf := dot_S200000x16_S16x40_S200000x40_1_0_0_1_n_n_wf
def scatter_S200000_S3200000x1_S3200000_n_0_0_1 : ScatterDims S200000 S3200000x1 S3200000 where
  updateWindowDims := []
  insertedWindowDims := [0]
  scatterDimsToOperandDims := [0]
  indexVectorDim := 1
  wf := scatter_S200000_S3200000x1_S3200000_n_0_0_1_wf
def dot_S200000x40_S40x24_S200000x24_1_0_0_1_n_n : DotDims S200000x40 S40x24 S200000x24 where
  lhsContracting := [1]
  rhsContracting := [0]
  lhsNonContracting := [0]
  rhsNonContracting := [1]
  lhsBatch := []
  rhsBatch := []
  wf := dot_S200000x40_S40x24_S200000x24_1_0_0_1_n_n_wf
def gather_S200000x24_S3200000x1_S3200000x24_1_0_n_n_0_1_124 : GatherDims S200000x24 S3200000x1 S3200000x24 where
  offsetDims := [1]
  collapsedSliceDims := [0]
  operandBatchingDims := []
  startIndicesBatchingDims := []
  startIndexMap := [0]
  indexVectorDim := 1
  sliceSizes := ![1, 24]
  wf := gather_S200000x24_S3200000x1_S3200000x24_1_0_n_n_0_1_124_wf
def scatter_S200000x24_S3200000x1_S3200000x24_1_0_0_1 : ScatterDims S200000x24 S3200000x1 S3200000x24 where
  updateWindowDims := [1]
  insertedWindowDims := [0]
  scatterDimsToOperandDims := [0]
  indexVectorDim := 1
  wf := scatter_S200000x24_S3200000x1_S3200000x24_1_0_0_1_wf
def dot_S200000x32_S32x24_S200000x24_1_0_0_1_n_n : DotDims S200000x32 S32x24 S200000x24 where
  lhsContracting := [1]
  rhsContracting := [0]
  lhsNonContracting := [0]
  rhsNonContracting := [1]
  lhsBatch := []
  rhsBatch := []
  wf := dot_S200000x32_S32x24_S200000x24_1_0_0_1_n_n_wf
def dot_S200000x24_S24x24_S200000x24_1_0_0_1_n_n : DotDims S200000x24 S24x24 S200000x24 where
  lhsContracting := [1]
  rhsContracting := [0]
  lhsNonContracting := [0]
  rhsNonContracting := [1]
  lhsBatch := []
  rhsBatch := []
  wf := dot_S200000x24_S24x24_S200000x24_1_0_0_1_n_n_wf
def scatter_S64x24_S200000x1_S200000x24_1_0_0_1 : ScatterDims S64x24 S200000x1 S200000x24 where
  updateWindowDims := [1]
  insertedWindowDims := [0]
  scatterDimsToOperandDims := [0]
  indexVectorDim := 1
  wf := scatter_S64x24_S200000x1_S200000x24_1_0_0_1_wf
def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def dot_S64x24_S24x1_S64x1_1_0_0_1_n_n : DotDims S64x24 S24x1 S64x1 where
  lhsContracting := [1]
  rhsContracting := [0]
  lhsNonContracting := [0]
  rhsNonContracting := [1]
  lhsBatch := []
  rhsBatch := []
  wf := dot_S64x24_S24x1_S64x1_1_0_0_1_n_n_wf

class Facts : Prop extends Facts₀ where

variable [Facts]
-- ==== Proof.KI.Reg0.lean ====
import proofs.«420467_j63230508531831_3_alg».proof.Proof.Gen.KernelIdeal.Launch
import proofs.«420467_j63230508531831_3_alg».proof.Proof.Gen.KernelIdeal.Skeleton
import proofs.«420467_j63230508531831_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 50 = 0 :=
  (by decide +kernel : ∀ t : Fin grid0.N, cond0_0 (grid0.coords t) ↔ t.val % 50 = 0)

abbrev VO0_3 : View sig .tc .vmem S1x40 .f32 := (Memref.whole cc0_stg3_0 : Memref sig .tc .vmem S1x40 .f32).view
abbrev VO0_4 : View sig .tc .vmem S1x40 .f32 := (Memref.whole cc0_stg4_0 : Memref sig .tc .vmem S1x40 .f32).view

abbrev ms0_0 (t : Fin cfg0.N) : Memref sig .tc .vmem S4000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x40 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40 .f32 := win0_4.stage (cfg0.slots t 4)
abbrev hs0_4 (t : Fin cfg0.N) : (ms0_4 t).IsWhole := hstage0_4 ((cfg0.slots t 4).cast nbuf0_4)

section Body
variable (c : Dev nD) (i : grid0.Coords) (arg1 : Memref sig .tc .vmem S4000x16 .f32) (harg1 : arg1.IsWhole) (arg2 : Memref sig .tc .vmem S40x16 .f32) (harg2 : arg2.IsWhole) (arg3 : Memref sig .tc .vmem S1x40 .f32) (harg3 : arg3.IsWhole) (arg4 : Memref sig .tc .vmem S1x40 .f32) (harg4 : arg4.IsWhole) (arg5 : Memref sig .tc .vmem S1x40 .f32) (harg5 : arg5.IsWhole)

section CaseA
variable (hc0 : cond0_0 i) (x0 : Vec F S4000x16 .f32) (x1 : Vec F S40x16 .f32) (x2 : Vec F S1x40 .f32)
set_option maxHeartbeats 1000000 in
noncomputable def kernelRun0_A :
    Σ' (L3 : List (View.Piece (Elt F) S1x40 .f32)), { L4 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__bn_stats_kernel i arg1 harg1 arg2 harg2 arg3 harg3 arg4 harg4 arg5 harg5) K } := by
  refine ⟨?_, ?_, fun E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

theorem cover0_A_3 (y : S1x40.Idx) :
    ∃ pc ∈ (kernelRun0_A c i arg1 harg1 arg2 harg2 arg3 harg3 arg4 harg4 arg5 harg5 hc0 x0 x1 x2).1, y ∈ pc.1.set :=
  View.cover_of_tiledL _ S1x40.size (by sl_kernel_rfl) y

def out0_A_3 : Vec F S1x40 .f32 :=
  VO0_3.read (Elt F) (VO0_3.writes (Elt F) VO0_3.junk (kernelRun0_A c i arg1 harg1 arg2 harg2 arg3 harg3 arg4 harg4 arg5 harg5 hc0 x0 x1 x2).1)

theorem cover0_A_4 (y : S1x40.Idx) :
    ∃ pc ∈ (kernelRun0_A c i arg1 harg1 arg2 harg2 arg3 harg3 arg4 harg4 arg5 harg5 hc0 x0 x1 x2).2.1, y ∈ pc.1.set :=
  View.cover_of_tiledL _ S1x40.size (by sl_kernel_rfl) y

def out0_A_4 : Vec F S1x40 .f32 :=
  VO0_4.read (Elt F) (VO0_4.writes (Elt F) VO0_4.junk (kernelRun0_A c i arg1 harg1 arg2 harg2 arg3 harg3 arg4 harg4 arg5 harg5 hc0 x0 x1 x2).2.1)
end CaseA

section CaseB
variable (hc0 : ¬cond0_0 i) (x0 : Vec F S4000x16 .f32) (x1 : Vec F S40x16 .f32) (x2 : Vec F S1x40 .f32) (xo3 : Vec F S1x40 .f32) (xo4 : Vec F S1x40 .f32)
set_option maxHeartbeats 1000000 in
noncomputable def kernelRun0_B :
    Σ' (L3 : List (View.Piece (Elt F) S1x40 .f32)), { L4 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__bn_stats_kernel i arg1 harg1 arg2 harg2 arg3 harg3 arg4 harg4 arg5 harg5) K } := by
  refine ⟨?_, ?_, fun E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

theorem cover0_B_3 (y : S1x40.Idx) :
    ∃ pc ∈ (kernelRun0_B c i arg1 harg1 arg2 harg2 arg3 harg3 arg4 harg4 arg5 harg5 hc0 x0 x1 x2 xo3 xo4).1, y ∈ pc.1.set :=
  View.cover_of_tiledL _ S1x40.size (by sl_kernel_rfl) y

def out0_B_3 : Vec F S1x40 .f32 :=
  VO0_3.read (Elt F) (VO0_3.writes (Elt F) VO0_3.junk (kernelRun0_B c i arg1 harg1 arg2 harg2 arg3 harg3 arg4 harg4 arg5 harg5 hc0 x0 x1 x2 xo3 xo4).1)

theorem cover0_B_4 (y : S1x40.Idx) :
    ∃ pc ∈ (kernelRun0_B c i arg1 harg1 arg2 harg2 arg3 harg3 arg4 harg4 arg5 harg5 hc0 x0 x1 x2 xo3 xo4).2.1, y ∈ pc.1.set :=
  View.cover_of_tiledL _ S1x40.size (by sl_kernel_rfl) y

def out0_B_4 : Vec F S1x40 .f32 :=
  VO0_4.read (Elt F) (VO0_4.writes (Elt F) VO0_4.junk (kernelRun0_B c i arg1 harg1 arg2 harg2 arg3 harg3 arg4 harg4 arg5 harg5 hc0 x0 x1 x2 xo3 xo4).2.1)
end CaseB
end Body

-- What each point leaves in the two accumulated output blocks, by recursion on the point.
def outsAt0 (c : Dev nD) : (n : ℕ) → n < cfg0.N → Vec F S1x40 .f32 × Vec F S1x40 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 50 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

theorem outsAt0_A (c : Dev nD) (t : Fin cfg0.N) (h0 : t.val % 50 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 50 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

-- The region's proof data: inputs stay at their blocks, outputs carry what the points so far have left.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

-- At every point an input window holds the array's block there.
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3_B (c : Dev nD) (t : Fin cfg0.N) (h0 : ¬t.val % 50 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 50 = 0) (d) :
    (dat0 V c).before 4 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

-- One grid point: from the windows' blocks to what the point leaves, by the case the point falls in.
set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 50 := lt_of_lt_of_eq t.isLt (show cfg0.N = 50 from N_0)
  by_cases h0 : t.val % 50 = 0
  · rw [outsAt0_A V c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0]
    dsimp only
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.H

end
-- ==== Proof.KI.Reg1.lean ====
import proofs.«420467_j63230508531831_3_alg».proof.Proof.Gen.KernelIdeal.Launch
import proofs.«420467_j63230508531831_3_alg».proof.Proof.Gen.KernelIdeal.Skeleton
import proofs.«420467_j63230508531831_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x16 := Rect.unit (s := S4000x16) ![0, 0] S4000x16.size inb_S4000x16_S4000x16_0_0
abbrev r1_1 : Rect S40x16 := Rect.unit (s := S40x16) ![0, 0] S40x16.size inb_S40x16_S40x16_0_0
abbrev r1_2 : Rect S1x40 := Rect.unit (s := S1x40) ![0, 0] S1x40.size inb_S1x40_S1x40_0_0
abbrev r1_3 : Rect S4000x1 := Rect.unit (s := S4000x1) ![0, 0] S4000x1.size inb_S4000x1_S4000x1_0_0
abbrev r1_4 : Rect S40x24 := Rect.unit (s := S40x24) ![0, 0] S40x24.size inb_S40x24_S40x24_0_0
abbrev r1_5 : Rect S4000x24 := Rect.unit (s := S4000x24) ![0, 0] S4000x24.size inb_S4000x24_S4000x24_0_0

def out1_9 (x0 : Vec F S4000x16 .f32) (x1 : Vec F S40x16 .f32) (x2 : Vec F S1x40 .f32) (x3 : Vec F S1x40 .f32) (x4 : Vec F S1x40 .f32)
    (x5 : Vec F S1x40 .f32) (x6 : Vec F S1x40 .f32) (x7 : Vec F S4000x1 .f32) (x8 : Vec F S40x24 .f32) : Vec F S4000x24 .bf16 :=
  View.canon [⟨r1_5, k1_pay1 (k1_pay2 (View.ld x0 r1_0) (View.ld x1 r1_1) (View.ld x2 r1_2) (View.ld x6 r1_2) (View.ld x5 r1_2)
    (View.ld x3 r1_2) (View.ld x4 r1_2) (View.ld x7 r1_3)) (View.ld x8 r1_4)⟩]

theorem cover1_9 (p0 : Vec F S4000x24 .bf16) (y : S4000x24.Idx) :
    ∃ pc ∈ ([⟨r1_5, p0⟩] : List (View.Piece (Elt F) S4000x24 .bf16)), y ∈ pc.1.set :=
  View.cover_of_tiled [⟨r1_5, p0⟩] S4000x24.size (by rfl) y

set_option maxHeartbeats 4000000 in
theorem sound_kernel1 (c : Dev nD) (E : Set ℕ) (i : grid1.Coords)
    (arg1 : Memref sig .tc .vmem S4000x16 .f32) (harg1 : arg1.IsWhole) (arg2 : Memref sig .tc .vmem S40x16 .f32) (harg2 : arg2.IsWhole)
    (arg3 : Memref sig .tc .vmem S1x40 .f32) (harg3 : arg3.IsWhole) (arg4 : Memref sig .tc .vmem S1x40 .f32) (harg4 : arg4.IsWhole)
    (arg5 : Memref sig .tc .vmem S1x40 .f32) (harg5 : arg5.IsWhole) (arg6 : Memref sig .tc .vmem S1x40 .f32) (harg6 : arg6.IsWhole)
    (arg7 : Memref sig .tc .vmem S1x40 .f32) (harg7 : arg7.IsWhole) (arg8 : Memref sig .tc .vmem S4000x1 .f32) (harg8 : arg8.IsWhole)
    (arg9 : Memref sig .tc .vmem S40x24 .f32) (harg9 : arg9.IsWhole) (arg10 : Memref sig .tc .vmem S4000x24 .bf16) (harg10 : arg10.IsWhole)
    (x0 : Vec F S4000x16 .f32) (x1 : Vec F S40x16 .f32) (x2 : Vec F S1x40 .f32) (x3 : Vec F S1x40 .f32) (x4 : Vec F S1x40 .f32)
    (x5 : Vec F S1x40 .f32) (x6 : Vec F S1x40 .f32) (x7 : Vec F S4000x1 .f32) (x8 : Vec F S40x24 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__stage1_kernel i arg1 harg1 arg2 harg2 arg3 harg3 arg4 harg4 arg5 harg5 arg6 harg6 arg7 harg7 arg8 harg8 arg9 harg9 arg10 harg10) K := by
  simp only [cc1__stage1_kernel_eq_skeleton]; unfold cc1__stage1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

-- The region's proof data: inputs stay at their blocks, outputs carry what the points so far have left.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

-- At every point an input window holds the array's block there.
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

-- One grid point: from the windows' blocks to the output block the point leaves.
set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.KernelIdeal.H
end
-- ==== Proof.KI.Reg2.lean ====
import proofs.«420467_j63230508531831_3_alg».proof.Proof.Gen.KernelIdeal.Launch
import proofs.«420467_j63230508531831_3_alg».proof.Proof.Gen.KernelIdeal.Skeleton
import proofs.«420467_j63230508531831_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x2 := Rect.unit (s := S4000x2) ![0, 0] S4000x1.size inb_S4000x2_S4000x1_0_0

abbrev r2_1 : Rect S4000x2 := Rect.unit (s := S4000x2) ![0, 1] S4000x1.size inb_S4000x2_S4000x1_0_1

abbrev r2_2 : Rect S4000x24 := Rect.unit (s := S4000x24) ![0, 0] S4000x24.size inb_S4000x24_S4000x24_0_0
abbrev r2_3 : Rect S1x24 := Rect.unit (s := S1x24) ![0, 0] S1x24.size inb_S1x24_S1x24_0_0
abbrev r2_4 : Rect S4000x8 := Rect.unit (s := S4000x8) ![0, 0] S4000x8.size inb_S4000x8_S4000x8_0_0
abbrev r2_5 : Rect S24x24 := Rect.unit (s := S24x24) ![0, 0] S24x24.size inb_S24x24_S24x24_0_0
abbrev r2_6 : Rect S24x8 := Rect.unit (s := S24x8) ![0, 0] S24x8.size inb_S24x8_S24x8_0_0

def out2_8 (x0 : Vec F S4000x24 .f32) (x1 : Vec F S4000x2 .f32) (x2 : Vec F S1x24 .f32) (x3 : Vec F S4000x8 .f32)
    (x4 : Vec F S24x24 .f32) (x5 : Vec F S24x8 .f32) (x6 : Vec F S1x24 .f32) (x7 : Vec F S24x24 .f32) : Vec F S4000x24 .bf16 :=
  View.canon [⟨r2_2, k2_pay1 (k2_pay2 (View.ld x1 r2_0) (View.ld x1 r2_1) (View.ld x0 r2_2) (View.ld x2 r2_3) (View.ld x3 r2_4) (View.ld x4 r2_5) (View.ld x5 r2_6) (View.ld x6 r2_3)) (k2_pay3 (View.ld x7 r2_5)) (constant S4000x24 .f32 0x00000000#32)⟩]

theorem cover2_8 (p0 : Vec F S4000x24 .bf16) (y : S4000x24.Idx) :
    ∃ pc ∈ ([⟨r2_2, p0⟩] : List (View.Piece (Elt F) S4000x24 .bf16)), y ∈ pc.1.set :=
  View.cover_of_tiled [⟨r2_2, p0⟩] S4000x24.size (by rfl) y

set_option maxHeartbeats 4000000 in
theorem sound_kernel2 (c : Dev nD) (E : Set ℕ) (i : grid2.Coords)
    (arg1 : Memref sig .tc .vmem S4000x24 .f32) (harg1 : arg1.IsWhole) (arg2 : Memref sig .tc .vmem S4000x2 .f32) (harg2 : arg2.IsWhole)
    (arg3 : Memref sig .tc .vmem S1x24 .f32) (harg3 : arg3.IsWhole) (arg4 : Memref sig .tc .vmem S4000x8 .f32) (harg4 : arg4.IsWhole)
    (arg5 : Memref sig .tc .vmem S24x24 .f32) (harg5 : arg5.IsWhole) (arg6 : Memref sig .tc .vmem S24x8 .f32) (harg6 : arg6.IsWhole)
    (arg7 : Memref sig .tc .vmem S1x24 .f32) (harg7 : arg7.IsWhole) (arg8 : Memref sig .tc .vmem S24x24 .f32) (harg8 : arg8.IsWhole)
    (arg9 : Memref sig .tc .vmem S4000x24 .bf16) (harg9 : arg9.IsWhole)
    (x0 : Vec F S4000x24 .f32) (x1 : Vec F S4000x2 .f32) (x2 : Vec F S1x24 .f32) (x3 : Vec F S4000x8 .f32)
    (x4 : Vec F S24x24 .f32) (x5 : Vec F S24x8 .f32) (x6 : Vec F S1x24 .f32) (x7 : Vec F S24x24 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__stage2_kernel i arg1 harg1 arg2 harg2 arg3 harg3 arg4 harg4 arg5 harg5 arg6 harg6 arg7 harg7 arg8 harg8 arg9 harg9) K := by
  simp only [cc2__stage2_kernel_eq_skeleton]; unfold cc2__stage2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

-- The region's proof data: inputs stay at their blocks, outputs carry what the points so far have left.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by
  dsimp only [dat2]

-- At every point an input window holds the array's block there.
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

-- One grid point: from the windows' blocks to the output block the point leaves.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.KernelIdeal.H

end
-- ==== Proof.KI.Reg3.lean ====
import proofs.«420467_j63230508531831_3_alg».proof.Proof.Gen.KernelIdeal.Launch
import proofs.«420467_j63230508531831_3_alg».proof.Proof.Gen.KernelIdeal.Skeleton
import proofs.«420467_j63230508531831_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev isFirst3 (i : grid3.Coords) : Prop := (Scalar.cmpi .ne (Scalar.extui (Scalar.cmpi .eq (BitVec.ofNat 32 (i 0).val) 0#32)) 0#32) = 1#1

theorem isFirst3_iff : ∀ t : Fin cfg3.N, isFirst3 (grid3.coords t) ↔ t.val = 0 :=
  (by decide +kernel : ∀ t : Fin grid3.N, isFirst3 (grid3.coords t) ↔ t.val = 0)

abbrev isLast3 (i : grid3.Coords) : Prop := k3_cond2 i = 1#1

theorem isLast3_iff : ∀ t : Fin cfg3.N, isLast3 (grid3.coords t) ↔ t.val = 49 :=
  (by decide +kernel : ∀ t : Fin grid3.N, isLast3 (grid3.coords t) ↔ t.val = 49)

theorem idle3_6 : ∀ t : Fin cfg3.N, ¬isLast3 (grid3.coords t) → cfg3.idle 6 (grid3.coords t) = true := by decide +kernel

theorem noFlush3_6 : ∀ t : Fin cfg3.N, ¬isLast3 (grid3.coords t) → (cfg3.win 6).flush t = false := by decide +kernel

theorem live3_6 : ∀ t : Fin cfg3.N, isLast3 (grid3.coords t) → cfg3.idle 6 (grid3.coords t) = false := by decide +kernel

abbrev scA3 : Memref sig .tc .vmem S64x24 .f32 := Memref.whole cc3_scratch0
abbrev scB3 : Memref sig .tc .vmem S64x1 .f32 := Memref.whole cc3_scratch1

abbrev vOut3 : View sig .tc .vmem S64x1 .f32 := (Memref.whole cc3_stg6_0 : Memref sig .tc .vmem S64x1 .f32).view

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scA3 fullShare d) ∗ (∃ d, owns (c : Thread nD τ) scB3 fullShare d)) ∗ rest3 c) ∗ (∃ r, prngReg c r)) := by
  unfold Pipeline.ΦA; rw [scopedRest3_split]; simp only [scA3, scB3, owns_whole]; try rfl

section Body
variable (c : Dev nD) (i : grid3.Coords) (arg1 : Memref sig .tc .vmem S4000x24 .f32) (harg1 : arg1.IsWhole) (arg2 : Memref sig .tc .vmem S4000x1 .f32) (harg2 : arg2.IsWhole) (arg3 : Memref sig .tc .vmem S1x24 .f32) (harg3 : arg3.IsWhole) (arg4 : Memref sig .tc .vmem S4000x1 .i32) (harg4 : arg4.IsWhole) (arg5 : Memref sig .tc .vmem S1x24 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x24 .f32) (harg8 : arg8.IsWhole) (arg9 : Memref sig .tc .vmem S64x1 .f32) (harg9 : arg9.IsWhole)

section First
variable (hc0 : isFirst3 i) (hc1 : ¬isLast3 i) (x0 : Vec F S4000x24 .f32) (x1 : Vec F S4000x1 .f32) (x2 : Vec F S1x24 .f32) (x3 : Vec F S4000x1 .i32) (x4 : Vec F S1x24 .f32) (x5 : Vec F S1x1 .f32)
set_option maxHeartbeats 4000000 in
noncomputable def runFirst3 :
    Σ' (LA : List (View.Piece (Elt F) S64x24 .f32)), { LB : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare xi6 ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dsA, %fsA, -, HSA⟩, ⟨%dsB, %fsB, -, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HSA]; · iexists _; iexact HSA
    iexists _; iexact HSB

theorem coverA_first3 (y : S64x24.Idx) :
    ∃ pc ∈ (runFirst3 c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL _ S64x24.size (by sl_kernel_rfl) y

theorem coverB_first3 (y : S64x1.Idx) :
    ∃ pc ∈ (runFirst3 c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL _ S64x1.size (by sl_kernel_rfl) y

def sA_first3 : Vec F S64x24 .f32 :=
  scA3.view.read (Elt F) (scA3.view.writes (Elt F) scA3.view.junk (runFirst3 c i arg1 harg1 arg2 harg2 arg3 harg3 arg4 harg4 arg5 harg5 arg6 harg6 arg7 harg7 arg8 harg8 arg9 harg9 hc0 hc1 x0 x1 x2 x3 x4 x5).1)

def sB_first3 : Vec F S64x1 .f32 :=
  scB3.view.read (Elt F) (scB3.view.writes (Elt F) scB3.view.junk (runFirst3 c i arg1 harg1 arg2 harg2 arg3 harg3 arg4 harg4 arg5 harg5 arg6 harg6 arg7 harg7 arg8 harg8 arg9 harg9 hc0 hc1 x0 x1 x2 x3 x4 x5).2.1)
end First

section Mid
variable (hc0 : ¬isFirst3 i) (hc1 : ¬isLast3 i) (x0 : Vec F S4000x24 .f32) (x1 : Vec F S4000x1 .f32) (x2 : Vec F S1x24 .f32) (x3 : Vec F S4000x1 .i32) (x4 : Vec F S1x24 .f32) (x5 : Vec F S1x1 .f32) (xsA : Vec F S64x24 .f32) (xsB : Vec F S64x1 .f32)
set_option maxHeartbeats 4000000 in
noncomputable def runMid3 :
    Σ' (LA : List (View.Piece (Elt F) S64x24 .f32)), { LB : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare xsA ∗ owns (c : Thread nD τ) arg9 fullShare xsB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare xi6 ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fsA, %hfsA, HSA⟩, ⟨%fsB, %hfsB, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfsA; obtain rfl := harg9.eq_unread hfsB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HSA]; · iexists _; iexact HSA
    iexists _; iexact HSB

theorem coverA_mid3 (y : S64x24.Idx) :
    ∃ pc ∈ (runMid3 c i arg1 harg1 arg2 harg2 arg3 harg3 arg4 harg4 arg5 harg5 arg6 harg6 arg7 harg7 arg8 harg8 arg9 harg9 hc0 hc1 x0 x1 x2 x3 x4 x5 xsA xsB).1, y ∈ pc.1.set :=
  View.cover_of_tiledL _ S64x24.size (by sl_kernel_rfl) y

theorem coverB_mid3 (y : S64x1.Idx) :
    ∃ pc ∈ (runMid3 c i arg1 harg1 arg2 harg2 arg3 harg3 arg4 harg4 arg5 harg5 arg6 harg6 arg7 harg7 arg8 harg8 arg9 harg9 hc0 hc1 x0 x1 x2 x3 x4 x5 xsA xsB).2.1, y ∈ pc.1.set :=
  View.cover_of_tiledL _ S64x1.size (by sl_kernel_rfl) y
def sA_mid3 : Vec F S64x24 .f32 :=
  scA3.view.read (Elt F) (scA3.view.writes (Elt F) scA3.view.junk (runMid3 c i arg1 harg1 arg2 harg2 arg3 harg3 arg4 harg4 arg5 harg5 arg6 harg6 arg7 harg7 arg8 harg8 arg9 harg9 hc0 hc1 x0 x1 x2 x3 x4 x5 xsA xsB).1)
def sB_mid3 : Vec F S64x1 .f32 :=
  scB3.view.read (Elt F) (scB3.view.writes (Elt F) scB3.view.junk (runMid3 c i arg1 harg1 arg2 harg2 arg3 harg3 arg4 harg4 arg5 harg5 arg6 harg6 arg7 harg7 arg8 harg8 arg9 harg9 hc0 hc1 x0 x1 x2 x3 x4 x5 xsA xsB).2.1)
end Mid

section Last
variable (hc0 : ¬isFirst3 i) (hc1 : isLast3 i) (x0 : Vec F S4000x24 .f32) (x1 : Vec F S4000x1 .f32) (x2 : Vec F S1x24 .f32) (x3 : Vec F S4000x1 .i32) (x4 : Vec F S1x24 .f32) (x5 : Vec F S1x1 .f32) (xsA : Vec F S64x24 .f32) (xsB : Vec F S64x1 .f32)
set_option maxHeartbeats 4000000 in
noncomputable def runLast3 :
    Σ' (L6 : List (View.Piece (Elt F) S64x1 .f32)) (LA : List (View.Piece (Elt F) S64x24 .f32)), { LB : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xsA ∗ owns (c : Thread nD τ) arg9 fullShare xsB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fsA, %hfsA, HSA⟩, ⟨%fsB, %hfsB, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfsA; obtain rfl := harg9.eq_unread hfsB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HSA]; · iexists _; iexact HSA
    iexists _; iexact HSB
theorem cover6_last3 (y : S64x1.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).1, y ∈ pc.1.set :=
  View.cover_of_tiledL _ S64x1.size (by sl_kernel_rfl) y

theorem coverA_last3 (y : S64x24.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).2.1, y ∈ pc.1.set :=
  View.cover_of_tiledL _ S64x24.size (by sl_kernel_rfl) y

theorem coverB_last3 (y : S64x1.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).2.2.1, y ∈ pc.1.set :=
  View.cover_of_tiledL _ S64x1.size (by sl_kernel_rfl) y

def out_last3 : Vec F S64x1 .f32 :=
  vOut3.read (Elt F) (vOut3.writes (Elt F) vOut3.junk (runLast3 c i arg1 harg1 arg2 harg2 arg3 harg3 arg4 harg4 arg5 harg5 arg6 harg6 arg7 harg7 arg8 harg8 arg9 harg9 hc0 hc1 x0 x1 x2 x3 x4 x5 xsA xsB).1)
def sA_last3 : Vec F S64x24 .f32 :=
  scA3.view.read (Elt F) (scA3.view.writes (Elt F) scA3.view.junk (runLast3 c i arg1 harg1 arg2 harg2 arg3 harg3 arg4 harg4 arg5 harg5 arg6 harg6 arg7 harg7 arg8 harg8 arg9 harg9 hc0 hc1 x0 x1 x2 x3 x4 x5 xsA xsB).2.1)
def sB_last3 : Vec F S64x1 .f32 :=
  scB3.view.read (Elt F) (scB3.view.writes (Elt F) scB3.view.junk (runLast3 c i arg1 harg1 arg2 harg2 arg3 harg3 arg4 harg4 arg5 harg5 arg6 harg6 arg7 harg7 arg8 harg8 arg9 harg9 hc0 hc1 x0 x1 x2 x3 x4 x5 xsA xsB).2.2.1)
end Last
end Body

abbrev ms3_0 (t : Fin cfg3.N) : Memref sig .tc .vmem S4000x24 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x24 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x24 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x1 .f32 := win3_6.stage (cfg3.slots t 6)
abbrev hs3_6 (t : Fin cfg3.N) : (ms3_6 t).IsWhole := hstage3_6 ((cfg3.slots t 6).cast nbuf3_6)

def out_idle3 : Vec F S64x1 .f32 := vOut3.read (Elt F) (vOut3.writes (Elt F) vOut3.junk [])

-- What each point leaves: the output block and the two running accumulators, by recursion on the point.
def outsAt3 (c : Dev nD) : (n : ℕ) → n < cfg3.N → Vec F S64x1 .f32 × Vec F S64x24 .f32 × Vec F S64x1 .f32
  | 0, hn =>
    (out_idle3,
     sA_first3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scA3 (Memref.isWhole_whole _) scB3 (Memref.isWhole_whole _) ((isFirst3_iff ⟨0, hn⟩).mpr rfl) (fun h => absurd ((isLast3_iff ⟨0, hn⟩).mp h) (show ¬(0 : ℕ) = 49 by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩),
     sB_first3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scA3 (Memref.isWhole_whole _) scB3 (Memref.isWhole_whole _) ((isFirst3_iff ⟨0, hn⟩).mpr rfl) (fun h => absurd ((isLast3_iff ⟨0, hn⟩).mp h) (show ¬(0 : ℕ) = 49 by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h1 : n + 1 = 49 then
      (out_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sA_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sB_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2)
    else
      (out_idle3,
       sA_mid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sB_mid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2)

theorem outsAt3_first (c : Dev nD) (t : Fin cfg3.N) (h0 : t.val = 0) (h1 : ¬t.val = 49) :
    outsAt3 V c t.val t.isLt =
      (out_idle3,
       sA_first3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) ((isFirst3_iff t).mpr h0) (fun h => h1 ((isLast3_iff t).mp h)) (iblk3 V c 0 t) (iblk3 V c 1 t) (iblk3 V c 2 t) (iblk3 V c 3 t) (iblk3 V c 4 t) (iblk3 V c 5 t),
       sB_first3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) ((isFirst3_iff t).mpr h0) (fun h => h1 ((isLast3_iff t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact absurd h0 (Nat.succ_ne_zero n)

theorem outsAt3_mid (c : Dev nD) (t : Fin cfg3.N) (h0 : ¬t.val = 0) (h1 : ¬t.val = 49) :
    outsAt3 V c t.val t.isLt =
      (out_idle3,
       sA_mid3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) (fun h => h1 ((isLast3_iff t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sB_mid3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) (fun h => h1 ((isLast3_iff t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt3_last (c : Dev nD) (t : Fin cfg3.N) (h0 : ¬t.val = 0) (h1 : t.val = 49) :
    outsAt3 V c t.val t.isLt =
      (out_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sA_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sB_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_pos h1).trans rfl

def PhiS3 (c : Dev nD) : (n : ℕ) → n ≤ cfg3.N → sProp 𝕄
  | 0, _ => Pipeline.ΦA spec3 c
  | n + 1, hn => iprop(iprop(iprop(owns (c : Thread nD τ) scA3 fullShare ((outsAt3 V c n hn).2.1) ∗ owns (c : Thread nD τ) scB3 fullShare ((outsAt3 V c n hn).2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scA3 fullShare ((outsAt3 V c n hn).2.1) ∗ owns (c : Thread nD τ) scB3 fullShare ((outsAt3 V c n hn).2.2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scA3 fullShare ((outsAt3 V c (n - 1) (by omega)).2.1) ∗ owns (c : Thread nD τ) scB3 fullShare ((outsAt3 V c (n - 1) (by omega)).2.2)) ∗ rest3 c) ∗ (∃ r, prngReg c r)) := by
  cases n with
  | zero => exact absurd rfl hz
  | succ n => rfl

-- The region's proof data: inputs stay at their blocks, outputs carry what the points so far have left.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

-- At every point an input window holds the array's block there.
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [show cfg3.idle 0 (cfg3.grid.coords t) = false from rfl], after3_0]

theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [show cfg3.idle 1 (cfg3.grid.coords t) = false from rfl], after3_1]

theorem leaves3_2 (c : Dev nD) (t : Fin cfg3.N) :
    (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [show cfg3.idle 2 (cfg3.grid.coords t) = false from rfl], after3_2]

theorem leaves3_3 (c : Dev nD) (t : Fin cfg3.N) :
    (dat3 V c).leavesExact 3 t = owns (c : Thread nD τ) (ms3_3 t) fullShare (iblk3 V c 3 t) := by
  rw [show (dat3 V c).leavesExact 3 t = owns (c : Thread nD τ) (ms3_3 t) fullShare ((dat3 V c).after 3 t) from by
    unfold Dat.leavesExact; rw [show cfg3.idle 3 (cfg3.grid.coords t) = false from rfl], after3_3]

theorem leaves3_4 (c : Dev nD) (t : Fin cfg3.N) :
    (dat3 V c).leavesExact 4 t = owns (c : Thread nD τ) (ms3_4 t) fullShare (iblk3 V c 4 t) := by
  rw [show (dat3 V c).leavesExact 4 t = owns (c : Thread nD τ) (ms3_4 t) fullShare ((dat3 V c).after 4 t) from by
    unfold Dat.leavesExact; rw [show cfg3.idle 4 (cfg3.grid.coords t) = false from rfl], after3_4]

theorem leaves3_5 (c : Dev nD) (t : Fin cfg3.N) :
    (dat3 V c).leavesExact 5 t = owns (c : Thread nD τ) (ms3_5 t) fullShare (iblk3 V c 5 t) := by
  rw [show (dat3 V c).leavesExact 5 t = owns (c : Thread nD τ) (ms3_5 t) fullShare ((dat3 V c).after 5 t) from by
    unfold Dat.leavesExact; rw [show cfg3.idle 5 (cfg3.grid.coords t) = false from rfl], after3_5]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- One grid point: from the windows' blocks to what the point leaves, by the case the point falls in.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5]
  have hN : t.val < 50 := lt_of_lt_of_eq t.isLt (show cfg3.N = 50 from N_3)
  by_cases h0 : t.val = 0
  ·
    have h1 : ¬t.val = 49 := by omega
    have hl : ¬isLast3 (grid3.coords t) := fun h => h1 ((isLast3_iff t).mp h)
    rw [Dat.leavesExact_idle (dat3 V c) 6 t (idle3_6 t hl) (noFlush3_6 t hl)]
    rw [outsAt3_first V c t h0 h1]
    unfold sA_first3 sB_first3; (try dsimp only)
    rw [PhiS3_castSucc V c t, PhiS3_zero V c _ _ h0, PhiA3_eq]
    iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst3 c (grid3.coords t) _ _ _ _ _ _ _ _ _ _ _ _ _ _ _ _ _ _ ((isFirst3_iff t).mpr h0) hl (iblk3 V c 0 t) (iblk3 V c 1 t) (iblk3 V c 2 t) (iblk3 V c 3 t) (iblk3 V c 4 t) (iblk3 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSA]; · iexact HSA
    isplitl [HSB]; · iexact HSB
    iintro ⟨H0, H1, H2, H3, H4, H5, H6, ⟨%esA, HSA⟩, ⟨%esB, HSB⟩⟩
    isplitl [HSA HSB Hrest Hg]
    · isplitl [HSA HSB Hrest]
      · isplitl [HSA HSB]
        · isplitl [HSA]
          · unfold owns; iexists _; isplitr
            swap; · iexact HSA
            ipureintro; exact View.read_writes_of_cover _ _ _ _ _ (coverA_first3 c _ _ _ _ _ _ _ _ _ _ _ _ _ _ _ _ _ _ _ _ _ _ _ _ _ _ _)
          · unfold owns; iexists _; isplitr
            swap; · iexact HSB
            ipureintro; exact View.read_writes_of_cover _ _ _ _ _ (coverB_first3 c _ _ _ _ _ _ _ _ _ _ _ _ _ _ _ _ _ _ _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 49
    ·
      have hf : ¬isFirst3 (grid3.coords t) := fun h => h0 ((isFirst3_iff t).mp h)
      have hl : isLast3 (grid3.coords t) := (isLast3_iff t).mpr h1
      rw [show (dat3 V c).leavesExact 6 t = owns (c : Thread nD τ) (ms3_6 t) fullShare ((dat3 V c).after 6 t) from by
        unfold Dat.leavesExact; rw [live3_6 t hl], after3_6]
      rw [outsAt3_last V c t h0 h1]
      unfold out_last3 sA_last3 sB_last3; (try dsimp only)
      rw [PhiS3_castSucc V c t, PhiS3_pos V c _ _ h0]
      iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast3 c (grid3.coords t) _ _ _ _ _ _ _ _ _ _ _ _ _ _ _ _ _ _ hf hl (iblk3 V c 0 t) (iblk3 V c 1 t) (iblk3 V c 2 t) (iblk3 V c 3 t) (iblk3 V c 4 t) (iblk3 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSA]; · iexact HSA
      isplitl [HSB]; · iexact HSB
      iintro ⟨H0, H1, H2, H3, H4, H5, ⟨%e6, H6⟩, ⟨%esA, HSA⟩, ⟨%esB, HSB⟩⟩
      isplitl [HSA HSB Hrest Hg]
      · isplitl [HSA HSB Hrest]
        · isplitl [HSA HSB]
          · isplitl [HSA]
            · unfold owns; iexists _; isplitr
              swap; · iexact HSA
              ipureintro; exact View.read_writes_of_cover _ _ _ _ _ (coverA_last3 c _ _ _ _ _ _ _ _ _ _ _ _ _ _ _ _ _ _ _ _ _ _ _ _ _ _ _ _ _)
            · unfold owns; iexists _; isplitr
              swap; · iexact HSB
              ipureintro; exact View.read_writes_of_cover _ _ _ _ _ (coverB_last3 c _ _ _ _ _ _ _ _ _ _ _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_last3 c _ _ _ _ _ _ _ _ _ _ _ _ _ _ _ _ _ _ _ _ _ _ _ _ _ _ _ _ _)
    ·
      have hf : ¬isFirst3 (grid3.coords t) := fun h => h0 ((isFirst3_iff t).mp h)
      have hl : ¬isLast3 (grid3.coords t) := fun h => h1 ((isLast3_iff t).mp h)
      rw [Dat.leavesExact_idle (dat3 V c) 6 t (idle3_6 t hl) (noFlush3_6 t hl)]
      rw [outsAt3_mid V c t h0 h1]
      unfold sA_mid3 sB_mid3; (try dsimp only)
      rw [PhiS3_castSucc V c t, PhiS3_pos V c _ _ h0]
      iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid3 c (grid3.coords t) _ _ _ _ _ _ _ _ _ _ _ _ _ _ _ _ _ _ hf hl (iblk3 V c 0 t) (iblk3 V c 1 t) (iblk3 V c 2 t) (iblk3 V c 3 t) (iblk3 V c 4 t) (iblk3 V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSA]; · iexact HSA
      isplitl [HSB]; · iexact HSB
      iintro ⟨H0, H1, H2, H3, H4, H5, H6, ⟨%esA, HSA⟩, ⟨%esB, HSB⟩⟩
      isplitl [HSA HSB Hrest Hg]
      · isplitl [HSA HSB Hrest]
        · isplitl [HSA HSB]
          · isplitl [HSA]
            · unfold owns; iexists _; isplitr
              swap; · iexact HSA
              ipureintro; exact View.read_writes_of_cover _ _ _ _ _ (coverA_mid3 c _ _ _ _ _ _ _ _ _ _ _ _ _ _ _ _ _ _ _ _ _ _ _ _ _ _ _ _ _)
            · unfold owns; iexists _; isplitr
              swap; · iexact HSB
              ipureintro; exact View.read_writes_of_cover _ _ _ _ _ (coverB_mid3 c _ _ _ _ _ _ _ _ _ _ _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem PhiS3_gives (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨⟨HSA, HSB⟩, Hrest⟩, Hg⟩
  isplitl [HSA HSB Hrest]
  · isplitl [HSA HSB]
    · isplitl [HSA]
      · iexists _; iexact HSA
      · iexists _; iexact HSB
    · iexact Hrest
  · iexact Hg

theorem hout3 (c : Dev nD) : (dat3 V c).Φ (Fin.last cfg3.N) ⊢ (Pipeline.ΦA spec3 c : sProp 𝕄) :=
  PhiS3_gives V c _ (by rw [Fin.val_last]; have : cfg3.N = 50 := N_3; omega)

end Cert.KernelIdeal.H
end
-- ==== Proof.KI.RunCond.lean ====
import proofs.«420467_j63230508531831_3_alg».proof.Proof.Gen.KernelIdeal.Regions

set_option maxRecDepth 1092

noncomputable section

namespace Cert.KernelIdeal.H

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- The program is the chain of its host stretches and four calls; its run follows from one step per link.
set_option backward.isDefEq.respectTransparency.types false in
theorem run_cond (ρ : Dev nD → PrngReg) (outs : Outs (F := F))
    (pdats : (p : Fin 4) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V5 m c) ∗ R c) ⊢ R0.pre c)
    (hpost0 : ∀ c : Dev nD, R0.post c ⊢ iprop(StableHlo.held (c : Thread nD τ) (Pipeline.ucRefs τ sig) (V6 m outs c) ∗ R c))
    (R1 : RegionSeg (pcfgs (F := F)) adm pdats () defs₀ 𝒱₀ L lv 1)
    (hpre1 : ∀ c : Dev nD, iprop(StableHlo.held (c : Thread nD τ) (Pipeline.ucRefs τ sig) (V7 m outs c) ∗ R c) ⊢ R1.pre c)
    (hpost1 : ∀ c : Dev nD, R1.post c ⊢ iprop(StableHlo.held (c : Thread nD τ) (Pipeline.ucRefs τ sig) (V8 m outs c) ∗ R c))
    (R2 : RegionSeg (pcfgs (F := F)) adm pdats () defs₀ 𝒱₀ L lv 2)
    (hpre2 : ∀ c : Dev nD, iprop(StableHlo.held (c : Thread nD τ) (Pipeline.ucRefs τ sig) (V9 m outs c) ∗ R c) ⊢ R2.pre c)
    (hpost2 : ∀ c : Dev nD, R2.post c ⊢ iprop(StableHlo.held (c : Thread nD τ) (Pipeline.ucRefs τ sig) (V10 m outs c) ∗ R c))
    (R3 : RegionSeg (pcfgs (F := F)) adm pdats () defs₀ 𝒱₀ L lv 3)
    (hpre3 : ∀ c : Dev nD, iprop(StableHlo.held (c : Thread nD τ) (Pipeline.ucRefs τ sig) (V11 m outs c) ∗ R c) ⊢ R3.pre c)
    (hpost3 : ∀ c : Dev nD, R3.post c ⊢ iprop(StableHlo.held (c : Thread nD τ) (Pipeline.ucRefs τ sig) (V12 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats () cellOf_inj emb₁ defs₀ 𝒱₀ L lv m ρ main
    (segs m outs 𝒱₀ L lv (fun _ => R) () pdats R0 R1 R2 R3)
    (fun c Q => by
      rewrite [main_chain c, Seg.run_eq_chain,
        show (segs m outs 𝒱₀ L lv (fun _ => R) () pdats R0 R1 R2 R3 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V13 m outs c))
    (hch := fun c => ⟨.rfl, .rfl, .rfl, .rfl, .rfl, hpre0 c, hpost0 c, hpre1 c, hpost1 c, hpre2 c, hpost2 c, hpre3 c, hpost3 c, sep_mono .rfl (by iintro ⟨-, HO⟩; iexact HO)⟩)
    (hinit := ?_) (QY := fun c s => ∀ b ∈ Pipeline.ucRefs τ sig, s.mem ((c : Thread nD τ).1, b) = V13 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.KernelIdeal.H

end
-- ==== Proof.KI.Run.lean ====
import proofs.«420467_j63230508531831_3_alg».proof.Proof.KI.Reg0
import proofs.«420467_j63230508531831_3_alg».proof.Proof.KI.Reg1
import proofs.«420467_j63230508531831_3_alg».proof.Proof.KI.Reg2
import proofs.«420467_j63230508531831_3_alg».proof.Proof.KI.Reg3
import proofs.«420467_j63230508531831_3_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev Vin0 : (c : Dev nD) → (b : Ref sig .tc) → Buf (Elt F) ((c : Thread nD τ).loc b) := atTc (V5 m)

-- The valuation after the first call: the call's arrays at their final contents, every other buffer unchanged.
def W6 (c : Dev nD) : Valuation τ sig (Elt F) :=
  Pipeline.withArrays spec0 c (V5 m c) fun w => (dat0 (Vin0 m) c).arrAt w cfg0.N
def outs6 : Outs (F := F) := fun _ r c => W6 m c (Proc.devRef .tc r)
abbrev Vin1 : (c : Dev nD) → (b : Ref sig .tc) → Buf (Elt F) ((c : Thread nD τ).loc b) := atTc (V7 m (outs6 m))

def W8 (c : Dev nD) : Valuation τ sig (Elt F) :=
  Pipeline.withArrays spec1 c (V7 m (outs6 m) c) fun w => (dat1 (Vin1 m) c).arrAt w cfg1.N
def outs8 : Outs (F := F) := fun J r c => match J with
  | 6 => W6 m c (Proc.devRef .tc r)
  | _ => W8 m c (Proc.devRef .tc r)
abbrev Vin2 : (c : Dev nD) → (b : Ref sig .tc) → Buf (Elt F) ((c : Thread nD τ).loc b) := atTc (V9 m (outs8 m))

def W10 (c : Dev nD) : Valuation τ sig (Elt F) :=
  Pipeline.withArrays spec2 c (V9 m (outs8 m) c) fun w => (dat2 (Vin2 m) c).arrAt w cfg2.N
def outs10 : Outs (F := F) := fun J r c => match J with
  | 6 => W6 m c (Proc.devRef .tc r)
  | 8 => W8 m c (Proc.devRef .tc r)
  | _ => W10 m c (Proc.devRef .tc r)
abbrev Vin3 : (c : Dev nD) → (b : Ref sig .tc) → Buf (Elt F) ((c : Thread nD τ).loc b) := atTc (V11 m (outs10 m))

def W12 (c : Dev nD) : Valuation τ sig (Elt F) :=
  Pipeline.withArrays spec3 c (V11 m (outs10 m) c) fun w => (dat3 (Vin3 m) c).arrAt w cfg3.N

-- What the four calls leave, as one family indexed by the stage.
def outs : Outs (F := F) := fun J r c => match J with
  | 6 => W6 m c (Proc.devRef .tc r)
  | 8 => W8 m c (Proc.devRef .tc r)
  | 10 => W10 m c (Proc.devRef .tc r)
  | _ => W12 m c (Proc.devRef .tc r)

theorem outs_v27_0 (c : Dev nD) : outs m 6 main_v27_0 c = (dat0 (Vin0 m) c).arrAt 3 cfg0.N :=
  Pipeline.withArrays_arr spec0 launch0.win.arr_inj c (V5 m c) ((dat0 (Vin0 m) c).arrAt · cfg0.N) 3
theorem outs_v27_1 (c : Dev nD) : outs m 6 main_v27_1 c = (dat0 (Vin0 m) c).arrAt 4 cfg0.N :=
  Pipeline.withArrays_arr spec0 launch0.win.arr_inj c (V5 m c) ((dat0 (Vin0 m) c).arrAt · cfg0.N) 4
theorem outs_v36 (c : Dev nD) : outs m 8 main_v36 c = (dat1 (Vin1 m) c).arrAt 9 cfg1.N :=
  Pipeline.withArrays_arr spec1 launch1.win.arr_inj c (V7 m (outs6 m) c) ((dat1 (Vin1 m) c).arrAt · cfg1.N) 9
theorem outs_v48 (c : Dev nD) : outs m 10 main_v48 c = (dat2 (Vin2 m) c).arrAt 8 cfg2.N :=
  Pipeline.withArrays_arr spec2 launch2.win.arr_inj c (V9 m (outs8 m) c) ((dat2 (Vin2 m) c).arrAt · cfg2.N) 8
theorem outs_v60 (c : Dev nD) : outs m 12 main_v60 c = (dat3 (Vin3 m) c).arrAt 6 cfg3.N :=
  Pipeline.withArrays_arr spec3 launch3.win.arr_inj c (V11 m (outs10 m) c) ((dat3 (Vin3 m) c).arrAt · cfg3.N) 6

def pdats : (p : Fin 4) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c

-- One call as a link of the program's chain: its arrays split off the buffers held, run through the region, put back at their final contents.
set_option backward.isDefEq.respectTransparency.types false in
def regOf (p : Fin 4) (launch : Pipeline.LaunchFacts (nD := nD) (τ := τ) cfgs p)
    (Vpre Vpost : Dev nD → Valuation τ sig (Elt F)) (outL : List (Ref sig .tc))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vpre c (Pipeline.arrRef (cfgs p).spec w))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hio : ∀ w, Pipeline.arrRef (cfgs p).spec w ∉ outL → ((cfgs p).win w).isOut = false)
    (hsub : ∀ r ∈ outL, r ∈ Finset.univ.image (Pipeline.arrRef (cfgs p).spec))
    (hof : ∀ c (r : Ref sig .tc), r ∉ outL → Vpost c r = Vpre c r)
    (hW : ∀ c, ∀ r ∈ outL, Vpost c (Proc.devRef .tc r)
      = Pipeline.withArrays (cfgs p).spec c (Vpre c) (fun w => (pdats m p c).arrAt w (cfgs p).N) (Proc.devRef .tc r)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vpre c) ∗ R c)
  post c := iprop(StableHlo.held (c : Thread nD τ) (Pipeline.ucRefs τ sig) (Vpost c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vpre c)
  hentry c := by
    rw [Pipeline.ownSems0_none]
    have hsplit := Pipeline.arrays_of_unscopedBufs (p := p) (pcfgs (F := F)) adm (pdats m) launch.win launch.arr_whole c
      ((pdats m p c).share_full (hq c)) (atTc Vpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Vpre c) (atTc Vpost c) ((pdats m p c).arrAt · (cfgs p).N)
      (fun w => by
        by_cases h : Pipeline.arrRef (cfgs p).spec w ∈ outL
        · exact ((hW c _ h).trans (Pipeline.withArrays_arr _ launch.win.arr_inj c _ _ w)).symm
        · rw [(pdats m p c).arrAt_in w (hio w h), hA]; exact (hof c _ h).symm)
      (fun b hb => hof c b fun h => hb (hsub b h))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 := regOf m 0 launch0 (V5 m) (V6 m (outs m)) [main_v27_0, main_v27_1] (body_obligation0 (Vin0 m)) (fun _ _ => rfl) (fun _ _ => rfl) (fun _ _ => rfl) (fun _ _ => rfl)
  (hin0 (Vin0 m)) (hout0 (Vin0 m)) (by decide) (by decide) (V6_of m (outs m)) fun c r h => by
    simp only [List.mem_cons, List.mem_nil_iff, or_false] at h
    rcases h with rfl | rfl
    · exact (Function.update_of_ne (StableHlo.devRef_ne_of_ne (by decide)) ..).trans (Function.update_self ..)
    · exact Function.update_self ..
def reg1 := regOf m 1 launch1 (V7 m (outs6 m)) (V8 m (outs m)) [main_v36] (body_obligation1 (Vin1 m)) (fun _ _ => rfl) (fun _ _ => rfl) (fun _ _ => rfl) (fun _ _ => rfl)
  (hin1 (Vin1 m)) (hout1 (Vin1 m)) (by decide) (by decide) (V8_of m (outs m)) fun c r h => by
    obtain rfl := List.mem_singleton.1 h; exact Function.update_self ..
def reg2 := regOf m 2 launch2 (V9 m (outs8 m)) (V10 m (outs m)) [main_v48] (body_obligation2 (Vin2 m)) (fun _ _ => rfl) (fun _ _ => rfl) (fun _ _ => rfl) (fun _ _ => rfl)
  (hin2 (Vin2 m)) (hout2 (Vin2 m)) (by decide) (by decide) (V10_of m (outs m)) fun c r h => by
    obtain rfl := List.mem_singleton.1 h; exact Function.update_self ..
def reg3 := regOf m 3 launch3 (V11 m (outs10 m)) (V12 m (outs m)) [main_v60] (body_obligation3 (Vin3 m)) (fun _ _ => rfl) (fun _ _ => rfl) (fun _ _ => rfl) (fun _ _ => rfl)
  (hin3 (Vin3 m)) (hout3 (Vin3 m)) (by decide) (by decide) (V12_of m (outs m)) fun c r h => by
    obtain rfl := List.mem_singleton.1 h; exact Function.update_self ..

-- Every fair run of the program ends, each buffer at the last valuation of the chain.
set_option backward.isDefEq.respectTransparency.types false in
theorem run_val (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) :=
  run_cond m ρ (outs m) (pdats m) (reg0 m) (fun c => .rfl) (fun c => .rfl) (reg1 m) (fun c => .rfl) (fun c => .rfl)
    (reg2 m) (fun c => .rfl) (fun c => .rfl) (reg3 m) (fun c => .rfl) (fun c => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.H

end
-- ==== Proof.K.Reg0.lean ====
import proofs.«420467_j63230508531831_3_alg».proof.Proof.Gen.Kernel.Launch
import proofs.«420467_j63230508531831_3_alg».proof.Proof.Gen.Kernel.Skeleton
import proofs.«420467_j63230508531831_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 50 = 0 :=
  (by decide +kernel : ∀ t : Fin grid0.N, cond0_0 (grid0.coords t) ↔ t.val % 50 = 0)

abbrev VO0_3 : View sig .tc .vmem S1x40 .f32 := (Memref.whole cc0_stg3_0 : Memref sig .tc .vmem S1x40 .f32).view
abbrev VO0_4 : View sig .tc .vmem S1x40 .f32 := (Memref.whole cc0_stg4_0 : Memref sig .tc .vmem S1x40 .f32).view

abbrev ms0_0 (t : Fin cfg0.N) : Memref sig .tc .vmem S4000x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x40 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40 .f32 := win0_4.stage (cfg0.slots t 4)
abbrev hs0_4 (t : Fin cfg0.N) : (ms0_4 t).IsWhole := hstage0_4 ((cfg0.slots t 4).cast nbuf0_4)

section Body
variable (c : Dev nD) (i : grid0.Coords) (arg1 : Memref sig .tc .vmem S4000x16 .f32) (harg1 : arg1.IsWhole) (arg2 : Memref sig .tc .vmem S40x16 .f32) (harg2 : arg2.IsWhole) (arg3 : Memref sig .tc .vmem S1x40 .f32) (harg3 : arg3.IsWhole) (arg4 : Memref sig .tc .vmem S1x40 .f32) (harg4 : arg4.IsWhole) (arg5 : Memref sig .tc .vmem S1x40 .f32) (harg5 : arg5.IsWhole)

section CaseA
variable (hc0 : cond0_0 i) (x0 : Vec F S4000x16 .f32) (x1 : Vec F S40x16 .f32) (x2 : Vec F S1x40 .f32)
set_option maxHeartbeats 1000000 in
noncomputable def kernelRun0_A :
    Σ' (L3 : List (View.Piece (Elt F) S1x40 .f32)), { L4 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__bn_stats_kernel i arg1 harg1 arg2 harg2 arg3 harg3 arg4 harg4 arg5 harg5) K } := by
  refine ⟨?_, ?_, fun E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

theorem cover0_A_3 (y : S1x40.Idx) :
    ∃ pc ∈ (kernelRun0_A c i arg1 harg1 arg2 harg2 arg3 harg3 arg4 harg4 arg5 harg5 hc0 x0 x1 x2).1, y ∈ pc.1.set :=
  View.cover_of_tiledL _ S1x40.size (by sl_kernel_rfl) y

def out0_A_3 : Vec F S1x40 .f32 :=
  VO0_3.read (Elt F) (VO0_3.writes (Elt F) VO0_3.junk (kernelRun0_A c i arg1 harg1 arg2 harg2 arg3 harg3 arg4 harg4 arg5 harg5 hc0 x0 x1 x2).1)

theorem cover0_A_4 (y : S1x40.Idx) :
    ∃ pc ∈ (kernelRun0_A c i arg1 harg1 arg2 harg2 arg3 harg3 arg4 harg4 arg5 harg5 hc0 x0 x1 x2).2.1, y ∈ pc.1.set :=
  View.cover_of_tiledL _ S1x40.size (by sl_kernel_rfl) y

def out0_A_4 : Vec F S1x40 .f32 :=
  VO0_4.read (Elt F) (VO0_4.writes (Elt F) VO0_4.junk (kernelRun0_A c i arg1 harg1 arg2 harg2 arg3 harg3 arg4 harg4 arg5 harg5 hc0 x0 x1 x2).2.1)
end CaseA

section CaseB
variable (hc0 : ¬cond0_0 i) (x0 : Vec F S4000x16 .f32) (x1 : Vec F S40x16 .f32) (x2 : Vec F S1x40 .f32) (xo3 : Vec F S1x40 .f32) (xo4 : Vec F S1x40 .f32)
set_option maxHeartbeats 1000000 in
noncomputable def kernelRun0_B :
    Σ' (L3 : List (View.Piece (Elt F) S1x40 .f32)), { L4 : List (View.Piece (Elt F) S1x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__bn_stats_kernel i arg1 harg1 arg2 harg2 arg3 harg3 arg4 harg4 arg5 harg5) K } := by
  refine ⟨?_, ?_, fun E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

theorem cover0_B_3 (y : S1x40.Idx) :
    ∃ pc ∈ (kernelRun0_B c i arg1 harg1 arg2 harg2 arg3 harg3 arg4 harg4 arg5 harg5 hc0 x0 x1 x2 xo3 xo4).1, y ∈ pc.1.set :=
  View.cover_of_tiledL _ S1x40.size (by sl_kernel_rfl) y

def out0_B_3 : Vec F S1x40 .f32 :=
  VO0_3.read (Elt F) (VO0_3.writes (Elt F) VO0_3.junk (kernelRun0_B c i arg1 harg1 arg2 harg2 arg3 harg3 arg4 harg4 arg5 harg5 hc0 x0 x1 x2 xo3 xo4).1)

theorem cover0_B_4 (y : S1x40.Idx) :
    ∃ pc ∈ (kernelRun0_B c i arg1 harg1 arg2 harg2 arg3 harg3 arg4 harg4 arg5 harg5 hc0 x0 x1 x2 xo3 xo4).2.1, y ∈ pc.1.set :=
  View.cover_of_tiledL _ S1x40.size (by sl_kernel_rfl) y

def out0_B_4 : Vec F S1x40 .f32 :=
  VO0_4.read (Elt F) (VO0_4.writes (Elt F) VO0_4.junk (kernelRun0_B c i arg1 harg1 arg2 harg2 arg3 harg3 arg4 harg4 arg5 harg5 hc0 x0 x1 x2 xo3 xo4).2.1)
end CaseB
end Body

-- What each point leaves in the two accumulated output blocks, by recursion on the point.
def outsAt0 (c : Dev nD) : (n : ℕ) → n < cfg0.N → Vec F S1x40 .f32 × Vec F S1x40 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 50 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

theorem outsAt0_A (c : Dev nD) (t : Fin cfg0.N) (h0 : t.val % 50 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 50 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

-- The region's proof data: inputs stay at their blocks, outputs carry what the points so far have left.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

-- At every point an input window holds the array's block there.
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem before0_3_B (c : Dev nD) (t : Fin cfg0.N) (h0 : ¬t.val % 50 = 0) (d) :
    (dat0 V c).before 3 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 50 = 0) (d) :
    (dat0 V c).before 4 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 4 rfl t (by omega) (Bool.eq_false_iff.mpr fun h => by have := (flush0_4 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

-- One grid point: from the windows' blocks to what the point leaves, by the case the point falls in.
set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 50 := lt_of_lt_of_eq t.isLt (show cfg0.N = 50 from N_0)
  by_cases h0 : t.val % 50 = 0
  · rw [outsAt0_A V c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B V c t h0]
    dsimp only
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.H

end
-- ==== Proof.K.Reg1.lean ====
import proofs.«420467_j63230508531831_3_alg».proof.Proof.Gen.Kernel.Launch
import proofs.«420467_j63230508531831_3_alg».proof.Proof.Gen.Kernel.Skeleton
import proofs.«420467_j63230508531831_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x16 := Rect.unit (s := S4000x16) ![0, 0] S4000x16.size inb_S4000x16_S4000x16_0_0
abbrev r1_1 : Rect S40x16 := Rect.unit (s := S40x16) ![0, 0] S40x16.size inb_S40x16_S40x16_0_0
abbrev r1_2 : Rect S1x40 := Rect.unit (s := S1x40) ![0, 0] S1x40.size inb_S1x40_S1x40_0_0
abbrev r1_3 : Rect S4000x1 := Rect.unit (s := S4000x1) ![0, 0] S4000x1.size inb_S4000x1_S4000x1_0_0
abbrev r1_4 : Rect S40x24 := Rect.unit (s := S40x24) ![0, 0] S40x24.size inb_S40x24_S40x24_0_0
abbrev r1_5 : Rect S4000x24 := Rect.unit (s := S4000x24) ![0, 0] S4000x24.size inb_S4000x24_S4000x24_0_0

def out1_9 (x0 : Vec F S4000x16 .f32) (x1 : Vec F S40x16 .f32) (x2 : Vec F S1x40 .f32) (x3 : Vec F S1x40 .f32) (x4 : Vec F S1x40 .f32)
    (x5 : Vec F S1x40 .f32) (x6 : Vec F S1x40 .f32) (x7 : Vec F S4000x1 .f32) (x8 : Vec F S40x24 .f32) : Vec F S4000x24 .bf16 :=
  View.canon [⟨r1_5, k1_pay1 (k1_pay2 (View.ld x0 r1_0) (View.ld x1 r1_1) (View.ld x2 r1_2) (View.ld x6 r1_2) (View.ld x5 r1_2)
    (View.ld x3 r1_2) (View.ld x4 r1_2) (View.ld x7 r1_3)) (View.ld x8 r1_4)⟩]

theorem cover1_9 (p0 : Vec F S4000x24 .bf16) (y : S4000x24.Idx) :
    ∃ pc ∈ ([⟨r1_5, p0⟩] : List (View.Piece (Elt F) S4000x24 .bf16)), y ∈ pc.1.set :=
  View.cover_of_tiled [⟨r1_5, p0⟩] S4000x24.size (by rfl) y

set_option maxHeartbeats 4000000 in
theorem sound_kernel1 (c : Dev nD) (E : Set ℕ) (i : grid1.Coords)
    (arg1 : Memref sig .tc .vmem S4000x16 .f32) (harg1 : arg1.IsWhole) (arg2 : Memref sig .tc .vmem S40x16 .f32) (harg2 : arg2.IsWhole)
    (arg3 : Memref sig .tc .vmem S1x40 .f32) (harg3 : arg3.IsWhole) (arg4 : Memref sig .tc .vmem S1x40 .f32) (harg4 : arg4.IsWhole)
    (arg5 : Memref sig .tc .vmem S1x40 .f32) (harg5 : arg5.IsWhole) (arg6 : Memref sig .tc .vmem S1x40 .f32) (harg6 : arg6.IsWhole)
    (arg7 : Memref sig .tc .vmem S1x40 .f32) (harg7 : arg7.IsWhole) (arg8 : Memref sig .tc .vmem S4000x1 .f32) (harg8 : arg8.IsWhole)
    (arg9 : Memref sig .tc .vmem S40x24 .f32) (harg9 : arg9.IsWhole) (arg10 : Memref sig .tc .vmem S4000x24 .bf16) (harg10 : arg10.IsWhole)
    (x0 : Vec F S4000x16 .f32) (x1 : Vec F S40x16 .f32) (x2 : Vec F S1x40 .f32) (x3 : Vec F S1x40 .f32) (x4 : Vec F S1x40 .f32)
    (x5 : Vec F S1x40 .f32) (x6 : Vec F S1x40 .f32) (x7 : Vec F S4000x1 .f32) (x8 : Vec F S40x24 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E
          (cc1__stage1_kernel i arg1 harg1 arg2 harg2 arg3 harg3 arg4 harg4 arg5 harg5 arg6 harg6 arg7 harg7 arg8 harg8 arg9 harg9 arg10 harg10) K := by
  simp only [cc1__stage1_kernel_eq_skeleton]; unfold cc1__stage1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

-- The region's proof data: inputs stay at their blocks, outputs carry what the points so far have left.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t)
        (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) (iblk1 V c 5 t)
        (iblk1 V c 6 t) (iblk1 V c 7 t) (iblk1 V c 8 t) := by dsimp only [dat1]

-- At every point an input window holds the array's block there.
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

-- One grid point: from the windows' blocks to the output block the point leaves.
set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

end Cert.Kernel.H
end
-- ==== Proof.K.Reg2.lean ====
import proofs.«420467_j63230508531831_3_alg».proof.Proof.Gen.Kernel.Launch
import proofs.«420467_j63230508531831_3_alg».proof.Proof.Gen.Kernel.Skeleton
import proofs.«420467_j63230508531831_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x2 := Rect.unit (s := S4000x2) ![0, 0] S4000x1.size inb_S4000x2_S4000x1_0_0

abbrev r2_1 : Rect S4000x2 := Rect.unit (s := S4000x2) ![0, 1] S4000x1.size inb_S4000x2_S4000x1_0_1

abbrev r2_2 : Rect S4000x24 := Rect.unit (s := S4000x24) ![0, 0] S4000x24.size inb_S4000x24_S4000x24_0_0
abbrev r2_3 : Rect S1x24 := Rect.unit (s := S1x24) ![0, 0] S1x24.size inb_S1x24_S1x24_0_0
abbrev r2_4 : Rect S4000x8 := Rect.unit (s := S4000x8) ![0, 0] S4000x8.size inb_S4000x8_S4000x8_0_0
abbrev r2_5 : Rect S24x24 := Rect.unit (s := S24x24) ![0, 0] S24x24.size inb_S24x24_S24x24_0_0
abbrev r2_6 : Rect S24x8 := Rect.unit (s := S24x8) ![0, 0] S24x8.size inb_S24x8_S24x8_0_0

def out2_8 (x0 : Vec F S4000x24 .f32) (x1 : Vec F S4000x2 .f32) (x2 : Vec F S1x24 .f32) (x3 : Vec F S4000x8 .f32)
    (x4 : Vec F S24x24 .f32) (x5 : Vec F S24x8 .f32) (x6 : Vec F S1x24 .f32) (x7 : Vec F S24x24 .f32) : Vec F S4000x24 .bf16 :=
  View.canon [⟨r2_2, k2_pay1 (k2_pay2 (View.ld x1 r2_0) (View.ld x1 r2_1) (View.ld x0 r2_2) (View.ld x2 r2_3) (View.ld x3 r2_4) (View.ld x4 r2_5) (View.ld x5 r2_6) (View.ld x6 r2_3)) (k2_pay3 (View.ld x7 r2_5)) (constant S4000x24 .f32 0x00000000#32)⟩]

theorem cover2_8 (p0 : Vec F S4000x24 .bf16) (y : S4000x24.Idx) :
    ∃ pc ∈ ([⟨r2_2, p0⟩] : List (View.Piece (Elt F) S4000x24 .bf16)), y ∈ pc.1.set :=
  View.cover_of_tiled [⟨r2_2, p0⟩] S4000x24.size (by rfl) y

set_option maxHeartbeats 4000000 in
theorem sound_kernel2 (c : Dev nD) (E : Set ℕ) (i : grid2.Coords)
    (arg1 : Memref sig .tc .vmem S4000x24 .f32) (harg1 : arg1.IsWhole) (arg2 : Memref sig .tc .vmem S4000x2 .f32) (harg2 : arg2.IsWhole)
    (arg3 : Memref sig .tc .vmem S1x24 .f32) (harg3 : arg3.IsWhole) (arg4 : Memref sig .tc .vmem S4000x8 .f32) (harg4 : arg4.IsWhole)
    (arg5 : Memref sig .tc .vmem S24x24 .f32) (harg5 : arg5.IsWhole) (arg6 : Memref sig .tc .vmem S24x8 .f32) (harg6 : arg6.IsWhole)
    (arg7 : Memref sig .tc .vmem S1x24 .f32) (harg7 : arg7.IsWhole) (arg8 : Memref sig .tc .vmem S24x24 .f32) (harg8 : arg8.IsWhole)
    (arg9 : Memref sig .tc .vmem S4000x24 .bf16) (harg9 : arg9.IsWhole)
    (x0 : Vec F S4000x24 .f32) (x1 : Vec F S4000x2 .f32) (x2 : Vec F S1x24 .f32) (x3 : Vec F S4000x8 .f32)
    (x4 : Vec F S24x24 .f32) (x5 : Vec F S24x8 .f32) (x6 : Vec F S1x24 .f32) (x7 : Vec F S24x24 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E
          (cc2__stage2_kernel i arg1 harg1 arg2 harg2 arg3 harg3 arg4 harg4 arg5 harg5 arg6 harg6 arg7 harg7 arg8 harg8 arg9 harg9) K := by
  simp only [cc2__stage2_kernel_eq_skeleton]; unfold cc2__stage2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover2_8 _)

-- The region's proof data: inputs stay at their blocks, outputs carry what the points so far have left.
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t
    = out2_8 (iblk2 V c 0 t) (iblk2 V c 1 t) (iblk2 V c 2 t) (iblk2 V c 3 t) (iblk2 V c 4 t) (iblk2 V c 5 t) (iblk2 V c 6 t) (iblk2 V c 7 t) := by
  dsimp only [dat2]

-- At every point an input window holds the array's block there.
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

-- One grid point: from the windows' blocks to the output block the point leaves.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := .rfl

end Cert.Kernel.H

end
-- ==== Proof.K.Reg3.lean ====
import proofs.«420467_j63230508531831_3_alg».proof.Proof.Gen.Kernel.Launch
import proofs.«420467_j63230508531831_3_alg».proof.Proof.Gen.Kernel.Skeleton
import proofs.«420467_j63230508531831_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

-- The block of window w at grid point t, read off the array the region is entered at.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev isFirst3 (i : grid3.Coords) : Prop := (Scalar.cmpi .ne (Scalar.extui (Scalar.cmpi .eq (BitVec.ofNat 32 (i 0).val) 0#32)) 0#32) = 1#1

theorem isFirst3_iff : ∀ t : Fin cfg3.N, isFirst3 (grid3.coords t) ↔ t.val = 0 :=
  (by decide +kernel : ∀ t : Fin grid3.N, isFirst3 (grid3.coords t) ↔ t.val = 0)

abbrev isLast3 (i : grid3.Coords) : Prop := k3_cond2 i = 1#1

theorem isLast3_iff : ∀ t : Fin cfg3.N, isLast3 (grid3.coords t) ↔ t.val = 49 :=
  (by decide +kernel : ∀ t : Fin grid3.N, isLast3 (grid3.coords t) ↔ t.val = 49)

theorem idle3_6 : ∀ t : Fin cfg3.N, ¬isLast3 (grid3.coords t) → cfg3.idle 6 (grid3.coords t) = true := by decide +kernel

theorem noFlush3_6 : ∀ t : Fin cfg3.N, ¬isLast3 (grid3.coords t) → (cfg3.win 6).flush t = false := by decide +kernel

theorem live3_6 : ∀ t : Fin cfg3.N, isLast3 (grid3.coords t) → cfg3.idle 6 (grid3.coords t) = false := by decide +kernel

abbrev scA3 : Memref sig .tc .vmem S64x24 .f32 := Memref.whole cc3_scratch0
abbrev scB3 : Memref sig .tc .vmem S64x1 .f32 := Memref.whole cc3_scratch1

abbrev vOut3 : View sig .tc .vmem S64x1 .f32 := (Memref.whole cc3_stg6_0 : Memref sig .tc .vmem S64x1 .f32).view

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scA3 fullShare d) ∗ (∃ d, owns (c : Thread nD τ) scB3 fullShare d)) ∗ rest3 c) ∗ (∃ r, prngReg c r)) := by
  unfold Pipeline.ΦA; rw [scopedRest3_split]; simp only [scA3, scB3, owns_whole]; try rfl

section Body
variable (c : Dev nD) (i : grid3.Coords) (arg1 : Memref sig .tc .vmem S4000x24 .f32) (harg1 : arg1.IsWhole) (arg2 : Memref sig .tc .vmem S4000x1 .f32) (harg2 : arg2.IsWhole) (arg3 : Memref sig .tc .vmem S1x24 .f32) (harg3 : arg3.IsWhole) (arg4 : Memref sig .tc .vmem S4000x1 .i32) (harg4 : arg4.IsWhole) (arg5 : Memref sig .tc .vmem S1x24 .f32) (harg5 : arg5.IsWhole) (arg6 : Memref sig .tc .vmem S1x1 .f32) (harg6 : arg6.IsWhole) (arg7 : Memref sig .tc .vmem S64x1 .f32) (harg7 : arg7.IsWhole) (arg8 : Memref sig .tc .vmem S64x24 .f32) (harg8 : arg8.IsWhole) (arg9 : Memref sig .tc .vmem S64x1 .f32) (harg9 : arg9.IsWhole)

section First
variable (hc0 : isFirst3 i) (hc1 : ¬isLast3 i) (x0 : Vec F S4000x24 .f32) (x1 : Vec F S4000x1 .f32) (x2 : Vec F S1x24 .f32) (x3 : Vec F S4000x1 .i32) (x4 : Vec F S1x24 .f32) (x5 : Vec F S1x1 .f32)
set_option maxHeartbeats 4000000 in
noncomputable def runFirst3 :
    Σ' (LA : List (View.Piece (Elt F) S64x24 .f32)), { LB : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare xi6 ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dsA, %fsA, -, HSA⟩, ⟨%dsB, %fsB, -, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HSA]; · iexists _; iexact HSA
    iexists _; iexact HSB

theorem coverA_first3 (y : S64x24.Idx) :
    ∃ pc ∈ (runFirst3 c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL _ S64x24.size (by sl_kernel_rfl) y

theorem coverB_first3 (y : S64x1.Idx) :
    ∃ pc ∈ (runFirst3 c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL _ S64x1.size (by sl_kernel_rfl) y

def sA_first3 : Vec F S64x24 .f32 :=
  scA3.view.read (Elt F) (scA3.view.writes (Elt F) scA3.view.junk (runFirst3 c i arg1 harg1 arg2 harg2 arg3 harg3 arg4 harg4 arg5 harg5 arg6 harg6 arg7 harg7 arg8 harg8 arg9 harg9 hc0 hc1 x0 x1 x2 x3 x4 x5).1)

def sB_first3 : Vec F S64x1 .f32 :=
  scB3.view.read (Elt F) (scB3.view.writes (Elt F) scB3.view.junk (runFirst3 c i arg1 harg1 arg2 harg2 arg3 harg3 arg4 harg4 arg5 harg5 arg6 harg6 arg7 harg7 arg8 harg8 arg9 harg9 hc0 hc1 x0 x1 x2 x3 x4 x5).2.1)
end First

section Mid
variable (hc0 : ¬isFirst3 i) (hc1 : ¬isLast3 i) (x0 : Vec F S4000x24 .f32) (x1 : Vec F S4000x1 .f32) (x2 : Vec F S1x24 .f32) (x3 : Vec F S4000x1 .i32) (x4 : Vec F S1x24 .f32) (x5 : Vec F S1x1 .f32) (xsA : Vec F S64x24 .f32) (xsB : Vec F S64x1 .f32)
set_option maxHeartbeats 4000000 in
noncomputable def runMid3 :
    Σ' (LA : List (View.Piece (Elt F) S64x24 .f32)), { LB : List (View.Piece (Elt F) S64x1 .f32) //
      ∀ (xi6 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare xi6 ∗ owns (c : Thread nD τ) arg8 fullShare xsA ∗ owns (c : Thread nD τ) arg9 fullShare xsB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ owns (c : Thread nD τ) arg7 fullShare xi6 ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fsA, %hfsA, HSA⟩, ⟨%fsB, %hfsB, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfsA; obtain rfl := harg9.eq_unread hfsB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HSA]; · iexists _; iexact HSA
    iexists _; iexact HSB

theorem coverA_mid3 (y : S64x24.Idx) :
    ∃ pc ∈ (runMid3 c i arg1 harg1 arg2 harg2 arg3 harg3 arg4 harg4 arg5 harg5 arg6 harg6 arg7 harg7 arg8 harg8 arg9 harg9 hc0 hc1 x0 x1 x2 x3 x4 x5 xsA xsB).1, y ∈ pc.1.set :=
  View.cover_of_tiledL _ S64x24.size (by sl_kernel_rfl) y

theorem coverB_mid3 (y : S64x1.Idx) :
    ∃ pc ∈ (runMid3 c i arg1 harg1 arg2 harg2 arg3 harg3 arg4 harg4 arg5 harg5 arg6 harg6 arg7 harg7 arg8 harg8 arg9 harg9 hc0 hc1 x0 x1 x2 x3 x4 x5 xsA xsB).2.1, y ∈ pc.1.set :=
  View.cover_of_tiledL _ S64x1.size (by sl_kernel_rfl) y
def sA_mid3 : Vec F S64x24 .f32 :=
  scA3.view.read (Elt F) (scA3.view.writes (Elt F) scA3.view.junk (runMid3 c i arg1 harg1 arg2 harg2 arg3 harg3 arg4 harg4 arg5 harg5 arg6 harg6 arg7 harg7 arg8 harg8 arg9 harg9 hc0 hc1 x0 x1 x2 x3 x4 x5 xsA xsB).1)
def sB_mid3 : Vec F S64x1 .f32 :=
  scB3.view.read (Elt F) (scB3.view.writes (Elt F) scB3.view.junk (runMid3 c i arg1 harg1 arg2 harg2 arg3 harg3 arg4 harg4 arg5 harg5 arg6 harg6 arg7 harg7 arg8 harg8 arg9 harg9 hc0 hc1 x0 x1 x2 x3 x4 x5 xsA xsB).2.1)
end Mid

section Last
variable (hc0 : ¬isFirst3 i) (hc1 : isLast3 i) (x0 : Vec F S4000x24 .f32) (x1 : Vec F S4000x1 .f32) (x2 : Vec F S1x24 .f32) (x3 : Vec F S4000x1 .i32) (x4 : Vec F S1x24 .f32) (x5 : Vec F S1x1 .f32) (xsA : Vec F S64x24 .f32) (xsB : Vec F S64x1 .f32)
set_option maxHeartbeats 4000000 in
noncomputable def runLast3 :
    Σ' (L6 : List (View.Piece (Elt F) S64x1 .f32)) (LA : List (View.Piece (Elt F) S64x24 .f32)), { LB : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xsA ∗ owns (c : Thread nD τ) arg9 fullShare xsB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LB)) -∗ K ⟨⟩))
          ⊢ wp frame (wpE (defs₀ (F := F)) Variants.none c none) E (cc3__stage3_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__stage3_kernel_eq_skeleton]; unfold cc3__stage3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fsA, %hfsA, HSA⟩, ⟨%fsB, %hfsB, HSB⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfsA; obtain rfl := harg9.eq_unread hfsB
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HSA]; · iexists _; iexact HSA
    iexists _; iexact HSB
theorem cover6_last3 (y : S64x1.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).1, y ∈ pc.1.set :=
  View.cover_of_tiledL _ S64x1.size (by sl_kernel_rfl) y

theorem coverA_last3 (y : S64x24.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).2.1, y ∈ pc.1.set :=
  View.cover_of_tiledL _ S64x24.size (by sl_kernel_rfl) y

theorem coverB_last3 (y : S64x1.Idx) :
    ∃ pc ∈ (runLast3 c i arg1 harg1 arg2 harg2 arg3 harg3 arg4 harg4 arg5 harg5 arg6 harg6 arg7 harg7 arg8 harg8 arg9 harg9 hc0 hc1 x0 x1 x2 x3 x4 x5 xsA xsB).2.2.1, y ∈ pc.1.set :=
  View.cover_of_tiledL _ S64x1.size (by sl_kernel_rfl) y

def out_last3 : Vec F S64x1 .f32 :=
  vOut3.read (Elt F) (vOut3.writes (Elt F) vOut3.junk (runLast3 c i arg1 harg1 arg2 harg2 arg3 harg3 arg4 harg4 arg5 harg5 arg6 harg6 arg7 harg7 arg8 harg8 arg9 harg9 hc0 hc1 x0 x1 x2 x3 x4 x5 xsA xsB).1)
def sA_last3 : Vec F S64x24 .f32 :=
  scA3.view.read (Elt F) (scA3.view.writes (Elt F) scA3.view.junk (runLast3 c i arg1 harg1 arg2 harg2 arg3 harg3 arg4 harg4 arg5 harg5 arg6 harg6 arg7 harg7 arg8 harg8 arg9 harg9 hc0 hc1 x0 x1 x2 x3 x4 x5 xsA xsB).2.1)
def sB_last3 : Vec F S64x1 .f32 :=
  scB3.view.read (Elt F) (scB3.view.writes (Elt F) scB3.view.junk (runLast3 c i arg1 harg1 arg2 harg2 arg3 harg3 arg4 harg4 arg5 harg5 arg6 harg6 arg7 harg7 arg8 harg8 arg9 harg9 hc0 hc1 x0 x1 x2 x3 x4 x5 xsA xsB).2.2.1)
end Last
end Body

abbrev ms3_0 (t : Fin cfg3.N) : Memref sig .tc .vmem S4000x24 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x24 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x24 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x1 .f32 := win3_6.stage (cfg3.slots t 6)
abbrev hs3_6 (t : Fin cfg3.N) : (ms3_6 t).IsWhole := hstage3_6 ((cfg3.slots t 6).cast nbuf3_6)

def out_idle3 : Vec F S64x1 .f32 := vOut3.read (Elt F) (vOut3.writes (Elt F) vOut3.junk [])

-- What each point leaves: the output block and the two running accumulators, by recursion on the point.
def outsAt3 (c : Dev nD) : (n : ℕ) → n < cfg3.N → Vec F S64x1 .f32 × Vec F S64x24 .f32 × Vec F S64x1 .f32
  | 0, hn =>
    (out_idle3,
     sA_first3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scA3 (Memref.isWhole_whole _) scB3 (Memref.isWhole_whole _) ((isFirst3_iff ⟨0, hn⟩).mpr rfl) (fun h => absurd ((isLast3_iff ⟨0, hn⟩).mp h) (show ¬(0 : ℕ) = 49 by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩),
     sB_first3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scA3 (Memref.isWhole_whole _) scB3 (Memref.isWhole_whole _) ((isFirst3_iff ⟨0, hn⟩).mpr rfl) (fun h => absurd ((isLast3_iff ⟨0, hn⟩).mp h) (show ¬(0 : ℕ) = 49 by decide)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h1 : n + 1 = 49 then
      (out_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sA_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sB_last3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) ((isLast3_iff ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2)
    else
      (out_idle3,
       sA_mid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2,
       sB_mid3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scA3 (Memref.isWhole_whole _) scB3 (Memref.isWhole_whole _) (fun h => Nat.succ_ne_zero n ((isFirst3_iff ⟨n + 1, hn⟩).mp h)) (fun h => h1 ((isLast3_iff ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.1 (outsAt3 c n (Nat.lt_of_succ_lt hn)).2.2)

theorem outsAt3_first (c : Dev nD) (t : Fin cfg3.N) (h0 : t.val = 0) (h1 : ¬t.val = 49) :
    outsAt3 V c t.val t.isLt =
      (out_idle3,
       sA_first3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) ((isFirst3_iff t).mpr h0) (fun h => h1 ((isLast3_iff t).mp h)) (iblk3 V c 0 t) (iblk3 V c 1 t) (iblk3 V c 2 t) (iblk3 V c 3 t) (iblk3 V c 4 t) (iblk3 V c 5 t),
       sB_first3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) ((isFirst3_iff t).mpr h0) (fun h => h1 ((isLast3_iff t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact absurd h0 (Nat.succ_ne_zero n)

theorem outsAt3_mid (c : Dev nD) (t : Fin cfg3.N) (h0 : ¬t.val = 0) (h1 : ¬t.val = 49) :
    outsAt3 V c t.val t.isLt =
      (out_idle3,
       sA_mid3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) (fun h => h1 ((isLast3_iff t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sB_mid3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) (fun h => h1 ((isLast3_iff t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_neg h1).trans rfl

theorem outsAt3_last (c : Dev nD) (t : Fin cfg3.N) (h0 : ¬t.val = 0) (h1 : t.val = 49) :
    outsAt3 V c t.val t.isLt =
      (out_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sA_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
       sB_last3 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scA3 (Memref.isWhole_whole _) scB3 (Memref.isWhole_whole _) (fun h => h0 ((isFirst3_iff t).mp h)) ((isLast3_iff t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact absurd rfl h0
  | succ n => exact (dif_pos h1).trans rfl

def PhiS3 (c : Dev nD) : (n : ℕ) → n ≤ cfg3.N → sProp 𝕄
  | 0, _ => Pipeline.ΦA spec3 c
  | n + 1, hn => iprop(iprop(iprop(owns (c : Thread nD τ) scA3 fullShare ((outsAt3 V c n hn).2.1) ∗ owns (c : Thread nD τ) scB3 fullShare ((outsAt3 V c n hn).2.2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scA3 fullShare ((outsAt3 V c n hn).2.1) ∗ owns (c : Thread nD τ) scB3 fullShare ((outsAt3 V c n hn).2.2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scA3 fullShare ((outsAt3 V c (n - 1) (by omega)).2.1) ∗ owns (c : Thread nD τ) scB3 fullShare ((outsAt3 V c (n - 1) (by omega)).2.2)) ∗ rest3 c) ∗ (∃ r, prngReg c r)) := by
  cases n with
  | zero => exact absurd rfl hz
  | succ n => rfl

-- The region's proof data: inputs stay at their blocks, outputs carry what the points so far have left.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

-- At every point an input window holds the array's block there.
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [show cfg3.idle 0 (cfg3.grid.coords t) = false from rfl], after3_0]

theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [show cfg3.idle 1 (cfg3.grid.coords t) = false from rfl], after3_1]

theorem leaves3_2 (c : Dev nD) (t : Fin cfg3.N) :
    (dat3 V c).leavesExact 2 t = owns (c : Thread nD τ) (ms3_2 t) fullShare (iblk3 V c 2 t) := by
  rw [show (dat3 V c).leavesExact 2 t = owns (c : Thread nD τ) (ms3_2 t) fullShare ((dat3 V c).after 2 t) from by
    unfold Dat.leavesExact; rw [show cfg3.idle 2 (cfg3.grid.coords t) = false from rfl], after3_2]

theorem leaves3_3 (c : Dev nD) (t : Fin cfg3.N) :
    (dat3 V c).leavesExact 3 t = owns (c : Thread nD τ) (ms3_3 t) fullShare (iblk3 V c 3 t) := by
  rw [show (dat3 V c).leavesExact 3 t = owns (c : Thread nD τ) (ms3_3 t) fullShare ((dat3 V c).after 3 t) from by
    unfold Dat.leavesExact; rw [show cfg3.idle 3 (cfg3.grid.coords t) = false from rfl], after3_3]

theorem leaves3_4 (c : Dev nD) (t : Fin cfg3.N) :
    (dat3 V c).leavesExact 4 t = owns (c : Thread nD τ) (ms3_4 t) fullShare (iblk3 V c 4 t) := by
  rw [show (dat3 V c).leavesExact 4 t = owns (c : Thread nD τ) (ms3_4 t) fullShare ((dat3 V c).after 4 t) from by
    unfold Dat.leavesExact; rw [show cfg3.idle 4 (cfg3.grid.coords t) = false from rfl], after3_4]

theorem leaves3_5 (c : Dev nD) (t : Fin cfg3.N) :
    (dat3 V c).leavesExact 5 t = owns (c : Thread nD τ) (ms3_5 t) fullShare (iblk3 V c 5 t) := by
  rw [show (dat3 V c).leavesExact 5 t = owns (c : Thread nD τ) (ms3_5 t) fullShare ((dat3 V c).after 5 t) from by
    unfold Dat.leavesExact; rw [show cfg3.idle 5 (cfg3.grid.coords t) = false from rfl], after3_5]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

-- One grid point: from the windows' blocks to what the point leaves, by the case the point falls in.
set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5]
  have hN : t.val < 50 := lt_of_lt_of_eq t.isLt (show cfg3.N = 50 from N_3)
  by_cases h0 : t.val = 0
  ·
    have h1 : ¬t.val = 49 := by omega
    have hl : ¬isLast3 (grid3.coords t) := fun h => h1 ((isLast3_iff t).mp h)
    rw [Dat.leavesExact_idle (dat3 V c) 6 t (idle3_6 t hl) (noFlush3_6 t hl)]
    rw [outsAt3_first V c t h0 h1]
    unfold sA_first3 sB_first3; (try dsimp only)
    rw [PhiS3_castSucc V c t, PhiS3_zero V c _ _ h0, PhiA3_eq]
    iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((runFirst3 c (grid3.coords t) _ _ _ _ _ _ _ _ _ _ _ _ _ _ _ _ _ _ ((isFirst3_iff t).mpr h0) hl (iblk3 V c 0 t) (iblk3 V c 1 t) (iblk3 V c 2 t) (iblk3 V c 3 t) (iblk3 V c 4 t) (iblk3 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSA]; · iexact HSA
    isplitl [HSB]; · iexact HSB
    iintro ⟨H0, H1, H2, H3, H4, H5, H6, ⟨%esA, HSA⟩, ⟨%esB, HSB⟩⟩
    isplitl [HSA HSB Hrest Hg]
    · isplitl [HSA HSB Hrest]
      · isplitl [HSA HSB]
        · isplitl [HSA]
          · unfold owns; iexists _; isplitr
            swap; · iexact HSA
            ipureintro; exact View.read_writes_of_cover _ _ _ _ _ (coverA_first3 c _ _ _ _ _ _ _ _ _ _ _ _ _ _ _ _ _ _ _ _ _ _ _ _ _ _ _)
          · unfold owns; iexists _; isplitr
            swap; · iexact HSB
            ipureintro; exact View.read_writes_of_cover _ _ _ _ _ (coverB_first3 c _ _ _ _ _ _ _ _ _ _ _ _ _ _ _ _ _ _ _ _ _ _ _ _ _ _ _)
        · iexact Hrest
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 49
    ·
      have hf : ¬isFirst3 (grid3.coords t) := fun h => h0 ((isFirst3_iff t).mp h)
      have hl : isLast3 (grid3.coords t) := (isLast3_iff t).mpr h1
      rw [show (dat3 V c).leavesExact 6 t = owns (c : Thread nD τ) (ms3_6 t) fullShare ((dat3 V c).after 6 t) from by
        unfold Dat.leavesExact; rw [live3_6 t hl], after3_6]
      rw [outsAt3_last V c t h0 h1]
      unfold out_last3 sA_last3 sB_last3; (try dsimp only)
      rw [PhiS3_castSucc V c t, PhiS3_pos V c _ _ h0]
      iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast3 c (grid3.coords t) _ _ _ _ _ _ _ _ _ _ _ _ _ _ _ _ _ _ hf hl (iblk3 V c 0 t) (iblk3 V c 1 t) (iblk3 V c 2 t) (iblk3 V c 3 t) (iblk3 V c 4 t) (iblk3 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSA]; · iexact HSA
      isplitl [HSB]; · iexact HSB
      iintro ⟨H0, H1, H2, H3, H4, H5, ⟨%e6, H6⟩, ⟨%esA, HSA⟩, ⟨%esB, HSB⟩⟩
      isplitl [HSA HSB Hrest Hg]
      · isplitl [HSA HSB Hrest]
        · isplitl [HSA HSB]
          · isplitl [HSA]
            · unfold owns; iexists _; isplitr
              swap; · iexact HSA
              ipureintro; exact View.read_writes_of_cover _ _ _ _ _ (coverA_last3 c _ _ _ _ _ _ _ _ _ _ _ _ _ _ _ _ _ _ _ _ _ _ _ _ _ _ _ _ _)
            · unfold owns; iexists _; isplitr
              swap; · iexact HSB
              ipureintro; exact View.read_writes_of_cover _ _ _ _ _ (coverB_last3 c _ _ _ _ _ _ _ _ _ _ _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover6_last3 c _ _ _ _ _ _ _ _ _ _ _ _ _ _ _ _ _ _ _ _ _ _ _ _ _ _ _ _ _)
    ·
      have hf : ¬isFirst3 (grid3.coords t) := fun h => h0 ((isFirst3_iff t).mp h)
      have hl : ¬isLast3 (grid3.coords t) := fun h => h1 ((isLast3_iff t).mp h)
      rw [Dat.leavesExact_idle (dat3 V c) 6 t (idle3_6 t hl) (noFlush3_6 t hl)]
      rw [outsAt3_mid V c t h0 h1]
      unfold sA_mid3 sB_mid3; (try dsimp only)
      rw [PhiS3_castSucc V c t, PhiS3_pos V c _ _ h0]
      iintro ⟨⟨⟨⟨HSA, HSB⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid3 c (grid3.coords t) _ _ _ _ _ _ _ _ _ _ _ _ _ _ _ _ _ _ hf hl (iblk3 V c 0 t) (iblk3 V c 1 t) (iblk3 V c 2 t) (iblk3 V c 3 t) (iblk3 V c 4 t) (iblk3 V c 5 t) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSA]; · iexact HSA
      isplitl [HSB]; · iexact HSB
      iintro ⟨H0, H1, H2, H3, H4, H5, H6, ⟨%esA, HSA⟩, ⟨%esB, HSB⟩⟩
      isplitl [HSA HSB Hrest Hg]
      · isplitl [HSA HSB Hrest]
        · isplitl [HSA HSB]
          · isplitl [HSA]
            · unfold owns; iexists _; isplitr
              swap; · iexact HSA
              ipureintro; exact View.read_writes_of_cover _ _ _ _ _ (coverA_mid3 c _ _ _ _ _ _ _ _ _ _ _ _ _ _ _ _ _ _ _ _ _ _ _ _ _ _ _ _ _)
            · unfold owns; iexists _; isplitr
              swap; · iexact HSB
              ipureintro; exact View.read_writes_of_cover _ _ _ _ _ (coverB_mid3 c _ _ _ _ _ _ _ _ _ _ _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem PhiS3_gives (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨⟨HSA, HSB⟩, Hrest⟩, Hg⟩
  isplitl [HSA HSB Hrest]
  · isplitl [HSA HSB]
    · isplitl [HSA]
      · iexists _; iexact HSA
      · iexists _; iexact HSB
    · iexact Hrest
  · iexact Hg

theorem hout3 (c : Dev nD) : (dat3 V c).Φ (Fin.last cfg3.N) ⊢ (Pipeline.ΦA spec3 c : sProp 𝕄) :=
  PhiS3_gives V c _ (by rw [Fin.val_last]; have : cfg3.N = 50 := N_3; omega)

end Cert.Kernel.H
end
-- ==== Proof.K.RunCond.lean ====
import proofs.«420467_j63230508531831_3_alg».proof.Proof.Gen.Kernel.Regions

set_option maxRecDepth 1092

noncomputable section

namespace Cert.Kernel.H

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- The program is the chain of its host stretches and four calls; its run follows from one step per link.
set_option backward.isDefEq.respectTransparency.types false in
theorem run_cond (ρ : Dev nD → PrngReg) (outs : Outs (F := F))
    (pdats : (p : Fin 4) → (c : Dev nD) → Dat τ (Elt F) Unit ℕ (UR sig nD τ) ℕ (cfgs p) c)
    (R0 : RegionSeg (pcfgs (F := F)) adm pdats () defs₀ 𝒱₀ L lv 0)
    (hpre0 : ∀ c : Dev nD, iprop(StableHlo.held (c : Thread nD τ) (Pipeline.ucRefs τ sig) (V5 m c) ∗ R c) ⊢ R0.pre c)
    (hpost0 : ∀ c : Dev nD, R0.post c ⊢ iprop(StableHlo.held (c : Thread nD τ) (Pipeline.ucRefs τ sig) (V6 m outs c) ∗ R c))
    (R1 : RegionSeg (pcfgs (F := F)) adm pdats () defs₀ 𝒱₀ L lv 1)
    (hpre1 : ∀ c : Dev nD, iprop(StableHlo.held (c : Thread nD τ) (Pipeline.ucRefs τ sig) (V7 m outs c) ∗ R c) ⊢ R1.pre c)
    (hpost1 : ∀ c : Dev nD, R1.post c ⊢ iprop(StableHlo.held (c : Thread nD τ) (Pipeline.ucRefs τ sig) (V8 m outs c) ∗ R c))
    (R2 : RegionSeg (pcfgs (F := F)) adm pdats () defs₀ 𝒱₀ L lv 2)
    (hpre2 : ∀ c : Dev nD, iprop(StableHlo.held (c : Thread nD τ) (Pipeline.ucRefs τ sig) (V9 m outs c) ∗ R c) ⊢ R2.pre c)
    (hpost2 : ∀ c : Dev nD, R2.post c ⊢ iprop(StableHlo.held (c : Thread nD τ) (Pipeline.ucRefs τ sig) (V10 m outs c) ∗ R c))
    (R3 : RegionSeg (pcfgs (F := F)) adm pdats () defs₀ 𝒱₀ L lv 3)
    (hpre3 : ∀ c : Dev nD, iprop(StableHlo.held (c : Thread nD τ) (Pipeline.ucRefs τ sig) (V11 m outs c) ∗ R c) ⊢ R3.pre c)
    (hpost3 : ∀ c : Dev nD, R3.post c ⊢ iprop(StableHlo.held (c : Thread nD τ) (Pipeline.ucRefs τ sig) (V12 m outs c) ∗ R c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats () cellOf_inj emb₁ defs₀ 𝒱₀ L lv m ρ main
    (segs m outs 𝒱₀ L lv (fun _ => R) () pdats R0 R1 R2 R3)
    (fun c Q => by
      rewrite [main_chain c, Seg.run_eq_chain,
        show (segs m outs 𝒱₀ L lv (fun _ => R) () pdats R0 R1 R2 R3 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V13 m outs c))
    (hch := fun c => ⟨.rfl, .rfl, .rfl, .rfl, .rfl, hpre0 c, hpost0 c, hpre1 c, hpost1 c, hpre2 c, hpost2 c, hpre3 c, hpost3 c, sep_mono .rfl (by iintro ⟨-, HO⟩; iexact HO)⟩)
    (hinit := ?_) (QY := fun c s => ∀ b ∈ Pipeline.ucRefs τ sig, s.mem ((c : Thread nD τ).1, b) = V13 m outs c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.Kernel.H

end
-- ==== Proof.K.Run.lean ====
import proofs.«420467_j63230508531831_3_alg».proof.Proof.K.Reg0
import proofs.«420467_j63230508531831_3_alg».proof.Proof.K.Reg1
import proofs.«420467_j63230508531831_3_alg».proof.Proof.K.Reg2
import proofs.«420467_j63230508531831_3_alg».proof.Proof.K.Reg3
import proofs.«420467_j63230508531831_3_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev Vin0 : (c : Dev nD) → (b : Ref sig .tc) → Buf (Elt F) ((c : Thread nD τ).loc b) := atTc (V5 m)

-- The valuation after the first call: the call's arrays at their final contents, every other buffer unchanged.
def W6 (c : Dev nD) : Valuation τ sig (Elt F) :=
  Pipeline.withArrays spec0 c (V5 m c) fun w => (dat0 (Vin0 m) c).arrAt w cfg0.N
def outs6 : Outs (F := F) := fun _ r c => W6 m c (Proc.devRef .tc r)
abbrev Vin1 : (c : Dev nD) → (b : Ref sig .tc) → Buf (Elt F) ((c : Thread nD τ).loc b) := atTc (V7 m (outs6 m))

def W8 (c : Dev nD) : Valuation τ sig (Elt F) :=
  Pipeline.withArrays spec1 c (V7 m (outs6 m) c) fun w => (dat1 (Vin1 m) c).arrAt w cfg1.N
def outs8 : Outs (F := F) := fun J r c => match J with
  | 6 => W6 m c (Proc.devRef .tc r)
  | _ => W8 m c (Proc.devRef .tc r)
abbrev Vin2 : (c : Dev nD) → (b : Ref sig .tc) → Buf (Elt F) ((c : Thread nD τ).loc b) := atTc (V9 m (outs8 m))

def W10 (c : Dev nD) : Valuation τ sig (Elt F) :=
  Pipeline.withArrays spec2 c (V9 m (outs8 m) c) fun w => (dat2 (Vin2 m) c).arrAt w cfg2.N
def outs10 : Outs (F := F) := fun J r c => match J with
  | 6 => W6 m c (Proc.devRef .tc r)
  | 8 => W8 m c (Proc.devRef .tc r)
  | _ => W10 m c (Proc.devRef .tc r)
abbrev Vin3 : (c : Dev nD) → (b : Ref sig .tc) → Buf (Elt F) ((c : Thread nD τ).loc b) := atTc (V11 m (outs10 m))

def W12 (c : Dev nD) : Valuation τ sig (Elt F) :=
  Pipeline.withArrays spec3 c (V11 m (outs10 m) c) fun w => (dat3 (Vin3 m) c).arrAt w cfg3.N

-- What the four calls leave, as one family indexed by the stage.
def outs : Outs (F := F) := fun J r c => match J with
  | 6 => W6 m c (Proc.devRef .tc r)
  | 8 => W8 m c (Proc.devRef .tc r)
  | 10 => W10 m c (Proc.devRef .tc r)
  | _ => W12 m c (Proc.devRef .tc r)

theorem outs_v27_0 (c : Dev nD) : outs m 6 main_v27_0 c = (dat0 (Vin0 m) c).arrAt 3 cfg0.N :=
  Pipeline.withArrays_arr spec0 launch0.win.arr_inj c (V5 m c) ((dat0 (Vin0 m) c).arrAt · cfg0.N) 3
theorem outs_v27_1 (c : Dev nD) : outs m 6 main_v27_1 c = (dat0 (Vin0 m) c).arrAt 4 cfg0.N :=
  Pipeline.withArrays_arr spec0 launch0.win.arr_inj c (V5 m c) ((dat0 (Vin0 m) c).arrAt · cfg0.N) 4
theorem outs_v36 (c : Dev nD) : outs m 8 main_v36 c = (dat1 (Vin1 m) c).arrAt 9 cfg1.N :=
  Pipeline.withArrays_arr spec1 launch1.win.arr_inj c (V7 m (outs6 m) c) ((dat1 (Vin1 m) c).arrAt · cfg1.N) 9
theorem outs_v48 (c : Dev nD) : outs m 10 main_v48 c = (dat2 (Vin2 m) c).arrAt 8 cfg2.N :=
  Pipeline.withArrays_arr spec2 launch2.win.arr_inj c (V9 m (outs8 m) c) ((dat2 (Vin2 m) c).arrAt · cfg2.N) 8
theorem outs_v60 (c : Dev nD) : outs m 12 main_v60 c = (dat3 (Vin3 m) c).arrAt 6 cfg3.N :=
  Pipeline.withArrays_arr spec3 launch3.win.arr_inj c (V11 m (outs10 m) c) ((dat3 (Vin3 m) c).arrAt · cfg3.N) 6

def pdats : (p : Fin 4) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c

-- One call as a link of the program's chain: its arrays split off the buffers held, run through the region, put back at their final contents.
set_option backward.isDefEq.respectTransparency.types false in
def regOf (p : Fin 4) (launch : Pipeline.LaunchFacts (nD := nD) (τ := τ) cfgs p)
    (Vpre Vpost : Dev nD → Valuation τ sig (Elt F)) (outL : List (Ref sig .tc))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vpre c (Pipeline.arrRef (cfgs p).spec w))
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hio : ∀ w, Pipeline.arrRef (cfgs p).spec w ∉ outL → ((cfgs p).win w).isOut = false)
    (hsub : ∀ r ∈ outL, r ∈ Finset.univ.image (Pipeline.arrRef (cfgs p).spec))
    (hof : ∀ c (r : Ref sig .tc), r ∉ outL → Vpost c r = Vpre c r)
    (hW : ∀ c, ∀ r ∈ outL, Vpost c (Proc.devRef .tc r)
      = Pipeline.withArrays (cfgs p).spec c (Vpre c) (fun w => (pdats m p c).arrAt w (cfgs p).N) (Proc.devRef .tc r)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vpre c) ∗ R c)
  post c := iprop(StableHlo.held (c : Thread nD τ) (Pipeline.ucRefs τ sig) (Vpost c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vpre c)
  hentry c := by
    rw [Pipeline.ownSems0_none]
    have hsplit := Pipeline.arrays_of_unscopedBufs (p := p) (pcfgs (F := F)) adm (pdats m) launch.win launch.arr_whole c
      ((pdats m p c).share_full (hq c)) (atTc Vpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (atTc Vpre c) (atTc Vpost c) ((pdats m p c).arrAt · (cfgs p).N)
      (fun w => by
        by_cases h : Pipeline.arrRef (cfgs p).spec w ∈ outL
        · exact ((hW c _ h).trans (Pipeline.withArrays_arr _ launch.win.arr_inj c _ _ w)).symm
        · rw [(pdats m p c).arrAt_in w (hio w h), hA]; exact (hof c _ h).symm)
      (fun b hb => hof c b fun h => hb (hsub b h))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 := regOf m 0 launch0 (V5 m) (V6 m (outs m)) [main_v27_0, main_v27_1] (body_obligation0 (Vin0 m)) (fun _ _ => rfl) (fun _ _ => rfl) (fun _ _ => rfl) (fun _ _ => rfl)
  (hin0 (Vin0 m)) (hout0 (Vin0 m)) (by decide) (by decide) (V6_of m (outs m)) fun c r h => by
    simp only [List.mem_cons, List.mem_nil_iff, or_false] at h
    rcases h with rfl | rfl
    · exact (Function.update_of_ne (StableHlo.devRef_ne_of_ne (by decide)) ..).trans (Function.update_self ..)
    · exact Function.update_self ..
def reg1 := regOf m 1 launch1 (V7 m (outs6 m)) (V8 m (outs m)) [main_v36] (body_obligation1 (Vin1 m)) (fun _ _ => rfl) (fun _ _ => rfl) (fun _ _ => rfl) (fun _ _ => rfl)
  (hin1 (Vin1 m)) (hout1 (Vin1 m)) (by decide) (by decide) (V8_of m (outs m)) fun c r h => by
    obtain rfl := List.mem_singleton.1 h; exact Function.update_self ..
def reg2 := regOf m 2 launch2 (V9 m (outs8 m)) (V10 m (outs m)) [main_v48] (body_obligation2 (Vin2 m)) (fun _ _ => rfl) (fun _ _ => rfl) (fun _ _ => rfl) (fun _ _ => rfl)
  (hin2 (Vin2 m)) (hout2 (Vin2 m)) (by decide) (by decide) (V10_of m (outs m)) fun c r h => by
    obtain rfl := List.mem_singleton.1 h; exact Function.update_self ..
def reg3 := regOf m 3 launch3 (V11 m (outs10 m)) (V12 m (outs m)) [main_v60] (body_obligation3 (Vin3 m)) (fun _ _ => rfl) (fun _ _ => rfl) (fun _ _ => rfl) (fun _ _ => rfl)
  (hin3 (Vin3 m)) (hout3 (Vin3 m)) (by decide) (by decide) (V12_of m (outs m)) fun c r h => by
    obtain rfl := List.mem_singleton.1 h; exact Function.update_self ..

-- Every fair run of the program ends, each buffer at the last valuation of the chain.
set_option backward.isDefEq.respectTransparency.types false in
theorem run_val (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) :=
  run_cond m ρ (outs m) (pdats m) (reg0 m) (fun c => .rfl) (fun c => .rfl) (reg1 m) (fun c => .rfl) (fun c => .rfl)
    (reg2 m) (fun c => .rfl) (fun c => .rfl) (reg3 m) (fun c => .rfl) (fun c => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.H

end
-- ==== Proof.Frames.lean ====
import proofs.«420467_j63230508531831_3_alg».proof.Defs
import proofs.«420467_j63230508531831_3_alg».proof.Proof.Gen.Kernel.Regions
import proofs.«420467_j63230508531831_3_alg».proof.Proof.Gen.KernelIdeal.Regions
import proofs.«420467_j63230508531831_3_alg».proof.Proof.Gen.ReferenceIdeal
import proofs.«420467_j63230508531831_3_alg».proof.Proof.Gen.Pre_finite_inputs
import proofs.«420467_j63230508531831_3_alg».proof.Proof.Gen.ReferenceIdeal.Run
import proofs.«420467_j63230508531831_3_alg».proof.Proof.KI.Run
import proofs.«420467_j63230508531831_3_alg».proof.Proof.K.Run

noncomputable section

namespace Cert.Proof.Frames

open Idealize.ShloMosaic Idealize.ShloMosaic.TcCoe Idealize.SL.Sem

section KernelIdeal
open Cert.KernelIdeal Cert.KernelIdeal.Gen

-- No link of the chain writes an argument array, so the last valuation at an argument is the launch contents.
theorem frame_ki : Cert.frame_KernelIdeal (hKernelIdeal := Cert.KernelIdeal.Gen.facts) (hPre_finite_inputs := Cert.Pre_finite_inputs.Gen.facts) := fun m ρ _ =>
  (θ_run (defs (F := Ideal)) _ _).mono (fun r h c =>
    have a (b : Ref sig .tc) (hs : ¬ (Proc.devRef .tc b : DevRef τ sig).isScoped) {v} (hv : V13 m (H.outs m) c b = v) :
        r.2.mem ((c : Thread nD τ).1, Proc.devRef .tc b) = v := (h c _ (H.mem_uc b hs)).trans hv
    ⟨a main_arg0 (by decide) (V13_main_arg0 ..),
      a main_arg1 (by decide) (V13_main_arg1 ..),
      a main_arg2 (by decide) (V13_main_arg2 ..),
      a main_arg3 (by decide) (V13_main_arg3 ..),
      a main_arg4 (by decide) (V13_main_arg4 ..),
      a main_arg5 (by decide) (V13_main_arg5 ..),
      a main_arg6 (by decide) (V13_main_arg6 ..),
      a main_arg7 (by decide) (V13_main_arg7 ..),
      a main_arg8 (by decide) (V13_main_arg8 ..),
      a main_arg9 (by decide) (V13_main_arg9 ..),
      a main_arg10 (by decide) (V13_main_arg10 ..),
      a main_arg11 (by decide) (V13_main_arg11 ..),
      a main_arg12 (by decide) (V13_main_arg12 ..),
      a main_arg13 (by decide) (V13_main_arg13 ..),
      a main_arg14 (by decide) (V13_main_arg14 ..),
      a main_arg15 (by decide) (V13_main_arg15 ..),
      a main_arg16 (by decide) (V13_main_arg16 ..),
      a main_arg17 (by decide) (V13_main_arg17 ..)⟩)
    (H.run_val (F := Ideal) m ρ)

end KernelIdeal

section Kernel
open Cert.Kernel Cert.Kernel.Gen

theorem frame_k : Cert.frame_Kernel (hKernel := Cert.Kernel.Gen.facts) (hPre_finite_inputs := Cert.Pre_finite_inputs.Gen.facts) := fun m ρ _ =>
  (θ_run (defs (F := Bits)) _ _).mono (fun r h c =>
    have a (b : Ref sig .tc) (hs : ¬ (Proc.devRef .tc b : DevRef τ sig).isScoped) {v} (hv : V13 m (H.outs m) c b = v) :
        r.2.mem ((c : Thread nD τ).1, Proc.devRef .tc b) = v := (h c _ (H.mem_uc b hs)).trans hv
    ⟨a main_arg0 (by decide) (V13_main_arg0 ..),
      a main_arg1 (by decide) (V13_main_arg1 ..),
      a main_arg2 (by decide) (V13_main_arg2 ..),
      a main_arg3 (by decide) (V13_main_arg3 ..),
      a main_arg4 (by decide) (V13_main_arg4 ..),
      a main_arg5 (by decide) (V13_main_arg5 ..),
      a main_arg6 (by decide) (V13_main_arg6 ..),
      a main_arg7 (by decide) (V13_main_arg7 ..),
      a main_arg8 (by decide) (V13_main_arg8 ..),
      a main_arg9 (by decide) (V13_main_arg9 ..),
      a main_arg10 (by decide) (V13_main_arg10 ..),
      a main_arg11 (by decide) (V13_main_arg11 ..),
      a main_arg12 (by decide) (V13_main_arg12 ..),
      a main_arg13 (by decide) (V13_main_arg13 ..),
      a main_arg14 (by decide) (V13_main_arg14 ..),
      a main_arg15 (by decide) (V13_main_arg15 ..),
      a main_arg16 (by decide) (V13_main_arg16 ..),
      a main_arg17 (by decide) (V13_main_arg17 ..)⟩)
    (H.run_val (F := Bits) m ρ)

end Kernel

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

end Cert.Proof.Frames

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev M (a b : Nat) : Type := (⟨2, ![a, b]⟩ : Shape).Idx → EReal

abbrev MI (a b : Nat) : Type := (⟨2, ![a, b]⟩ : Shape).Idx → BitVec 32

def nN : EReal := Ideal.ofBits .f32 0x48435000#32

def eps : EReal := Ideal.ofBits .f32 0x3727C5AC#32

def one : EReal := Ideal.ofBits .f32 0x3F800000#32

def h1 (X : M 200000 16) (w : M 40 16) (b : M 1 40) : M 200000 40 := fun i =>
  max ((∑ k : Fin 16, X (ix2 (i 0) k) * w (ix2 (i 1) k)) + b (ix2 0 (i 1))) 0

def colsum (H : M 200000 40) : M 1 40 := fun i => ∑ r : Fin 200000, H (ix2 r (i 1))

def colsumsq (H : M 200000 40) : M 1 40 := fun i => ∑ r : Fin 200000, H (ix2 r (i 1)) * H (ix2 r (i 1))

def mean (s : M 1 40) : M 1 40 := fun i => Ideal.div (s i) nN

def varK (s ss : M 1 40) : M 1 40 := fun i => max (Ideal.div (ss i) nN - mean s i * mean s i) 0

def varR (H : M 200000 40) (mu : M 1 40) : M 1 40 := fun i =>
  Ideal.div (∑ r : Fin 200000, (H (ix2 r (i 1)) - mu (ix2 0 (i 1))) * (H (ix2 r (i 1)) - mu (ix2 0 (i 1)))) nN

def h1n (H : M 200000 40) (mu var bg bb : M 1 40) : M 200000 40 := fun i =>
  (H i - mu (ix2 0 (i 1))) * Ideal.rsqrt (var (ix2 0 (i 1)) + eps) * bg (ix2 0 (i 1)) + bb (ix2 0 (i 1))

def conv {K : Nat} (H : M 200000 K) (cs : M 200000 1) (W : M K 24) : M 200000 24 := fun i =>
  ∑ k : Fin K, (H (ix2 (i 0) k) * cs (ix2 (i 0) 0)) * W (ix2 k (i 1))

def gfin (agg : M 200000 24) (cd : M 200000 1) (cb : M 1 24) : M 200000 24 := fun i =>
  agg i * cd (ix2 (i 0) 0) + cb (ix2 0 (i 1))

def h2 (g : M 200000 24) (act : M 200000 8) (wa : M 24 24) (wb : M 24 8) (b : M 1 24) : M 200000 24 := fun i =>
  max (((∑ j : Fin 24, g (ix2 (i 0) j) * wa (ix2 (i 1) j)) + ∑ j : Fin 8, act (ix2 (i 0) j) * wb (ix2 (i 1) j))
    + b (ix2 0 (i 1))) 0

def oh (gid : MI 200000 1) (r : Fin 200000) (g : Fin 64) : EReal :=
  if gid (ix2 r 0) = BitVec.ofNat 32 g.val then 1 else 0

def ohsum (G : M 200000 24) (gid : MI 200000 1) : M 64 24 := fun i =>
  ∑ r : Fin 200000, oh gid r (i 0) * G (ix2 r (i 1))

def ohcnt (gid : MI 200000 1) : M 64 1 := fun i => ∑ r : Fin 200000, oh gid r (i 0)

def qout (S : M 64 24) (C : M 64 1) (w3 : M 1 24) (b3 : M 1 1) : M 64 1 := fun i =>
  (∑ j : Fin 24, Ideal.div (S (ix2 (i 0) j)) (max one (C (ix2 (i 0) 0))) * w3 (ix2 0 j)) + b3 (ix2 0 0)

end Cert.Spec

end
-- ==== Proof.LibOneHot.lean ====
import Idealize.ShloMosaic.PureOps.Ideal
import Idealize.ShloMosaic.PureOps.ShapeOps

noncomputable section

namespace Cert.Lib.OneHot

open Idealize.ShloMosaic

theorem eqBit_toInt (x y : BitVec 32) : ((IntOp.cmpi .eq x y).setWidth 32).toInt = if x = y then 1 else 0 := by
  unfold IntOp.cmpi
  by_cases h : x = y
  · subst h; simp
  · have hb : (x == y) = false := by simpa using h
    show ((BitVec.ofBool (x == y)).setWidth 32).toInt = _
    rw [hb, if_neg h]
    decide

end Cert.Lib.OneHot

end
-- ==== Proof.KI.Pay3.lean ====
import proofs.«420467_j63230508531831_3_alg».proof.Proof.Gen.KernelIdeal.Skeleton
import proofs.«420467_j63230508531831_3_alg».proof.Proof.Spec
import proofs.«420467_j63230508531831_3_alg».proof.Proof.LibOneHot
import Idealize.ShloMosaic.Lib.Pipeline.Value
import Idealize.ShloMosaic.Lib.ValueLayout
import Idealize.ShloMosaic.Lib.ValueIdx
import Idealize.ShloMosaic.PureOps.Ideal.Laws
set_option maxRecDepth 16384
noncomputable section
namespace Cert.KernelIdeal.HV
open Cert.KernelIdeal Cert.KernelIdeal.Gen
open Idealize.ShloMosaic Idealize.ShloMosaic.TcCoe Idealize.ShloMosaic.ValueIdx Idealize.SL.Sem
open scoped BigOperators

section Matmul

theorem mm_apply_of {sl sr so : Shape} {φ₁ φ₂ : FTy} (D : DotDims sl sr so) (n : ℕ) (hr : D.contr.rank = 1)
    (hs : D.contr.size ⟨0, by omega⟩ = n) (a : FVec Ideal sl φ₁) (b : FVec Ideal sr φ₂) (j : so.Idx)
    (L : Fin n → sl.Idx) (R : Fin n → sr.Idx) (hL : ∀ k, D.lhsIdx j ((contrEquiv1 D n hr hs).symm k) = L k)
    (hR : ∀ k, D.rhsIdx j ((contrEquiv1 D n hr hs).symm k) = R k) :
    matmul D none a b (constant (F := Ideal) so .f32 0x00000000#32) j = ∑ k : Fin n, a (L k) * b (R k) := by
  simp only [matmul]
  rw [Ideal.matmul_constant_zero_apply, ← Equiv.sum_comp (contrEquiv1 D n hr hs).symm]
  exact Finset.sum_congr rfl fun k _ => by rw [hL, hR]

-- rows of `a` against columns of `b`
theorem mm_plain_apply {M K N : ℕ} {φ₁ φ₂ : FTy} (a : FVec Ideal ⟨2, ![M, K]⟩ φ₁) (b : FVec Ideal ⟨2, ![K, N]⟩ φ₂)
    (r : Fin M) (q : Fin N) :
    matmul (DotDims.plain M K N) none a b (constant (F := Ideal) ⟨2, ![M, N]⟩ .f32 0x00000000#32) (ix2 r q)
      = ∑ k : Fin K, a (ix2 r k) * b (ix2 k q) := by
  refine mm_apply_of _ K rfl rfl a b _ _ _ (fun k => ?_) (fun k => ?_) <;> funext ax <;> apply Fin.ext
  · match ax with
    | ⟨0, _⟩ => simp [DotDims.lhsIdx, DotDims.plain]; rfl
    | ⟨1, _⟩ => exact (DotDims.lhsIdx_val_of_single _ rfl _ _).trans (contrEquiv1_symm_val _ K rfl rfl k)
  · match ax with
    | ⟨0, _⟩ => exact (DotDims.rhsIdx_val_of_single _ rfl _ _).trans (contrEquiv1_symm_val _ K rfl rfl k)
    | ⟨1, _⟩ => simp [DotDims.rhsIdx, DotDims.plain]; rfl

-- columns of `a` against columns of `b`
theorem mm_colcol_apply {M K N : ℕ} {φ₁ φ₂ : FTy}
    (w : DotDims.WF ⟨2, ![K, M]⟩ ⟨2, ![K, N]⟩ ⟨2, ![M, N]⟩ [0] [0] [1] [1] [] [])
    (a : FVec Ideal ⟨2, ![K, M]⟩ φ₁) (b : FVec Ideal ⟨2, ![K, N]⟩ φ₂) (g : Fin M) (j : Fin N) :
    matmul (⟨[0], [0], [1], [1], [], [], w⟩ : DotDims _ _ _) none a b (constant (F := Ideal) ⟨2, ![M, N]⟩ .f32 0x00000000#32) (ix2 g j)
      = ∑ k : Fin K, a (ix2 k g) * b (ix2 k j) := by
  refine mm_apply_of _ K rfl rfl a b _ _ _ (fun k => ?_) (fun k => ?_) <;> funext ax <;> apply Fin.ext
  · match ax with
    | ⟨0, _⟩ => exact (DotDims.lhsIdx_val_of_single _ rfl _ _).trans (contrEquiv1_symm_val _ K rfl rfl k)
    | ⟨1, _⟩ => simp [DotDims.lhsIdx]; rfl
  · match ax with
    | ⟨0, _⟩ => exact (DotDims.rhsIdx_val_of_single _ rfl _ _).trans (contrEquiv1_symm_val _ K rfl rfl k)
    | ⟨1, _⟩ => simp [DotDims.rhsIdx]; rfl

end Matmul

section Layout
variable {α : Type}

theorem bcCol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem castCol_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

theorem lane24_apply (src : FVec Ideal S64x24 .f32) (h : S64x24.Reduces [1] S64) (hφ : FKind.Formats .f32)
    (hacc : (0x00000000#32 : BitVec 32) = 0x00000000#32) (g : Fin 64) :
    multiReduction .add [1] S64 src 0x00000000#32 h hφ hacc (ix1 g) = ∑ j : Fin 24, src (ix2 g j) := by
  refine (Ideal.multiReduction_add_single src 0x00000000#32 h hφ hacc (ix1 g)).trans ?_
  refine Finset.sum_congr rfl fun j _ => congrArg src ?_
  funext a
  apply Fin.ext
  match a with
  | ⟨0, _⟩ => rfl
  | ⟨1, _⟩ => rfl

theorem pay4_apply (v13 : Vec Ideal S4000x1 .i32) (r : Fin 4000) (g : Fin 64) :
    k3_pay4 (F := Ideal) v13 (ix2 r g) = if v13 (ix2 r 0) = BitVec.ofNat 32 g.val then (1 : EReal) else 0 := by
  unfold k3_pay4
  have e : ∀ (x y : BitVec 32), ((((IntOp.cmpi .eq x y).setWidth 32).toInt : ℝ) : EReal) = if x = y then (1 : EReal) else 0 := by
    intro x y
    rw [Cert.Lib.OneHot.eqBit_toInt]
    split <;> simp
  refine Eq.trans ?_ (e (v13 (ix2 r 0)) (BitVec.ofNat 32 g.val))
  show ((((IntOp.cmpi .eq (broadcastTo S4000x64 (shapeCast S4000x1 v13 shapeCasts_S4000x1_S4000x1) broadcasts_S4000x1_S4000x64 (ix2 r g))
      (iota .tc S4000x64 32 [1] iota_S4000x64_d1_w32 (ix2 r g))).setWidth 32).toInt : ℝ) : EReal) = _
  rw [shapeCast_self, bcCol_apply, iota_single_apply]

theorem pay5_apply (v3 : Vec Ideal S4000x24 .f32) (v5 : Vec Ideal S4000x1 .f32) (v9 : Vec Ideal S1x24 .f32)
    (v13 : Vec Ideal S4000x1 .i32) (v25 : Vec Ideal S64x24 .f32) (g : Fin 64) (j : Fin 24) :
    k3_pay5 (F := Ideal) v3 v5 v9 v13 v25 (ix2 g j)
      = v25 (ix2 g j) + ∑ r : Fin 4000, (if v13 (ix2 r 0) = BitVec.ofNat 32 g.val then (1 : EReal) else 0)
          * (v3 (ix2 r j) * v5 (ix2 r 0) + v9 (ix2 0 j)) := by
  unfold k3_pay5
  refine (congrFun (shapeCast_self _ shapeCasts_S64x24_S64x24) (ix2 g j)).trans ?_
  refine (addf_apply _ _ _).trans ?_
  refine congrArg (v25 (ix2 g j) + ·) ?_
  refine (mm_colcol_apply dot_S4000x64_S4000x24_S64x24_0_0_1_1_n_n_wf _ _ g j).trans ?_
  refine Finset.sum_congr rfl fun r _ => ?_
  refine congrArg₂ (· * ·) (pay4_apply v13 r g) ?_
  refine (truncf_apply (ψ := .bf16) _ bitsLt_bf16_f32 (ix2 r j)).trans ?_
  refine (addf_apply _ _ _).trans ?_
  refine congrArg₂ (· + ·) ?_ ?_
  · refine (mulf_apply _ _ _).trans ?_
    refine congrArg₂ (· * ·) ?_ ?_
    · exact congrFun (shapeCast_self v3 shapeCasts_S4000x24_S4000x24) (ix2 r j)
    · refine (bcCol_apply _ _ r j).trans ?_
      rw [shapeCast_self]
  · refine (broadcastTo_1b_ab_apply _ _ r j).trans ?_
    rw [shapeCast_self]

theorem pay6_apply (v13 : Vec Ideal S4000x1 .i32) (v30 : Vec Ideal S64x1 .f32) (g : Fin 64) :
    k3_pay6 (F := Ideal) v13 v30 (ix2 g 0)
      = v30 (ix2 g 0) + ∑ r : Fin 4000, (if v13 (ix2 r 0) = BitVec.ofNat 32 g.val then (1 : EReal) else 0) := by
  unfold k3_pay6
  refine (congrFun (shapeCast_self _ shapeCasts_S64x1_S64x1) (ix2 g 0)).trans ?_
  refine (addf_apply _ _ _).trans ?_
  refine congrArg (v30 (ix2 g 0) + ·) ?_
  refine (mm_colcol_apply dot_S4000x64_S4000x1_S64x1_0_0_1_1_n_n_wf _ _ g 0).trans ?_
  refine Finset.sum_congr rfl fun r _ => ?_
  rw [pay4_apply]
  have h1 : Ideal.ofBits .bf16 0x3F80#16 = (1 : EReal) := by
    simp [Ideal.ofBits, Ideal.ieee, -EReal.coe_mul]; norm_num
  exact (congrArg (_ * ·) h1).trans (mul_one _)

theorem pay1_eq (v38 : Vec Ideal S64x24 .f32) (v39 : Vec Ideal S64x1 .f32) (v44 : Vec Ideal S1x24 .f32)
    (v49 : Vec Ideal S1x1 .f32) : k3_pay1 (F := Ideal) v38 v39 v44 v49 = Spec.qout v38 v39 v44 v49 := by
  funext i
  obtain ⟨g, u, rfl⟩ : ∃ (g : Fin 64) (u : Fin 1), i = ix2 g u := ⟨i 0, i 1, eq_ix2 i⟩
  obtain rfl : u = 0 := Subsingleton.elim _ _
  unfold k3_pay1
  refine (addf_apply _ _ _).trans ?_
  show _ = (∑ j : Fin 24, Ideal.div (v38 (ix2 g j)) (max Spec.one (v39 (ix2 g 0))) * v44 (ix2 0 j)) + v49 (ix2 0 0)
  refine congrArg₂ (· + ·) ?_ ?_
  · refine (castCol_apply _ _ g 0).trans ?_
    refine (lane24_apply _ _ _ _ g).trans ?_
    refine Finset.sum_congr rfl fun j _ => ?_
    refine (mulf_apply _ _ _).trans ?_
    refine congrArg₂ (· * ·) ?_ ?_
    · refine (divf_apply _ _ _).trans ?_
      refine congrArg (Ideal.div (v38 (ix2 g j))) ?_
      refine (bcCol_apply _ _ g j).trans ?_
      rfl
    · exact broadcastTo_1b_ab_apply _ _ g j
  · refine (broadcastTo_1b_ab_apply _ _ g 0).trans ?_
    rw [shapeCast_self]

theorem pay2_eq : k3_pay2 (F := Ideal) = fun _ => 0 := by
  funext i
  unfold k3_pay2
  refine (congrFun (shapeCast_self _ shapeCasts_S64x24_S64x24) i).trans ?_
  exact Ideal.ofBits_zero_f32

theorem pay3_eq : k3_pay3 (F := Ideal) = fun _ => 0 := by
  funext i
  unfold k3_pay3
  refine (congrFun (shapeCast_self _ shapeCasts_S64x1_S64x1) i).trans ?_
  exact Ideal.ofBits_zero_f32

end Cert.KernelIdeal.HV

end
-- ==== Proof.KI.Val0.lean ====
import proofs.«420467_j63230508531831_3_alg».proof.Proof.KI.Reg0
import proofs.«420467_j63230508531831_3_alg».proof.Proof.KI.Pay3
import proofs.«420467_j63230508531831_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
set_option maxRecDepth 16384
noncomputable section
namespace Cert.KernelIdeal.HV
open Cert.KernelIdeal Cert.KernelIdeal.Gen Cert.KernelIdeal.H
open Idealize.ShloMosaic Idealize.ShloMosaic.TcCoe Idealize.ShloMosaic.ValueIdx Idealize.ShloMosaic.Tactic Idealize.SL.Sem
open Idealize.ShloMosaic.Pipeline (Dat)

theorem r0_lanesum_apply (src : FVec Ideal S4000x40 .f32) (h : S4000x40.Reduces [0] S40) (hφ : FKind.Formats .f32)
    (hacc : (0x00000000#32 : BitVec 32) = 0x00000000#32) (q : Fin 40) :
    multiReduction .add [0] S40 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a
  apply Fin.ext
  match a with
  | ⟨0, _⟩ => rfl
  | ⟨1, _⟩ => rfl

theorem r0_pay1_apply (j : S1x40.Idx) : (k0_pay1 (F := Ideal)) j = 0 := by
  unfold k0_pay1
  exact Ideal.ofBits_zero_f32
theorem r0_pay2_apply (j : S1x40.Idx) : (k0_pay2 (F := Ideal)) j = 0 := by
  unfold k0_pay2
  exact Ideal.ofBits_zero_f32

theorem r0_pay3_apply (x0 : Vec Ideal S4000x16 .f32) (x1 : Vec Ideal S40x16 .f32) (x2 : Vec Ideal S1x40 .f32) (r : Fin 4000) (q : Fin 40) :
    k0_pay3 (F := Ideal) x0 x1 x2 (ix2 r q) = max ((∑ k : Fin 16, x0 (ix2 r k) * x1 (ix2 q k)) + x2 (ix2 0 q)) 0 := by
  unfold k0_pay3
  refine (maximumf_apply _ _ _).trans ?_
  refine congrArg₂ max ?_ Ideal.ofBits_zero_f32
  refine (addf_apply _ _ _).trans ?_
  refine congrArg₂ (· + ·) ?_ ?_
  · refine (mm_plain_apply _ _ r q).trans ?_
    refine Finset.sum_congr rfl fun k _ => ?_
    refine congrArg₂ (· * ·) ?_ ?_
    · exact congrFun (shapeCast_self x0 shapeCasts_S4000x16_S4000x16) (ix2 r k)
    · refine (transpose_ix2_apply _ _ k q).trans ?_
      rfl
  · refine (broadcastTo_1b_ab_apply _ _ r q).trans ?_
    rw [shapeCast_self]

theorem r0_pay4_apply (x0 : Vec Ideal S4000x16 .f32) (x1 : Vec Ideal S40x16 .f32) (x2 : Vec Ideal S1x40 .f32) (acc : Vec Ideal S1x40 .f32) (q : Fin 40) :
    k0_pay4 (F := Ideal) x0 x1 x2 acc (ix2 0 q) = acc (ix2 0 q) + ∑ r : Fin 4000, k0_pay3 (F := Ideal) x0 x1 x2 (ix2 r q) := by
  unfold k0_pay4
  refine (addf_apply _ _ _).trans ?_
  refine congrArg₂ (· + ·) ?_ ?_
  · rw [shapeCast_self]
  · refine (shapeCast_a_1a_apply _ _ 0 q).trans ?_
    exact r0_lanesum_apply _ _ _ _ q

theorem r0_pay5_apply (x0 : Vec Ideal S4000x16 .f32) (x1 : Vec Ideal S40x16 .f32) (x2 : Vec Ideal S1x40 .f32) (acc : Vec Ideal S1x40 .f32) (q : Fin 40) :
    k0_pay5 (F := Ideal) x0 x1 x2 acc (ix2 0 q) = acc (ix2 0 q) + ∑ r : Fin 4000, k0_pay3 (F := Ideal) x0 x1 x2 (ix2 r q) * k0_pay3 (F := Ideal) x0 x1 x2 (ix2 r q) := by
  unfold k0_pay5
  refine (addf_apply _ _ _).trans ?_
  refine congrArg₂ (· + ·) ?_ ?_
  · rw [shapeCast_self]
  · refine (shapeCast_a_1a_apply _ _ 0 q).trans ?_
    refine (r0_lanesum_apply _ _ _ _ q).trans ?_
    rfl

section Pieces
variable {F : FTy → Type} [FloatOps F]

theorem r0_hz : (![0, 0] : Fin 2 → Nat) = fun _ => 0 := funext fun a => by fin_cases a <;> rfl

variable (c : Dev nD) (i : grid0.Coords) (a1 : Memref sig .tc .vmem S4000x16 .f32) (h1 : a1.IsWhole) (a2 : Memref sig .tc .vmem S40x16 .f32) (h2 : a2.IsWhole)
  (a3 : Memref sig .tc .vmem S1x40 .f32) (h3 : a3.IsWhole) (a4 : Memref sig .tc .vmem S1x40 .f32) (h4 : a4.IsWhole) (a5 : Memref sig .tc .vmem S1x40 .f32) (h5 : a5.IsWhole)
  (x0 : Vec F S4000x16 .f32) (x1 : Vec F S40x16 .f32) (x2 : Vec F S1x40 .f32)

theorem r0_out_B (hc : ¬cond0_0 i) (xo3 xo4 : Vec F S1x40 .f32) :
    out0_B_3 c i a1 h1 a2 h2 a3 h3 a4 h4 a5 h5 hc x0 x1 x2 xo3 xo4 = k0_pay4 x0 x1 x2 xo3 ∧ out0_B_4 c i a1 h1 a2 h2 a3 h3 a4 h4 a5 h5 hc x0 x1 x2 xo3 xo4 = k0_pay5 x0 x1 x2 xo4 := by
  refine ⟨?_, ?_⟩
  all_goals
    first
      | unfold out0_B_3; rw [View.read_writes_eq_canon _ _ _ (cover0_B_3 c i a1 h1 a2 h2 a3 h3 a4 h4 a5 h5 hc x0 x1 x2 xo3 xo4)]
      | unfold out0_B_4; rw [View.read_writes_eq_canon _ _ _ (cover0_B_4 c i a1 h1 a2 h2 a3 h3 a4 h4 a5 h5 hc x0 x1 x2 xo3 xo4)]
    unfold kernelRun0_B
    dsimp only
    sl_unfold_words
    rw [View.canon_unit_zero r0_hz]
    simp only [View.readAt_eq_ld, h1.read_unread, h2.read_unread, h3.read_unread, h4.read_unread, h5.read_unread,
      View.ld_unit_zero (S := S4000x16) r0_hz, View.ld_unit_zero (S := S40x16) r0_hz, View.ld_unit_zero (S := S1x40) r0_hz]

theorem r0_out_A (hc : cond0_0 i) :
    out0_A_3 c i a1 h1 a2 h2 a3 h3 a4 h4 a5 h5 hc x0 x1 x2 = k0_pay4 x0 x1 x2 (k0_pay1 (F := F)) ∧ out0_A_4 c i a1 h1 a2 h2 a3 h3 a4 h4 a5 h5 hc x0 x1 x2 = k0_pay5 x0 x1 x2 (k0_pay2 (F := F)) := by
  refine ⟨?_, ?_⟩
  all_goals
    first
      | unfold out0_A_3; rw [View.read_writes_eq_canon _ _ _ (cover0_A_3 c i a1 h1 a2 h2 a3 h3 a4 h4 a5 h5 hc x0 x1 x2)]
      | unfold out0_A_4; rw [View.read_writes_eq_canon _ _ _ (cover0_A_4 c i a1 h1 a2 h2 a3 h3 a4 h4 a5 h5 hc x0 x1 x2)]
    unfold kernelRun0_A
    dsimp only
    sl_unfold_words
    rw [View.canon_cons_unit_zero (S := S1x40) r0_hz, View.readCov_unit_zero (S := S1x40) _ r0_hz]
    simp only [View.readAt_eq_ld, h1.read_unread, h2.read_unread, h3.read_unread, h4.read_unread, h5.read_unread,
      View.ld_unit_zero (S := S4000x16) r0_hz, View.ld_unit_zero (S := S40x16) r0_hz, View.ld_unit_zero (S := S1x40) r0_hz]
end Pieces

section Values
variable (V : (c : Dev nD) → (b : Ref sig .tc) → Buf (Elt Ideal) ((c : Thread nD τ).loc b))

abbrev r0_X (c : Dev nD) : Spec.M 200000 16 := V c main_v16
abbrev r0_W (c : Dev nD) : Spec.M 40 16 := V c main_arg6
abbrev r0_B (c : Dev nD) : Spec.M 1 40 := V c main_v17

abbrev r0_H (c : Dev nD) : Spec.M 200000 40 := Spec.h1 (r0_X V c) (r0_W V c) (r0_B V c)

abbrev r0_xb (c : Dev nD) (t : Fin cfg0.N) : Vec Ideal S4000x16 .f32 := iblk0 V c 0 t
abbrev r0_wb (c : Dev nD) (t : Fin cfg0.N) : Vec Ideal S40x16 .f32 := iblk0 V c 1 t
abbrev r0_bb (c : Dev nD) (t : Fin cfg0.N) : Vec Ideal S1x40 .f32 := iblk0 V c 2 t

theorem r0_idx : ∀ t : Fin cfg0.N, win0_0.index t (0 : Fin 2) = t.val ∧ win0_0.index t (1 : Fin 2) = 0 :=
  (by decide +kernel : ∀ t : Fin grid0.N, _)

def r0_row (t : ℕ) (ht : t < 50) (r : Fin 4000) : Fin 200000 := ⟨4000 * t + r.val, by have := r.isLt; omega⟩

theorem r0_xb_apply (c : Dev nD) (t : Fin cfg0.N) (ht : t.val < 50) (r : Fin 4000) (k : Fin 16) :
    r0_xb V c t (ix2 r k) = r0_X V c (ix2 (r0_row t.val ht r) k) := by
  unfold r0_xb r0_X iblk0
  rw [View.read_apply]
  show V c main_v16 (((cfg0.win 0).blk t).view.emb (ix2 r k)) = V c main_v16 (ix2 (r0_row t.val ht r) k)
  refine congrArg (V c main_v16) ?_
  funext a
  apply Fin.ext
  match a with
  | ⟨0, _⟩ => show win0_0.index t 0 * 4000 + 1 * r.val = 4000 * t.val + r.val; rw [(r0_idx t).1]; omega
  | ⟨1, _⟩ => show win0_0.index t 1 * 16 + 1 * k.val = k.val; rw [(r0_idx t).2]; omega

theorem r0_wb_eq (c : Dev nD) (t : Fin cfg0.N) : r0_wb V c t = r0_W V c :=
  funext fun y => congrArg (V c main_arg6) (funext fun a => Fin.ext (win0_1.rect_emb_val_of_index_zero t a
    ((by decide +kernel : ∀ (t : Fin grid0.N) (a : Fin 2), win0_1.index t a = 0) t a) y))
theorem r0_bb_eq (c : Dev nD) (t : Fin cfg0.N) : r0_bb V c t = r0_B V c :=
  funext fun y => congrArg (V c main_v17) (funext fun a => Fin.ext (win0_2.rect_emb_val_of_index_zero t a
    ((by decide +kernel : ∀ (t : Fin grid0.N) (a : Fin 2), win0_2.index t a = 0) t a) y))

theorem r0_pay3_blk (c : Dev nD) (t : Fin cfg0.N) (ht : t.val < 50) (r : Fin 4000) (q : Fin 40) :
    k0_pay3 (F := Ideal) (r0_xb V c t) (r0_wb V c t) (r0_bb V c t) (ix2 r q) = r0_H V c (ix2 (r0_row t.val ht r) q) := by
  refine (r0_pay3_apply (r0_xb V c t) (r0_wb V c t) (r0_bb V c t) r q).trans ?_
  show _ = max ((∑ k : Fin 16, r0_X V c (ix2 (r0_row t.val ht r) k) * r0_W V c (ix2 q k)) + r0_B V c (ix2 0 q)) 0
  exact congrArg₂ max (congrArg₂ (· + ·) (Finset.sum_congr rfl fun k _ =>
    congrArg₂ (· * ·) (r0_xb_apply V c t ht r k) (congrFun (r0_wb_eq V c t) _)) (congrFun (r0_bb_eq V c t) _)) rfl

theorem r0_outs_A (c : Dev nD) (t : Fin cfg0.N) (h0 : t.val % 50 = 0) :
    (outsAt0 V c t.val t.isLt).1 = k0_pay4 (F := Ideal) (r0_xb V c t) (r0_wb V c t) (r0_bb V c t) (k0_pay1 (F := Ideal))
    ∧ (outsAt0 V c t.val t.isLt).2 = k0_pay5 (F := Ideal) (r0_xb V c t) (r0_wb V c t) (r0_bb V c t) (k0_pay2 (F := Ideal)) := by
  rw [outsAt0_A V c t h0]
  dsimp only
  exact r0_out_A (F := Ideal) ..

theorem r0_outs_B (c : Dev nD) (t : Fin cfg0.N) (h0 : ¬t.val % 50 = 0) :
    (outsAt0 V c t.val t.isLt).1 = k0_pay4 (F := Ideal) (r0_xb V c t) (r0_wb V c t) (r0_bb V c t) (outsAt0 V c (t.val - 1) (Nat.lt_of_le_of_lt (Nat.sub_le _ _) t.isLt)).1
    ∧ (outsAt0 V c t.val t.isLt).2 = k0_pay5 (F := Ideal) (r0_xb V c t) (r0_wb V c t) (r0_bb V c t) (outsAt0 V c (t.val - 1) (Nat.lt_of_le_of_lt (Nat.sub_le _ _) t.isLt)).2 := by
  rw [outsAt0_B V c t h0]
  dsimp only
  exact r0_out_B (F := Ideal) ..

def r0_bsum (c : Dev nD) (q : Fin 40) (t : ℕ) : EReal :=
  if h : t < 50 then ∑ r : Fin 4000, r0_H V c (ix2 (r0_row t h r) q) else 0
def r0_bsq (c : Dev nD) (q : Fin 40) (t : ℕ) : EReal :=
  if h : t < 50 then ∑ r : Fin 4000, r0_H V c (ix2 (r0_row t h r) q) * r0_H V c (ix2 (r0_row t h r) q) else 0

theorem r0_acc (c : Dev nD) : ∀ (n : ℕ) (h : n < cfg0.N) (q : Fin 40),
    (outsAt0 V c n h).1 (ix2 0 q) = ∑ t ∈ Finset.range (n + 1), r0_bsum V c q t
    ∧ (outsAt0 V c n h).2 (ix2 0 q) = ∑ t ∈ Finset.range (n + 1), r0_bsq V c q t
  | 0, h, q => by
    have hN : cfg0.N = 50 := N_0
    have h50 : (0 : ℕ) < 50 := by omega
    obtain ⟨e3, e4⟩ := r0_outs_A V c ⟨0, h⟩ rfl
    constructor
    · refine (congrFun e3 (ix2 0 q)).trans ?_
      refine (r0_pay4_apply (r0_xb V c ⟨0, h⟩) (r0_wb V c ⟨0, h⟩) (r0_bb V c ⟨0, h⟩) (k0_pay1 (F := Ideal)) q).trans ?_
      rw [r0_pay1_apply, zero_add, Finset.sum_range_one]
      unfold r0_bsum
      rw [dif_pos h50]
      exact Finset.sum_congr rfl fun r _ => r0_pay3_blk V c ⟨0, h⟩ h50 r q
    · refine (congrFun e4 (ix2 0 q)).trans ?_
      refine (r0_pay5_apply (r0_xb V c ⟨0, h⟩) (r0_wb V c ⟨0, h⟩) (r0_bb V c ⟨0, h⟩) (k0_pay2 (F := Ideal)) q).trans ?_
      rw [r0_pay2_apply, zero_add, Finset.sum_range_one]
      unfold r0_bsq
      rw [dif_pos h50]
      exact Finset.sum_congr rfl fun r _ => congrArg₂ (· * ·) (r0_pay3_blk V c ⟨0, h⟩ h50 r q) (r0_pay3_blk V c ⟨0, h⟩ h50 r q)
  | n + 1, h, q => by
    have hN : cfg0.N = 50 := N_0
    have h50 : n + 1 < 50 := by omega
    have hB : ¬(⟨n + 1, h⟩ : Fin cfg0.N).val % 50 = 0 := by dsimp only; omega
    obtain ⟨e3, e4⟩ := r0_outs_B V c ⟨n + 1, h⟩ hB
    obtain ⟨i3, i4⟩ := r0_acc c n (Nat.lt_of_succ_lt h) q
    constructor
    · refine (congrFun e3 (ix2 0 q)).trans ?_
      refine (r0_pay4_apply (r0_xb V c ⟨n + 1, h⟩) (r0_wb V c ⟨n + 1, h⟩) (r0_bb V c ⟨n + 1, h⟩) _ q).trans ?_
      rw [Finset.sum_range_succ _ (n + 1)]
      refine congrArg₂ (· + ·) i3 ?_
      unfold r0_bsum
      rw [dif_pos h50]
      exact Finset.sum_congr rfl fun r _ => r0_pay3_blk V c ⟨n + 1, h⟩ h50 r q
    · refine (congrFun e4 (ix2 0 q)).trans ?_
      refine (r0_pay5_apply (r0_xb V c ⟨n + 1, h⟩) (r0_wb V c ⟨n + 1, h⟩) (r0_bb V c ⟨n + 1, h⟩) _ q).trans ?_
      rw [Finset.sum_range_succ _ (n + 1)]
      refine congrArg₂ (· + ·) i4 ?_
      unfold r0_bsq
      rw [dif_pos h50]
      exact Finset.sum_congr rfl fun r _ => congrArg₂ (· * ·) (r0_pay3_blk V c ⟨n + 1, h⟩ h50 r q) (r0_pay3_blk V c ⟨n + 1, h⟩ h50 r q)

theorem r0_regroup (g : Fin 200000 → EReal) :
    ∑ t ∈ Finset.range 50, (if h : t < 50 then ∑ r : Fin 4000, g (r0_row t h r) else 0) = ∑ r : Fin 200000, g r :=
  calc ∑ t ∈ Finset.range 50, (if h : t < 50 then ∑ r : Fin 4000, g (r0_row t h r) else 0)
      = ∑ t : Fin 50, ∑ r : Fin 4000, g (r0_row t.val t.isLt r) := by
        rw [Finset.sum_range]
        exact Finset.sum_congr rfl fun t _ => dif_pos t.isLt
    _ = ∑ x : Fin 50 × Fin 4000, g (finProdFinEquiv (m := 50) (n := 4000) x) := by
        rw [Fintype.sum_prod_type]
        exact Finset.sum_congr rfl fun t _ => Finset.sum_congr rfl fun r _ => congrArg g (Fin.ext (by
          show 4000 * t.val + r.val = r.val + 4000 * t.val
          omega))
    _ = ∑ r : Fin 200000, g r := Equiv.sum_comp (finProdFinEquiv (m := 50) (n := 4000)) g

def r0_tlast : Fin cfg0.N := ⟨49, by rw [show cfg0.N = 50 from N_0]; decide⟩

theorem r0_last3 (c : Dev nD) : (outsAt0 V c r0_tlast.val r0_tlast.isLt).1 = Spec.colsum (r0_H V c) := by
  funext j
  obtain ⟨u, q, rfl⟩ : ∃ (u : Fin 1) (q : Fin 40), j = ix2 u q := ⟨j 0, j 1, eq_ix2 j⟩
  obtain rfl : u = 0 := Subsingleton.elim _ _
  refine ((r0_acc V c 49 r0_tlast.isLt q).1).trans ?_
  exact r0_regroup (fun r => r0_H V c (ix2 r q))

theorem r0_last4 (c : Dev nD) : (outsAt0 V c r0_tlast.val r0_tlast.isLt).2 = Spec.colsumsq (r0_H V c) := by
  funext j
  obtain ⟨u, q, rfl⟩ : ∃ (u : Fin 1) (q : Fin 40), j = ix2 u q := ⟨j 0, j 1, eq_ix2 j⟩
  obtain rfl : u = 0 := Subsingleton.elim _ _
  refine ((r0_acc V c 49 r0_tlast.isLt q).2).trans ?_
  exact r0_regroup (fun r => r0_H V c (ix2 r q) * r0_H V c (ix2 r q))

theorem r0_flushed3 (c : Dev nD) (t : Fin cfg0.N) (hf : (cfg0.win 3).flush t = true) :
    (dat0 V c).flushed 3 t = ((cfg0.win 3).blk t).view.read (Elt Ideal) (Spec.colsum (r0_H V c)) := by
  have hN : cfg0.N = 50 := N_0
  have h49 : t.val = 49 := by have := (flush0_3 t).mp hf; have := t.isLt; omega
  obtain rfl : t = r0_tlast := Fin.ext h49
  show (cfg0.win 3).cut (grid0.coords r0_tlast) ((dat0 V c).after 3 r0_tlast) = _
  rw [after0_3, r0_last3]
  have hz' : (fun a => win0_3.index r0_tlast a * main_v27_0.ty.shape.size a) = fun _ => 0 := funext fun a => by fin_cases a <;> decide +kernel
  exact (Memref.read_access_unit_zero (Elt Ideal) main_v27_0 hz' (fun a => by rw [congrFun hz' a]; simp) (Spec.colsum (r0_H V c))).symm
theorem r0_flushed4 (c : Dev nD) (t : Fin cfg0.N) (hf : (cfg0.win 4).flush t = true) :
    (dat0 V c).flushed 4 t = ((cfg0.win 4).blk t).view.read (Elt Ideal) (Spec.colsumsq (r0_H V c)) := by
  have hN : cfg0.N = 50 := N_0
  have h49 : t.val = 49 := by have := (flush0_4 t).mp hf; have := t.isLt; omega
  obtain rfl : t = r0_tlast := Fin.ext h49
  show (cfg0.win 4).cut (grid0.coords r0_tlast) ((dat0 V c).after 4 r0_tlast) = _
  rw [after0_4, r0_last4]
  have hz' : (fun a => win0_4.index r0_tlast a * main_v27_1.ty.shape.size a) = fun _ => 0 := funext fun a => by fin_cases a <;> decide +kernel
  exact (Memref.read_access_unit_zero (Elt Ideal) main_v27_1 hz' (fun a => by rw [congrFun hz' a]; simp) (Spec.colsumsq (r0_H V c))).symm

theorem r0_cover3 (c : Dev nD) (i : ((cfg0.win 3).arr.view.loc (c.tc : Thread nD τ)).2.ty.Idx) :
    ∃ t : Fin cfg0.N, (cfg0.win 3).flush t = true ∧ i ∈ ((cfg0.win 3).blk t).view.set :=
  ⟨r0_tlast, (flush0_3 r0_tlast).mpr rfl, Finset.mem_map.mpr ⟨i, Finset.mem_univ _, funext fun a => Fin.ext
    (win0_3.rect_emb_val_of_index_zero r0_tlast a ((by decide +kernel : ∀ a : Fin 2, win0_3.index r0_tlast a = 0) a) i)⟩⟩
theorem r0_cover4 (c : Dev nD) (i : ((cfg0.win 4).arr.view.loc (c.tc : Thread nD τ)).2.ty.Idx) :
    ∃ t : Fin cfg0.N, (cfg0.win 4).flush t = true ∧ i ∈ ((cfg0.win 4).blk t).view.set :=
  ⟨r0_tlast, (flush0_4 r0_tlast).mpr rfl, Finset.mem_map.mpr ⟨i, Finset.mem_univ _, funext fun a => Fin.ext
    (win0_4.rect_emb_val_of_index_zero r0_tlast a ((by decide +kernel : ∀ a : Fin 2, win0_4.index r0_tlast a = 0) a) i)⟩⟩

theorem val0_sum (c : Dev nD) : (dat0 (F := Ideal) V c).arrAt 3 cfg0.N = Spec.colsum (Spec.h1 (V c main_v16) (V c main_arg6) (V c main_v17)) :=
  (dat0 (F := Ideal) V c).arrAt_eq_of_cover 3 (Spec.colsum (r0_H V c)) (r0_flushed3 V c) (r0_cover3 c)

theorem val0_sumsq (c : Dev nD) : (dat0 (F := Ideal) V c).arrAt 4 cfg0.N = Spec.colsumsq (Spec.h1 (V c main_v16) (V c main_arg6) (V c main_v17)) :=
  (dat0 (F := Ideal) V c).arrAt_eq_of_cover 4 (Spec.colsumsq (r0_H V c)) (r0_flushed4 V c) (r0_cover4 c)

end Values

end Cert.KernelIdeal.HV

end
-- ==== Proof.KI.Val1.lean ====
import proofs.«420467_j63230508531831_3_alg».proof.Proof.KI.Reg1
import proofs.«420467_j63230508531831_3_alg».proof.Proof.KI.Pay3
import proofs.«420467_j63230508531831_3_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.HV
open Cert.KernelIdeal Cert.KernelIdeal.Gen Cert.KernelIdeal.H
open Idealize.ShloMosaic Idealize.ShloMosaic.TcCoe Idealize.SL.Sem Idealize.ShloMosaic.ValueIdx
open Idealize.ShloMosaic.Pipeline (Dat)

theorem mm_feat_eq : dot_S4000x16_S16x40_S4000x40_1_0_0_1_n_n = DotDims.plain 4000 16 40 := rfl
theorem mm_out_eq : dot_S4000x40_S40x24_S4000x24_1_0_0_1_n_n = DotDims.plain 4000 40 24 := rfl

theorem rsqrt_vec_apply (a : FVec Ideal S1x40 .f32) (i : S1x40.Idx) : rsqrt a i = Ideal.rsqrt (a i) := rfl

theorem hidden_apply (x0 : Vec Ideal S4000x16 .f32) (x1 : Vec Ideal S40x16 .f32) (x2 x3 x4 x5 x6 : Vec Ideal S1x40 .f32)
    (x7 : Vec Ideal S4000x1 .f32) (p : Fin 4000) (k : Fin 40) :
    k1_pay2 (F := Ideal) x0 x1 x2 x6 x5 x3 x4 x7 (ix2 p k)
      = ((max ((∑ j : Fin 16, x0 (ix2 p j) * x1 (ix2 k j)) + x2 (ix2 (0 : Fin 1) k)) 0 - x5 (ix2 (0 : Fin 1) k))
            * Ideal.rsqrt (x6 (ix2 (0 : Fin 1) k) + Ideal.ofBits .f32 0x3727C5AC#32) * x3 (ix2 (0 : Fin 1) k) + x4 (ix2 (0 : Fin 1) k))
          * x7 (ix2 p (0 : Fin 1)) := by
  unfold k1_pay2
  simp only [shapeCast_self]
  simp only [truncf_apply, mulf_apply, addf_apply, subf_apply, maximumf_apply, broadcast_apply, bcCol_apply,
    broadcastTo_1b_ab_apply, rsqrt_vec_apply, mm_feat_eq, mm_plain_apply]
  have hs : ∀ j : Fin 16, transpose S16x40 [1, 0] (truncf (F := Ideal) FTy.bf16 x1 bitsLt_bf16_f32 : FVec Ideal S40x16 .bf16)
      transposes_S40x16_p1_0_S16x40 (ix2 j k) = x1 (ix2 k j) :=
    fun j => transpose_ix2_apply (truncf (F := Ideal) FTy.bf16 x1 bitsLt_bf16_f32 : FVec Ideal S40x16 .bf16) transposes_S40x16_p1_0_S16x40 j k
  simp only [hs]
  rw [show (FloatOps.ofBits (F := Ideal) FTy.f32 0x00000000#32) = (0 : EReal) from Ideal.ofBits_zero_f32]
  rfl

theorem stored_apply (h : FVec Ideal S4000x40 .bf16) (x8 : Vec Ideal S40x24 .f32) (p : Fin 4000) (q : Fin 24) :
    k1_pay1 (F := Ideal) h x8 (ix2 p q) = ∑ k : Fin 40, h (ix2 p k) * x8 (ix2 k q) := by
  unfold k1_pay1
  simp only [truncf_apply, mm_out_eq, mm_plain_apply]

theorem block_spec (X : Spec.M 200000 16) (w : Spec.M 40 16) (b gam bet mu var : Spec.M 1 40) (cs : Spec.M 200000 1) (W : Spec.M 40 24)
    (x0 : Vec Ideal S4000x16 .f32) (x1 : Vec Ideal S40x16 .f32) (x2 x3 x4 x5 x6 : Vec Ideal S1x40 .f32)
    (x7 : Vec Ideal S4000x1 .f32) (x8 : Vec Ideal S40x24 .f32) (r : Fin 200000) (p : Fin 4000) (q : Fin 24)
    (h0 : ∀ j : Fin 16, x0 (ix2 p j) = X (ix2 r j)) (h1 : x1 = w) (h2 : x2 = b) (h3 : x3 = gam) (h4 : x4 = bet)
    (h5 : x5 = mu) (h6 : x6 = var) (h7 : x7 (ix2 p (0 : Fin 1)) = cs (ix2 r (0 : Fin 1))) (h8 : x8 = W) :
    k1_pay1 (F := Ideal) (k1_pay2 (F := Ideal) x0 x1 x2 x6 x5 x3 x4 x7) x8 (ix2 p q)
      = Spec.conv (Spec.h1n (Spec.h1 X w b) mu var gam bet) cs W (ix2 r q) := by
  rw [stored_apply]
  simp only [hidden_apply, h0, h7]
  subst h1 h2 h3 h4 h5 h6 h8
  rfl

variable (V : (c : Dev nD) → (b : Ref sig .tc) → Buf (Elt Ideal) ((c : Thread nD τ).loc b))

abbrev aX (c : Dev nD) : Spec.M 200000 16 := V c main_v16
abbrev aW1 (c : Dev nD) : Spec.M 40 16 := V c main_arg6
abbrev aB1 (c : Dev nD) : Spec.M 1 40 := V c main_v17
abbrev aGam (c : Dev nD) : Spec.M 1 40 := V c main_v18
abbrev aBet (c : Dev nD) : Spec.M 1 40 := V c main_v19
abbrev aMu (c : Dev nD) : Spec.M 1 40 := V c main_v29
abbrev aVar (c : Dev nD) : Spec.M 1 40 := V c main_v35
abbrev aCs (c : Dev nD) : Spec.M 200000 1 := V c main_v10
abbrev aW2 (c : Dev nD) : Spec.M 40 24 := V c main_arg10

abbrev res1 (c : Dev nD) : Spec.M 200000 24 :=
  Spec.conv (Spec.h1n (Spec.h1 (aX V c) (aW1 V c) (aB1 V c)) (aMu V c) (aVar V c) (aGam V c) (aBet V c)) (aCs V c) (aW2 V c)

abbrev bX (c : Dev nD) (t : Fin cfg1.N) : Vec Ideal S4000x16 .f32 := iblk1 V c 0 t
abbrev bW1 (c : Dev nD) (t : Fin cfg1.N) : Vec Ideal S40x16 .f32 := iblk1 V c 1 t
abbrev bB1 (c : Dev nD) (t : Fin cfg1.N) : Vec Ideal S1x40 .f32 := iblk1 V c 2 t
abbrev bGam (c : Dev nD) (t : Fin cfg1.N) : Vec Ideal S1x40 .f32 := iblk1 V c 3 t
abbrev bBet (c : Dev nD) (t : Fin cfg1.N) : Vec Ideal S1x40 .f32 := iblk1 V c 4 t
abbrev bMu (c : Dev nD) (t : Fin cfg1.N) : Vec Ideal S1x40 .f32 := iblk1 V c 5 t
abbrev bVar (c : Dev nD) (t : Fin cfg1.N) : Vec Ideal S1x40 .f32 := iblk1 V c 6 t
abbrev bCs (c : Dev nD) (t : Fin cfg1.N) : Vec Ideal S4000x1 .f32 := iblk1 V c 7 t
abbrev bW2 (c : Dev nD) (t : Fin cfg1.N) : Vec Ideal S40x24 .f32 := iblk1 V c 8 t

theorem hz : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_1 : ∀ (t : Fin cfg1.N) (a : Fin 2), win1_1.index t a = 0 := (by decide +kernel : ∀ t : Fin grid1.N, _)
theorem idx1_2 : ∀ (t : Fin cfg1.N) (a : Fin 2), win1_2.index t a = 0 := (by decide +kernel : ∀ t : Fin grid1.N, _)
theorem idx1_3 : ∀ (t : Fin cfg1.N) (a : Fin 2), win1_3.index t a = 0 := (by decide +kernel : ∀ t : Fin grid1.N, _)
theorem idx1_4 : ∀ (t : Fin cfg1.N) (a : Fin 2), win1_4.index t a = 0 := (by decide +kernel : ∀ t : Fin grid1.N, _)
theorem idx1_5 : ∀ (t : Fin cfg1.N) (a : Fin 2), win1_5.index t a = 0 := (by decide +kernel : ∀ t : Fin grid1.N, _)
theorem idx1_6 : ∀ (t : Fin cfg1.N) (a : Fin 2), win1_6.index t a = 0 := (by decide +kernel : ∀ t : Fin grid1.N, _)
theorem idx1_8 : ∀ (t : Fin cfg1.N) (a : Fin 2), win1_8.index t a = 0 := (by decide +kernel : ∀ t : Fin grid1.N, _)

theorem bX_row (c : Dev nD) (t : Fin cfg1.N) (r : Fin 200000) (p : Fin 4000) (hr : r.val = 4000 * t.val + p.val) (j : Fin 16) :
    bX V c t (ix2 p j) = aX V c (ix2 r j) := by
  show V c main_v16 (((cfg1.win 0).blk t).view.emb (ix2 p j)) = V c main_v16 (ix2 r j)
  refine congrArg _ (funext fun a => Fin.ext ?_)
  obtain ⟨e0, e1⟩ := idx1_0 t
  match a with
  | ⟨0, _⟩ => show win1_0.index t (0 : Fin 2) * 4000 + 1 * p.val = r.val; omega
  | ⟨1, _⟩ => show win1_0.index t (1 : Fin 2) * 16 + 1 * j.val = j.val; omega

theorem bCs_row (c : Dev nD) (t : Fin cfg1.N) (r : Fin 200000) (p : Fin 4000) (hr : r.val = 4000 * t.val + p.val) :
    bCs V c t (ix2 p (0 : Fin 1)) = aCs V c (ix2 r (0 : Fin 1)) := by
  show V c main_v10 (((cfg1.win 7).blk t).view.emb (ix2 p (0 : Fin 1))) = V c main_v10 (ix2 r (0 : Fin 1))
  refine congrArg _ (funext fun a => Fin.ext ?_)
  obtain ⟨e0, e1⟩ := idx1_7 t
  match a with
  | ⟨0, _⟩ => show win1_7.index t (0 : Fin 2) * 4000 + 1 * p.val = r.val; omega
  | ⟨1, _⟩ => show win1_7.index t (1 : Fin 2) * 1 + 1 * 0 = 0; omega

theorem bW1_eq (c : Dev nD) (t : Fin cfg1.N) : bW1 V c t = aW1 V c :=
  funext fun y => congrArg (V c main_arg6) (funext fun a => Fin.ext (win1_1.rect_emb_val_of_index_zero t a (idx1_1 t a) y))
theorem bB1_eq (c : Dev nD) (t : Fin cfg1.N) : bB1 V c t = aB1 V c :=
  funext fun y => congrArg (V c main_v17) (funext fun a => Fin.ext (win1_2.rect_emb_val_of_index_zero t a (idx1_2 t a) y))
theorem bGam_eq (c : Dev nD) (t : Fin cfg1.N) : bGam V c t = aGam V c :=
  funext fun y => congrArg (V c main_v18) (funext fun a => Fin.ext (win1_3.rect_emb_val_of_index_zero t a (idx1_3 t a) y))
theorem bBet_eq (c : Dev nD) (t : Fin cfg1.N) : bBet V c t = aBet V c :=
  funext fun y => congrArg (V c main_v19) (funext fun a => Fin.ext (win1_4.rect_emb_val_of_index_zero t a (idx1_4 t a) y))
theorem bMu_eq (c : Dev nD) (t : Fin cfg1.N) : bMu V c t = aMu V c :=
  funext fun y => congrArg (V c main_v29) (funext fun a => Fin.ext (win1_5.rect_emb_val_of_index_zero t a (idx1_5 t a) y))
theorem bVar_eq (c : Dev nD) (t : Fin cfg1.N) : bVar V c t = aVar V c :=
  funext fun y => congrArg (V c main_v35) (funext fun a => Fin.ext (win1_6.rect_emb_val_of_index_zero t a (idx1_6 t a) y))
theorem bW2_eq (c : Dev nD) (t : Fin cfg1.N) : bW2 V c t = aW2 V c :=
  funext fun y => congrArg (V c main_arg10) (funext fun a => Fin.ext (win1_8.rect_emb_val_of_index_zero t a (idx1_8 t a) y))

theorem flushed1_eq (c : Dev nD) (t : Fin cfg1.N) :
    (dat1 (F := Ideal) V c).flushed 9 t = ((cfg1.win 9).blk t).view.read (Elt Ideal) (res1 V c) := by
  show (cfg1.win 9).cut (grid1.coords t) ((dat1 (F := Ideal) V c).after 9 t) = _
  rw [after1_9]
  unfold out1_9
  rw [View.canon_unit_zero hz]
  simp only [View.ld_unit_zero (S := S4000x16) hz, View.ld_unit_zero (S := S40x16) hz, View.ld_unit_zero (S := S1x40) hz,
    View.ld_unit_zero (S := S4000x1) hz, View.ld_unit_zero (S := S40x24) hz]
  funext y
  obtain ⟨p, q, rfl⟩ : ∃ (p : Fin 4000) (q : Fin 24), y = ix2 p q := ⟨y 0, y 1, eq_ix2 y⟩
  have ht : t.val < 50 := Nat.lt_of_lt_of_eq t.isLt N_1
  have hp : p.val < 4000 := p.isLt
  obtain ⟨e0, e1⟩ := idx1_9 t
  have hemb : ((cfg1.win 9).blk t).view.emb (ix2 p q) = ix2 (⟨4000 * t.val + p.val, by omega⟩ : Fin 200000) q :=
    funext fun a => Fin.ext (by
      match a with
      | ⟨0, _⟩ => show win1_9.index t (0 : Fin 2) * 4000 + 1 * p.val = 4000 * t.val + p.val; omega
      | ⟨1, _⟩ => show win1_9.index t (1 : Fin 2) * 24 + 1 * q.val = q.val; omega)
  show k1_pay1 (F := Ideal) (k1_pay2 (F := Ideal) (bX V c t) (bW1 V c t) (bB1 V c t) (bVar V c t) (bMu V c t) (bGam V c t) (bBet V c t)
      (bCs V c t)) (bW2 V c t) (ix2 p q) = res1 V c (((cfg1.win 9).blk t).view.emb (ix2 p q))
  rw [hemb]
  exact block_spec (aX V c) (aW1 V c) (aB1 V c) (aGam V c) (aBet V c) (aMu V c) (aVar V c) (aCs V c) (aW2 V c)
    (bX V c t) (bW1 V c t) (bB1 V c t) (bGam V c t) (bBet V c t) (bMu V c t) (bVar V c t) (bCs V c t) (bW2 V c t)
    (⟨4000 * t.val + p.val, by omega⟩ : Fin 200000) p q
    (fun j => bX_row V c t _ p rfl j) (bW1_eq V c t) (bB1_eq V c t) (bGam_eq V c t) (bBet_eq V c t) (bMu_eq V c t) (bVar_eq V c t)
    (bCs_row V c t _ p rfl) (bW2_eq V c t)

theorem mem_blk1 (t : Fin cfg1.N) (i : S200000x24.Idx) :
    i ∈ ((cfg1.win 9).blk t).view.set ↔ ∀ a : Fin 2, win1_9.index t a * S4000x24.size a ≤ (i a).val
      ∧ (i a).val < win1_9.index t a * S4000x24.size a + S4000x24.size a := by
  show i ∈ ((View.whole main_v36).slice (win1_9.rect t)).set ↔ _
  rw [View.set_slice_whole, Rect.mem_set_unit]
  exact Iff.rfl

theorem cover1 (i : S200000x24.Idx) : ∃ t : Fin cfg1.N, (cfg1.win 9).flush t = true ∧ i ∈ ((cfg1.win 9).blk t).view.set := by
  have hi0 : (i 0).val < 200000 := (i 0).isLt
  have hi1 : (i 1).val < 24 := (i 1).isLt
  have hq : (i 0).val / 4000 < 50 := by omega
  obtain ⟨e0, e1⟩ := idx1_9 (⟨(i 0).val / 4000, Nat.lt_of_lt_of_eq hq N_1.symm⟩ : Fin cfg1.N)
  refine ⟨⟨(i 0).val / 4000, Nat.lt_of_lt_of_eq hq N_1.symm⟩, flush1_9 _, ?_⟩
  rw [mem_blk1]
  intro a
  match a with
  | ⟨0, _⟩ =>
    show win1_9.index ⟨(i 0).val / 4000, _⟩ (0 : Fin 2) * 4000 ≤ (i 0).val
      ∧ (i 0).val < win1_9.index ⟨(i 0).val / 4000, _⟩ (0 : Fin 2) * 4000 + 4000
    have e0' : win1_9.index ⟨(i 0).val / 4000, Nat.lt_of_lt_of_eq hq N_1.symm⟩ (0 : Fin 2) = (i 0).val / 4000 := e0
    omega
  | ⟨1, _⟩ =>
    show win1_9.index ⟨(i 0).val / 4000, _⟩ (1 : Fin 2) * 24 ≤ (i 1).val
      ∧ (i 1).val < win1_9.index ⟨(i 0).val / 4000, _⟩ (1 : Fin 2) * 24 + 24
    omega

theorem val1 (c : Dev nD) : (dat1 (F := Ideal) V c).arrAt 9 cfg1.N
    = Spec.conv (Spec.h1n (Spec.h1 (V c main_v16) (V c main_arg6) (V c main_v17)) (V c main_v29) (V c main_v35) (V c main_v18) (V c main_v19))
        (V c main_v10) (V c main_arg10) :=
  (dat1 (F := Ideal) V c).arrAt_eq_of_cover 9 (res1 V c) (fun t _ => flushed1_eq V c t) cover1

end Cert.KernelIdeal.HV
end
-- ==== Proof.KI.Val2.lean ====
import proofs.«420467_j63230508531831_3_alg».proof.Proof.KI.Reg2
import proofs.«420467_j63230508531831_3_alg».proof.Proof.KI.Pay3
import proofs.«420467_j63230508531831_3_alg».proof.Proof.Spec
import Idealize.ShloMosaic.Lib.Pipeline.Value
import Idealize.ShloMosaic.Lib.ValueIdx
import Idealize.ShloMosaic.PureOps.Ideal.Laws
set_option maxRecDepth 16384
noncomputable section
namespace Cert.KernelIdeal.HV
open Cert.KernelIdeal Cert.KernelIdeal.Gen Cert.KernelIdeal.H
open Idealize.ShloMosaic Idealize.ShloMosaic.TcCoe Idealize.ShloMosaic.ValueIdx Idealize.SL.Sem
open Idealize.ShloMosaic.Pipeline (Dat)
open scoped BigOperators

theorem r2_mmA_eq : dot_S4000x24_S24x24_S4000x24_1_0_0_1_n_n = DotDims.plain 4000 24 24 := rfl
theorem r2_mmB_eq : dot_S4000x8_S8x24_S4000x24_1_0_0_1_n_n = DotDims.plain 4000 8 24 := rfl

theorem r2_pay2_apply (v0 v2 : Vec Ideal S4000x1 .f32) (v4 : Vec Ideal S4000x24 .f32) (v8 : Vec Ideal S1x24 .f32) (v13 : Vec Ideal S4000x8 .f32)
    (v15 : Vec Ideal S24x24 .f32) (v18 : Vec Ideal S24x8 .f32) (v26 : Vec Ideal S1x24 .f32) (p : Fin 4000) (k : Fin 24) :
    k2_pay2 (F := Ideal) v0 v2 v4 v8 v13 v15 v18 v26 (ix2 p k)
      = max (((∑ j : Fin 24, (v4 (ix2 p j) * v0 (ix2 p 0) + v8 (ix2 0 j)) * v15 (ix2 k j)) + ∑ j : Fin 8, v13 (ix2 p j) * v18 (ix2 k j)) + v26 (ix2 0 k)) 0
        * v2 (ix2 p 0) := by
  have hz0 : (FloatOps.ofBits (F := Ideal) .f32 0x00000000#32) = 0 := Ideal.ofBits_zero_f32
  unfold k2_pay2
  simp only [shapeCast_self, truncf_apply, mulf_apply, maximumf_apply, addf_apply, r2_mmA_eq, r2_mmB_eq, mm_plain_apply, broadcastTo_1b_ab_apply, bcCol_apply,
    broadcast_apply, transpose_ix2_apply]
  rw [hz0]
  refine congrArg (· * v2 (ix2 p 0)) (congrArg (max · 0) (congrArg₂ (· + ·) (congrArg₂ (· + ·) (Finset.sum_congr rfl fun j _ => ?_) (Finset.sum_congr rfl fun j _ => ?_)) rfl))
  · rw [transpose_ix2_apply]; rfl
  · rw [transpose_ix2_apply]; rfl

theorem r2_pay3_apply (v35 : Vec Ideal S24x24 .f32) (k : Fin 24) (q : Fin 24) : k2_pay3 (F := Ideal) v35 (ix2 k q) = v35 (ix2 k q) := rfl

theorem r2_pay1_apply (l : FVec Ideal S4000x24 .bf16) (r : FVec Ideal S24x24 .bf16) (p : Fin 4000) (q : Fin 24) :
    k2_pay1 (F := Ideal) l r (constant (F := Ideal) S4000x24 .f32 0x00000000#32) (ix2 p q) = ∑ k : Fin 24, l (ix2 p k) * r (ix2 k q) := by
  unfold k2_pay1
  simp only [truncf_apply, r2_mmA_eq, mm_plain_apply]

theorem r2_hz : (![0, 0] : Fin 2 → Nat) = fun _ => 0 := funext fun a => by fin_cases a <;> rfl

theorem r2_ldc0 (x1 : Vec Ideal S4000x2 .f32) (p : Fin 4000) : View.ld x1 r2_0 (ix2 p 0) = x1 (ix2 p 0) := by
  show x1 (r2_0.idx (ix2 p 0)) = x1 (ix2 p 0)
  refine congrArg x1 (funext fun a => Fin.ext ?_)
  match a with
  | ⟨0, _⟩ => show (0 : Nat) + 1 * p.val = p.val; omega
  | ⟨1, _⟩ => rfl

theorem r2_ldc1 (x1 : Vec Ideal S4000x2 .f32) (p : Fin 4000) : View.ld x1 r2_1 (ix2 p 0) = x1 (ix2 p 1) := by
  show x1 (r2_1.idx (ix2 p 0)) = x1 (ix2 p 1)
  refine congrArg x1 (funext fun a => Fin.ext ?_)
  match a with
  | ⟨0, _⟩ => show (0 : Nat) + 1 * p.val = p.val; omega
  | ⟨1, _⟩ => rfl

theorem r2_out_apply (x0 : Vec Ideal S4000x24 .f32) (x1 : Vec Ideal S4000x2 .f32) (x2 : Vec Ideal S1x24 .f32) (x3 : Vec Ideal S4000x8 .f32)
    (x4 : Vec Ideal S24x24 .f32) (x5 : Vec Ideal S24x8 .f32) (x6 : Vec Ideal S1x24 .f32) (x7 : Vec Ideal S24x24 .f32) (p : Fin 4000) (q : Fin 24) :
    out2_8 (F := Ideal) x0 x1 x2 x3 x4 x5 x6 x7 (ix2 p q)
      = ∑ k : Fin 24, (max (((∑ j : Fin 24, (x0 (ix2 p j) * x1 (ix2 p 0) + x2 (ix2 0 j)) * x4 (ix2 k j)) + ∑ j : Fin 8, x3 (ix2 p j) * x5 (ix2 k j))
          + x6 (ix2 0 k)) 0 * x1 (ix2 p 1)) * x7 (ix2 k q) := by
  unfold out2_8
  rw [View.canon_unit_zero r2_hz]
  simp only [View.ld_unit_zero (S := S4000x24) r2_hz, View.ld_unit_zero (S := S1x24) r2_hz, View.ld_unit_zero (S := S4000x8) r2_hz,
    View.ld_unit_zero (S := S24x24) r2_hz, View.ld_unit_zero (S := S24x8) r2_hz]
  rw [r2_pay1_apply]
  refine Finset.sum_congr rfl fun k _ => ?_
  rw [r2_pay2_apply, r2_pay3_apply, r2_ldc0, r2_ldc1]

variable (V : (c : Dev nD) → (b : Ref sig .tc) → Buf (Elt Ideal) ((c : Thread nD τ).loc b))

abbrev G2 (c : Dev nD) : Spec.M 200000 24 :=
  Spec.conv (Spec.h2 (Spec.gfin (V c main_v47) (fun i => V c main_v15 (ValueIdx.ix2 (i 0) 0)) (V c main_v20)) (V c main_arg2) (V c main_v21) (V c main_v22) (V c main_v23))
      (fun i => V c main_v15 (ValueIdx.ix2 (i 0) 1)) (V c main_arg14)

theorem r2_idx_facts : ∀ t : Fin cfg2.N,
    win2_8.index t (0 : Fin 2) = t.val ∧ win2_8.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_3.index t (0 : Fin 2) = t.val ∧ win2_3.index t (1 : Fin 2) = 0 :=
  (by decide +kernel : ∀ t : Fin grid2.N, _)

theorem r2_blk0_apply (c : Dev nD) (t : Fin cfg2.N) (p : Fin 4000) (j : Fin 24) (r : Fin 200000) (hr : r.val = t.val * 4000 + p.val) :
    (iblk2 V c 0 t : Vec Ideal S4000x24 .f32) (ix2 p j) = (V c main_v47 : Spec.M 200000 24) (ix2 r j) := by
  obtain ⟨-, -, e0, e1, -⟩ := r2_idx_facts t
  show V c main_v47 (((cfg2.win 0).blk t).view.emb (ix2 p j)) = V c main_v47 (ix2 r j)
  congr 1
  funext a; apply Fin.ext
  match a with
  | ⟨0, _⟩ => show win2_0.index t (0 : Fin 2) * 4000 + 1 * p.val = r.val; omega
  | ⟨1, _⟩ => show win2_0.index t (1 : Fin 2) * 24 + 1 * j.val = j.val; omega

theorem r2_blk1_apply (c : Dev nD) (t : Fin cfg2.N) (p : Fin 4000) (j : Fin 2) (r : Fin 200000) (hr : r.val = t.val * 4000 + p.val) :
    (iblk2 V c 1 t : Vec Ideal S4000x2 .f32) (ix2 p j) = (V c main_v15 : Spec.M 200000 2) (ix2 r j) := by
  obtain ⟨-, -, -, -, e0, e1, -⟩ := r2_idx_facts t
  show V c main_v15 (((cfg2.win 1).blk t).view.emb (ix2 p j)) = V c main_v15 (ix2 r j)
  congr 1
  funext a; apply Fin.ext
  match a with
  | ⟨0, _⟩ => show win2_1.index t (0 : Fin 2) * 4000 + 1 * p.val = r.val; omega
  | ⟨1, _⟩ => show win2_1.index t (1 : Fin 2) * 2 + 1 * j.val = j.val; omega

theorem r2_blk3_apply (c : Dev nD) (t : Fin cfg2.N) (p : Fin 4000) (j : Fin 8) (r : Fin 200000) (hr : r.val = t.val * 4000 + p.val) :
    (iblk2 V c 3 t : Vec Ideal S4000x8 .f32) (ix2 p j) = (V c main_arg2 : Spec.M 200000 8) (ix2 r j) := by
  obtain ⟨-, -, -, -, -, -, e0, e1⟩ := r2_idx_facts t
  show V c main_arg2 (((cfg2.win 3).blk t).view.emb (ix2 p j)) = V c main_arg2 (ix2 r j)
  congr 1
  funext a; apply Fin.ext
  match a with
  | ⟨0, _⟩ => show win2_3.index t (0 : Fin 2) * 4000 + 1 * p.val = r.val; omega
  | ⟨1, _⟩ => show win2_3.index t (1 : Fin 2) * 8 + 1 * j.val = j.val; omega

theorem r2_blk2 (c : Dev nD) (t : Fin cfg2.N) : (iblk2 V c 2 t : Vec Ideal S1x24 .f32) = (V c main_v20 : Spec.M 1 24) :=
  funext fun y => congrArg (V c main_v20) (funext fun a => Fin.ext (win2_2.rect_emb_val_of_index_zero t a
    ((by decide +kernel : ∀ (t : Fin grid2.N) (a : Fin 2), win2_2.index t a = 0) t a) y))
theorem r2_blk4 (c : Dev nD) (t : Fin cfg2.N) : (iblk2 V c 4 t : Vec Ideal S24x24 .f32) = (V c main_v21 : Spec.M 24 24) :=
  funext fun y => congrArg (V c main_v21) (funext fun a => Fin.ext (win2_4.rect_emb_val_of_index_zero t a
    ((by decide +kernel : ∀ (t : Fin grid2.N) (a : Fin 2), win2_4.index t a = 0) t a) y))
theorem r2_blk5 (c : Dev nD) (t : Fin cfg2.N) : (iblk2 V c 5 t : Vec Ideal S24x8 .f32) = (V c main_v22 : Spec.M 24 8) :=
  funext fun y => congrArg (V c main_v22) (funext fun a => Fin.ext (win2_5.rect_emb_val_of_index_zero t a
    ((by decide +kernel : ∀ (t : Fin grid2.N) (a : Fin 2), win2_5.index t a = 0) t a) y))
theorem r2_blk6 (c : Dev nD) (t : Fin cfg2.N) : (iblk2 V c 6 t : Vec Ideal S1x24 .f32) = (V c main_v23 : Spec.M 1 24) :=
  funext fun y => congrArg (V c main_v23) (funext fun a => Fin.ext (win2_6.rect_emb_val_of_index_zero t a
    ((by decide +kernel : ∀ (t : Fin grid2.N) (a : Fin 2), win2_6.index t a = 0) t a) y))
theorem r2_blk7 (c : Dev nD) (t : Fin cfg2.N) : (iblk2 V c 7 t : Vec Ideal S24x24 .f32) = (V c main_arg14 : Spec.M 24 24) :=
  funext fun y => congrArg (V c main_arg14) (funext fun a => Fin.ext (win2_7.rect_emb_val_of_index_zero t a
    ((by decide +kernel : ∀ (t : Fin grid2.N) (a : Fin 2), win2_7.index t a = 0) t a) y))

theorem r2_flushed_apply (c : Dev nD) (t : Fin cfg2.N) (y : S4000x24.Idx) :
    out2_8 (F := Ideal) (iblk2 V c 0 t) (iblk2 V c 1 t) (iblk2 V c 2 t) (iblk2 V c 3 t) (iblk2 V c 4 t) (iblk2 V c 5 t) (iblk2 V c 6 t) (iblk2 V c 7 t) y
      = G2 V c (((cfg2.win 8).blk t).view.emb y) := by
  obtain ⟨p, q, rfl⟩ : ∃ (p : Fin 4000) (q : Fin 24), y = ix2 p q := ⟨y 0, y 1, eq_ix2 y⟩
  have hN : cfg2.N = 50 := N_2
  have ht : t.val < 50 := by have := t.isLt; omega
  have hp : p.val < 4000 := p.isLt
  obtain ⟨r, hr⟩ : ∃ r : Fin 200000, r.val = t.val * 4000 + p.val := ⟨⟨t.val * 4000 + p.val, by omega⟩, rfl⟩
  obtain ⟨e0, e1, -⟩ := r2_idx_facts t
  have he : ((cfg2.win 8).blk t).view.emb (ix2 p q) = (ix2 r q : S200000x24.Idx) := by
    funext a; apply Fin.ext
    match a with
    | ⟨0, _⟩ => show win2_8.index t (0 : Fin 2) * 4000 + 1 * p.val = r.val; omega
    | ⟨1, _⟩ => show win2_8.index t (1 : Fin 2) * 24 + 1 * q.val = q.val; omega
  rw [he]
  refine (r2_out_apply (iblk2 V c 0 t) (iblk2 V c 1 t) (iblk2 V c 2 t) (iblk2 V c 3 t) (iblk2 V c 4 t) (iblk2 V c 5 t) (iblk2 V c 6 t) (iblk2 V c 7 t) p q).trans ?_
  simp only [r2_blk0_apply V c t p _ r hr, r2_blk1_apply V c t p _ r hr, r2_blk2 V c t, r2_blk3_apply V c t p _ r hr, r2_blk4 V c t,
    r2_blk5 V c t, r2_blk6 V c t, r2_blk7 V c t]
  rfl

theorem r2_flushed_eq (c : Dev nD) (t : Fin cfg2.N) :
    (dat2 (F := Ideal) V c).flushed 8 t = ((cfg2.win 8).blk t).view.read (Elt Ideal) (G2 V c) := by
  show (cfg2.win 8).cut (grid2.coords t) ((dat2 (F := Ideal) V c).after 8 t) = _
  rw [after2_8]
  funext y
  exact r2_flushed_apply V c t y

theorem r2_mem_blk8 (t : Fin cfg2.N) (i : S200000x24.Idx) :
    i ∈ ((cfg2.win 8).blk t).view.set ↔ ∀ a : Fin 2, win2_8.index t a * S4000x24.size a ≤ (i a).val ∧ (i a).val < win2_8.index t a * S4000x24.size a + S4000x24.size a := by
  show i ∈ ((View.whole main_v48).slice (win2_8.rect t)).set ↔ _
  rw [View.set_slice_whole, Rect.mem_set_unit]
  exact Iff.rfl

theorem r2_cover8 (i : S200000x24.Idx) : ∃ t : Fin cfg2.N, (cfg2.win 8).flush t = true ∧ i ∈ ((cfg2.win 8).blk t).view.set := by
  have hi0 : (i 0).val < 200000 := (i 0).isLt
  have hi1 : (i 1).val < 24 := (i 1).isLt
  have hN : cfg2.N = 50 := N_2
  obtain ⟨t, ht⟩ : ∃ t : Fin cfg2.N, t.val = (i 0).val / 4000 := ⟨⟨(i 0).val / 4000, by omega⟩, rfl⟩
  obtain ⟨e0, e1, -⟩ := r2_idx_facts t
  refine ⟨t, flush2_8 t, ?_⟩
  rw [r2_mem_blk8]
  intro a
  match a with
  | ⟨0, _⟩ => show win2_8.index t (0 : Fin 2) * 4000 ≤ (i 0).val ∧ (i 0).val < win2_8.index t (0 : Fin 2) * 4000 + 4000; omega
  | ⟨1, _⟩ => show win2_8.index t (1 : Fin 2) * 24 ≤ (i 1).val ∧ (i 1).val < win2_8.index t (1 : Fin 2) * 24 + 24; omega

theorem val2 (c : Dev nD) : (dat2 (F := Ideal) V c).arrAt 8 cfg2.N
  = Spec.conv (Spec.h2 (Spec.gfin (V c main_v47) (fun i => V c main_v15 (ValueIdx.ix2 (i 0) 0)) (V c main_v20)) (V c main_arg2) (V c main_v21) (V c main_v22) (V c main_v23))
      (fun i => V c main_v15 (ValueIdx.ix2 (i 0) 1)) (V c main_arg14) :=
  (dat2 (F := Ideal) V c).arrAt_eq_of_cover 8 (G2 V c) (fun t _ => r2_flushed_eq V c t) (fun i => r2_cover8 i)

end Cert.KernelIdeal.HV
end
-- ==== Proof.LibBlockSum.lean ====
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.Math.BlockOneHot.lean ====
import proofs.«420467_j63230508531831_3_alg».proof.Proof.Spec
import proofs.«420467_j63230508531831_3_alg».proof.Proof.LibBlockSum
import Idealize.ShloMosaic.PureOps.Ideal
import Idealize.ShloMosaic.Lib.ValueIdx

noncomputable section

namespace Cert.Spec

open Idealize.ShloMosaic Idealize.ShloMosaic.ValueIdx

def brow (t : Fin 50) (r : Fin 4000) : Fin 200000 := ⟨4000 * t.val + r.val, by have := t.isLt; have := r.isLt; omega⟩

theorem brow_val (t : Fin 50) (r : Fin 4000) : (brow t r).val = 4000 * t.val + r.val := rfl

theorem sum_rows_blocks {A : Type*} [AddCommMonoid A] (f : Fin 200000 → A) :
    ∑ t : Fin 50, ∑ r : Fin 4000, f (brow t r) = ∑ r : Fin 200000, f r := by
  exact Cert.Lib.BlockSum.sum_blocks 50 4000 f

theorem ohsum_blocks (G : M 200000 24) (gid : MI 200000 1) (g : Fin 64) (j : Fin 24) :
    ∑ t : Fin 50, ∑ r : Fin 4000,
        (if gid (ix2 (brow t r) 0) = BitVec.ofNat 32 g.val then (1 : EReal) else 0) * G (ix2 (brow t r) j)
      = ohsum G gid (ix2 g j) := by
  exact sum_rows_blocks fun r => oh gid r g * G (ix2 r j)

theorem ohcnt_blocks (gid : MI 200000 1) (g : Fin 64) :
    ∑ t : Fin 50, ∑ r : Fin 4000, (if gid (ix2 (brow t r) 0) = BitVec.ofNat 32 g.val then (1 : EReal) else 0)
      = ohcnt gid (ix2 g 0) := by
  exact sum_rows_blocks fun r => oh gid r g

end Cert.Spec

end
-- ==== Proof.KI.Acc3.lean ====
import proofs.«420467_j63230508531831_3_alg».proof.Proof.KI.Pay3
import proofs.«420467_j63230508531831_3_alg».proof.Proof.Math.BlockOneHot
import proofs.«420467_j63230508531831_3_alg».proof.Proof.LibBlockSum
set_option maxRecDepth 16384
noncomputable section
namespace Cert.KernelIdeal.HV
open Cert.KernelIdeal Cert.KernelIdeal.Gen
open Idealize.ShloMosaic Idealize.ShloMosaic.TcCoe Idealize.ShloMosaic.ValueIdx Idealize.SL.Sem
open scoped BigOperators

variable (X0 : Fin 50 → Vec Ideal S4000x24 .f32) (X1 : Fin 50 → Vec Ideal S4000x1 .f32)
  (X2 : Fin 50 → Vec Ideal S1x24 .f32) (X3 : Fin 50 → Vec Ideal S4000x1 .i32)

def r3_accA : (n : ℕ) → n < 50 → Vec Ideal S64x24 .f32
  | 0, h => k3_pay5 (F := Ideal) (X0 ⟨0, h⟩) (X1 ⟨0, h⟩) (X2 ⟨0, h⟩) (X3 ⟨0, h⟩) (k3_pay2 (F := Ideal))
  | n + 1, h => k3_pay5 (F := Ideal) (X0 ⟨n + 1, h⟩) (X1 ⟨n + 1, h⟩) (X2 ⟨n + 1, h⟩) (X3 ⟨n + 1, h⟩)
      (r3_accA n (Nat.lt_of_succ_lt h))

def r3_accB : (n : ℕ) → n < 50 → Vec Ideal S64x1 .f32
  | 0, h => k3_pay6 (F := Ideal) (X3 ⟨0, h⟩) (k3_pay3 (F := Ideal))
  | n + 1, h => k3_pay6 (F := Ideal) (X3 ⟨n + 1, h⟩) (r3_accB n (Nat.lt_of_succ_lt h))

theorem r3_accA_last (agg : Spec.M 200000 24) (cd : Spec.M 200000 1) (cb : Spec.M 1 24) (gid : Spec.MI 200000 1)
    (h0 : ∀ t r j, X0 t (ix2 r j) = agg (ix2 (Spec.brow t r) j))
    (h1 : ∀ t r, X1 t (ix2 r 0) = cd (ix2 (Spec.brow t r) 0))
    (h2 : ∀ t j, X2 t (ix2 0 j) = cb (ix2 0 j))
    (h3 : ∀ t r, X3 t (ix2 r 0) = gid (ix2 (Spec.brow t r) 0)) :
    r3_accA X0 X1 X2 X3 49 (by decide) = Spec.ohsum (Spec.gfin agg cd cb) gid := by
  funext i
  obtain ⟨g, j, rfl⟩ : ∃ (g : Fin 64) (j : Fin 24), i = ix2 g j := ⟨i 0, i 1, eq_ix2 i⟩

  have key := Cert.Lib.BlockSum.acc_eq_sum_fin 49
    (fun t : Fin 50 => ∑ r : Fin 4000, (if X3 t (ix2 r 0) = BitVec.ofNat 32 g.val then (1 : EReal) else 0)
      * (X0 t (ix2 r j) * X1 t (ix2 r 0) + X2 t (ix2 0 j)))
    (fun t : Fin 50 => r3_accA X0 X1 X2 X3 t.val t.isLt (ix2 g j))
    (by
      show k3_pay5 (F := Ideal) (X0 ⟨0, _⟩) (X1 ⟨0, _⟩) (X2 ⟨0, _⟩) (X3 ⟨0, _⟩) (k3_pay2 (F := Ideal)) (ix2 g j) = _
      rw [pay5_apply, pay2_eq]
      rfl)
    (fun n h => by
      show k3_pay5 (F := Ideal) (X0 ⟨n + 1, _⟩) (X1 ⟨n + 1, _⟩) (X2 ⟨n + 1, _⟩) (X3 ⟨n + 1, _⟩)
        (r3_accA X0 X1 X2 X3 n _) (ix2 g j) = _
      rw [pay5_apply])
  refine Eq.trans key ?_
  rw [← Spec.ohsum_blocks]
  refine Finset.sum_congr rfl fun t _ => Finset.sum_congr rfl fun r _ => ?_
  rw [h0, h1, h2, h3]
  rfl

theorem r3_accB_last (gid : Spec.MI 200000 1) (h3 : ∀ t r, X3 t (ix2 r 0) = gid (ix2 (Spec.brow t r) 0)) :
    r3_accB X3 49 (by decide) = Spec.ohcnt gid := by
  funext i
  obtain ⟨g, u, rfl⟩ : ∃ (g : Fin 64) (u : Fin 1), i = ix2 g u := ⟨i 0, i 1, eq_ix2 i⟩
  obtain rfl : u = 0 := Subsingleton.elim _ _
  have key := Cert.Lib.BlockSum.acc_eq_sum_fin 49
    (fun t : Fin 50 => ∑ r : Fin 4000, (if X3 t (ix2 r 0) = BitVec.ofNat 32 g.val then (1 : EReal) else 0))
    (fun t : Fin 50 => r3_accB X3 t.val t.isLt (ix2 g 0))
    (by
      show k3_pay6 (F := Ideal) (X3 ⟨0, _⟩) (k3_pay3 (F := Ideal)) (ix2 g 0) = _
      rw [pay6_apply, pay3_eq]
      rfl)
    (fun n h => by
      show k3_pay6 (F := Ideal) (X3 ⟨n + 1, _⟩) (r3_accB X3 n _) (ix2 g 0) = _
      rw [pay6_apply])
  refine Eq.trans key ?_
  rw [← Spec.ohcnt_blocks]
  refine Finset.sum_congr rfl fun t _ => Finset.sum_congr rfl fun r _ => ?_
  rw [h3]

end Cert.KernelIdeal.HV

end
-- ==== Proof.KI.Val3.lean ====
import proofs.«420467_j63230508531831_3_alg».proof.Proof.KI.Reg3
import proofs.«420467_j63230508531831_3_alg».proof.Proof.KI.Pay3
import proofs.«420467_j63230508531831_3_alg».proof.Proof.KI.Acc3
import proofs.«420467_j63230508531831_3_alg».proof.Proof.Math.BlockOneHot
import proofs.«420467_j63230508531831_3_alg».proof.Proof.Spec
import Idealize.ShloMosaic.Lib.Pipeline.Value
import Idealize.ShloMosaic.Lib.ValueIdx
import Idealize.ShloMosaic.PureOps.Ideal.Laws
import Idealize.ShloMosaic.Lib.Tactic
set_option maxRecDepth 16384
noncomputable section
namespace Cert.KernelIdeal.HV
open Cert.KernelIdeal Cert.KernelIdeal.Gen Cert.KernelIdeal.H
open Idealize.ShloMosaic Idealize.ShloMosaic.TcCoe Idealize.ShloMosaic.Tactic Idealize.ShloMosaic.ValueIdx Idealize.SL.Sem
open Idealize.ShloMosaic.Pipeline (Dat)
open scoped BigOperators

section Pieces
variable {F : FTy → Type} [FloatOps F]

theorem r3_hz : (![0, 0] : Fin 2 → Nat) = fun _ => 0 := funext fun a => by fin_cases a <;> rfl

variable (c : Dev nD) (i : grid3.Coords) (arg1 : Memref sig .tc .vmem S4000x24 .f32) (harg1 : arg1.IsWhole) (arg2 : Memref sig .tc .vmem S4000x1 .f32) (harg2 : arg2.IsWhole) (arg3 : Memref sig .tc .vmem S1x24 .f32) (harg3 : arg3.IsWhole)
  (arg4 : Memref sig .tc .vmem S4000x1 .i32) (harg4 : arg4.IsWhole) (arg5 : Memref sig .tc .vmem S1x24 .f32) (harg5 : arg5.IsWhole) (arg6 : Memref sig .tc .vmem S1x1 .f32) (harg6 : arg6.IsWhole)
  (arg7 : Memref sig .tc .vmem S64x1 .f32) (harg7 : arg7.IsWhole) (arg8 : Memref sig .tc .vmem S64x24 .f32) (harg8 : arg8.IsWhole) (arg9 : Memref sig .tc .vmem S64x1 .f32) (harg9 : arg9.IsWhole)
  (x0 : Vec F S4000x24 .f32) (x1 : Vec F S4000x1 .f32) (x2 : Vec F S1x24 .f32) (x3 : Vec F S4000x1 .i32) (x4 : Vec F S1x24 .f32) (x5 : Vec F S1x1 .f32)

theorem r3_first (hc0 : isFirst3 i) (hc1 : ¬isLast3 i) :
    sA_first3 c i arg1 harg1 arg2 harg2 arg3 harg3 arg4 harg4 arg5 harg5 arg6 harg6 arg7 harg7 arg8 harg8 arg9 harg9 hc0 hc1 x0 x1 x2 x3 x4 x5 = k3_pay5 x0 x1 x2 x3 (k3_pay2 (F := F))
    ∧ sB_first3 c i arg1 harg1 arg2 harg2 arg3 harg3 arg4 harg4 arg5 harg5 arg6 harg6 arg7 harg7 arg8 harg8 arg9 harg9 hc0 hc1 x0 x1 x2 x3 x4 x5 = k3_pay6 x3 (k3_pay3 (F := F)) := by
  refine ⟨?_, ?_⟩
  all_goals
    first | unfold sA_first3 | unfold sB_first3
    rw [View.read_writes_junk_eq_canon]
    unfold runFirst3
    dsimp only
    try sl_unfold_words
    first
      | rw [View.canon_cons_unit_zero (S := S64x24) r3_hz, View.readCov_unit_zero (S := S64x24) _ r3_hz]
      | rw [View.canon_cons_unit_zero (S := S64x1) r3_hz, View.readCov_unit_zero (S := S64x1) _ r3_hz]
    simp only [View.readAt_eq_ld, harg1.read_unread, harg2.read_unread, harg3.read_unread, harg4.read_unread, harg5.read_unread, harg6.read_unread, harg7.read_unread, harg8.read_unread, harg9.read_unread, View.ld_unit_zero (S := S4000x24) r3_hz, View.ld_unit_zero (S := S4000x1) r3_hz, View.ld_unit_zero (S := S1x24) r3_hz, View.ld_unit_zero (S := S1x1) r3_hz, View.ld_unit_zero (S := S64x24) r3_hz, View.ld_unit_zero (S := S64x1) r3_hz]

theorem r3_mid (hc0 : ¬isFirst3 i) (hc1 : ¬isLast3 i) (xsA : Vec F S64x24 .f32) (xsB : Vec F S64x1 .f32) :
    sA_mid3 c i arg1 harg1 arg2 harg2 arg3 harg3 arg4 harg4 arg5 harg5 arg6 harg6 arg7 harg7 arg8 harg8 arg9 harg9 hc0 hc1 x0 x1 x2 x3 x4 x5 xsA xsB = k3_pay5 x0 x1 x2 x3 xsA
    ∧ sB_mid3 c i arg1 harg1 arg2 harg2 arg3 harg3 arg4 harg4 arg5 harg5 arg6 harg6 arg7 harg7 arg8 harg8 arg9 harg9 hc0 hc1 x0 x1 x2 x3 x4 x5 xsA xsB = k3_pay6 x3 xsB := by
  refine ⟨?_, ?_⟩
  all_goals
    first | unfold sA_mid3 | unfold sB_mid3
    rw [View.read_writes_junk_eq_canon]
    unfold runMid3
    dsimp only
    try sl_unfold_words
    rw [View.canon_unit_zero r3_hz]
    simp only [View.readAt_eq_ld, harg1.read_unread, harg2.read_unread, harg3.read_unread, harg4.read_unread, harg5.read_unread, harg6.read_unread, harg7.read_unread, harg8.read_unread, harg9.read_unread, View.ld_unit_zero (S := S4000x24) r3_hz, View.ld_unit_zero (S := S4000x1) r3_hz, View.ld_unit_zero (S := S1x24) r3_hz, View.ld_unit_zero (S := S1x1) r3_hz, View.ld_unit_zero (S := S64x24) r3_hz, View.ld_unit_zero (S := S64x1) r3_hz]

theorem r3_lastp (hc0 : ¬isFirst3 i) (hc1 : isLast3 i) (xsA : Vec F S64x24 .f32) (xsB : Vec F S64x1 .f32) :
    out_last3 c i arg1 harg1 arg2 harg2 arg3 harg3 arg4 harg4 arg5 harg5 arg6 harg6 arg7 harg7 arg8 harg8 arg9 harg9 hc0 hc1 x0 x1 x2 x3 x4 x5 xsA xsB = k3_pay1 (k3_pay5 x0 x1 x2 x3 xsA) (k3_pay6 x3 xsB) x4 x5
    ∧ sA_last3 c i arg1 harg1 arg2 harg2 arg3 harg3 arg4 harg4 arg5 harg5 arg6 harg6 arg7 harg7 arg8 harg8 arg9 harg9 hc0 hc1 x0 x1 x2 x3 x4 x5 xsA xsB = k3_pay5 x0 x1 x2 x3 xsA
    ∧ sB_last3 c i arg1 harg1 arg2 harg2 arg3 harg3 arg4 harg4 arg5 harg5 arg6 harg6 arg7 harg7 arg8 harg8 arg9 harg9 hc0 hc1 x0 x1 x2 x3 x4 x5 xsA xsB = k3_pay6 x3 xsB := by
  refine ⟨?_, ?_, ?_⟩
  all_goals
    first | unfold out_last3 | unfold sA_last3 | unfold sB_last3
    rw [View.read_writes_junk_eq_canon]
    unfold runLast3
    dsimp only
    try sl_unfold_words
    rw [View.canon_unit_zero r3_hz]
    try rw [View.readCov_unit_zero (S := S64x24) _ r3_hz, View.readCov_unit_zero (S := S64x1) _ r3_hz]
    simp only [View.readAt_eq_ld, harg1.read_unread, harg2.read_unread, harg3.read_unread, harg4.read_unread, harg5.read_unread, harg6.read_unread, harg7.read_unread, harg8.read_unread, harg9.read_unread, View.ld_unit_zero (S := S4000x24) r3_hz, View.ld_unit_zero (S := S4000x1) r3_hz, View.ld_unit_zero (S := S1x24) r3_hz, View.ld_unit_zero (S := S1x1) r3_hz, View.ld_unit_zero (S := S64x24) r3_hz, View.ld_unit_zero (S := S64x1) r3_hz]

end Pieces

section Value

variable (V : (c : Dev nD) → (b : Ref sig .tc) → Buf (Elt Ideal) ((c : Thread nD τ).loc b))

theorem r3_N : cfg3.N = 50 := N_3

abbrev r3_pt (t : Fin 50) : Fin cfg3.N := ⟨t.val, by rw [r3_N]; exact t.isLt⟩

theorem r3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_3.index t (0 : Fin 2) = t.val ∧ win3_3.index t (1 : Fin 2) = 0 :=
  (by decide +kernel : ∀ t : Fin grid3.N, _)
theorem r3_idx6 : ∀ (t : Fin cfg3.N) (a : Fin 2), win3_6.index t a = 0 := (by decide +kernel : ∀ t : Fin grid3.N, _)

theorem r3_blk0 (c : Dev nD) (t : Fin cfg3.N) (r : Fin 4000) (j : Fin 24) (ρ : Fin 200000) (hρ : ρ.val = 4000 * t.val + r.val) :
    (iblk3 V c 0 t : Vec Ideal S4000x24 .f32) (ix2 r j) = (V c main_v59 : Spec.M 200000 24) (ix2 ρ j) := by
  obtain ⟨e0, e1, -⟩ := r3_idx t
  show V c main_v59 (((cfg3.win 0).blk t).view.emb (ix2 r j)) = V c main_v59 (ix2 ρ j)
  congr 1
  funext a; apply Fin.ext
  match a with
  | ⟨0, _⟩ => show win3_0.index t (0 : Fin 2) * 4000 + 1 * r.val = ρ.val; omega
  | ⟨1, _⟩ => show win3_0.index t (1 : Fin 2) * 24 + 1 * j.val = j.val; omega

theorem r3_blk1 (c : Dev nD) (t : Fin cfg3.N) (r : Fin 4000) (ρ : Fin 200000) (hρ : ρ.val = 4000 * t.val + r.val) :
    (iblk3 V c 1 t : Vec Ideal S4000x1 .f32) (ix2 r 0) = (V c main_v14 : Spec.M 200000 1) (ix2 ρ 0) := by
  obtain ⟨-, -, e0, e1, -⟩ := r3_idx t
  show V c main_v14 (((cfg3.win 1).blk t).view.emb (ix2 r 0)) = V c main_v14 (ix2 ρ 0)
  congr 1
  funext a; apply Fin.ext
  match a with
  | ⟨0, _⟩ => show win3_1.index t (0 : Fin 2) * 4000 + 1 * r.val = ρ.val; omega
  | ⟨1, _⟩ => show win3_1.index t (1 : Fin 2) * 1 + 1 * (0 : Fin 1).val = (0 : Fin 1).val; omega

theorem r3_blk2 (c : Dev nD) (t : Fin cfg3.N) : (iblk3 V c 2 t : Vec Ideal S1x24 .f32) = (V c main_v24 : Spec.M 1 24) :=
  funext fun y => congrArg (V c main_v24) (funext fun a => Fin.ext (win3_2.rect_emb_val_of_index_zero t a
    ((by decide +kernel : ∀ (t : Fin grid3.N) (a : Fin 2), win3_2.index t a = 0) t a) y))

theorem r3_blk3 (c : Dev nD) (t : Fin cfg3.N) (r : Fin 4000) (ρ : Fin 200000) (hρ : ρ.val = 4000 * t.val + r.val) :
    (iblk3 V c 3 t : Vec Ideal S4000x1 .i32) (ix2 r 0) = (V c main_v26 : Spec.MI 200000 1) (ix2 ρ 0) := by
  obtain ⟨-, -, -, -, e0, e1⟩ := r3_idx t
  show V c main_v26 (((cfg3.win 3).blk t).view.emb (ix2 r 0)) = V c main_v26 (ix2 ρ 0)
  congr 1
  funext a; apply Fin.ext
  match a with
  | ⟨0, _⟩ => show win3_3.index t (0 : Fin 2) * 4000 + 1 * r.val = ρ.val; omega
  | ⟨1, _⟩ => show win3_3.index t (1 : Fin 2) * 1 + 1 * (0 : Fin 1).val = (0 : Fin 1).val; omega

theorem r3_blk4 (c : Dev nD) (t : Fin cfg3.N) : (iblk3 V c 4 t : Vec Ideal S1x24 .f32) = (V c main_arg16 : Spec.M 1 24) :=
  funext fun y => congrArg (V c main_arg16) (funext fun a => Fin.ext (win3_4.rect_emb_val_of_index_zero t a
    ((by decide +kernel : ∀ (t : Fin grid3.N) (a : Fin 2), win3_4.index t a = 0) t a) y))
theorem r3_blk5 (c : Dev nD) (t : Fin cfg3.N) : (iblk3 V c 5 t : Vec Ideal S1x1 .f32) = (V c main_v25 : Spec.M 1 1) :=
  funext fun y => congrArg (V c main_v25) (funext fun a => Fin.ext (win3_5.rect_emb_val_of_index_zero t a
    ((by decide +kernel : ∀ (t : Fin grid3.N) (a : Fin 2), win3_5.index t a = 0) t a) y))
theorem r3_emb6 (t : Fin cfg3.N) (y : S64x1.Idx) : ((cfg3.win 6).blk t).view.emb y = y :=
  funext fun a => Fin.ext (win3_6.rect_emb_val_of_index_zero t a (r3_idx6 t a) y)

abbrev r3_X0 (c : Dev nD) : Fin 50 → Vec Ideal S4000x24 .f32 := fun t => iblk3 V c 0 (r3_pt t)
abbrev r3_X1 (c : Dev nD) : Fin 50 → Vec Ideal S4000x1 .f32 := fun t => iblk3 V c 1 (r3_pt t)
abbrev r3_X2 (c : Dev nD) : Fin 50 → Vec Ideal S1x24 .f32 := fun t => iblk3 V c 2 (r3_pt t)
abbrev r3_X3 (c : Dev nD) : Fin 50 → Vec Ideal S4000x1 .i32 := fun t => iblk3 V c 3 (r3_pt t)

theorem r3_outs (c : Dev nD) : ∀ (n : ℕ) (h : n < cfg3.N) (h' : n < 50),
    (outsAt3 V c n h).2.1 = r3_accA (r3_X0 V c) (r3_X1 V c) (r3_X2 V c) (r3_X3 V c) n h'
    ∧ (outsAt3 V c n h).2.2 = r3_accB (r3_X3 V c) n h'
  | 0, h, h' => by
    rw [outsAt3_first V c ⟨0, h⟩ rfl (fun e => absurd e (by decide : ¬(0 : ℕ) = 49))]
    dsimp only
    refine ⟨?_, ?_⟩
    · exact (r3_first (F := Ideal) ..).1
    · exact (r3_first (F := Ideal) ..).2
  | n + 1, h, h' => by
    have ih := r3_outs c n (Nat.lt_of_succ_lt h) (Nat.lt_of_succ_lt h')
    by_cases h49 : n + 1 = 49
    · rw [outsAt3_last V c ⟨n + 1, h⟩ (Nat.succ_ne_zero n) h49]
      dsimp only
      refine ⟨?_, ?_⟩
      · refine (r3_lastp (F := Ideal) ..).2.1.trans ?_
        exact congrArg (k3_pay5 _ _ _ _) ih.1
      · refine (r3_lastp (F := Ideal) ..).2.2.trans ?_
        exact congrArg (k3_pay6 _) ih.2
    · rw [outsAt3_mid V c ⟨n + 1, h⟩ (Nat.succ_ne_zero n) h49]
      dsimp only
      refine ⟨?_, ?_⟩
      · refine (r3_mid (F := Ideal) ..).1.trans ?_
        exact congrArg (k3_pay5 _ _ _ _) ih.1
      · refine (r3_mid (F := Ideal) ..).2.trans ?_
        exact congrArg (k3_pay6 _) ih.2

abbrev R3 (c : Dev nD) : Spec.M 64 1 :=
  Spec.qout (Spec.ohsum (Spec.gfin (V c main_v59) (V c main_v14) (V c main_v24)) (V c main_v26)) (Spec.ohcnt (V c main_v26)) (V c main_arg16) (V c main_v25)

theorem r3_accA_at (X0 : Fin 50 → Vec Ideal S4000x24 .f32) (X1 : Fin 50 → Vec Ideal S4000x1 .f32) (X2 : Fin 50 → Vec Ideal S1x24 .f32)
    (X3 : Fin 50 → Vec Ideal S4000x1 .i32) (n : ℕ) (h : n < 50) (e : n = 49) :
    r3_accA X0 X1 X2 X3 n h = r3_accA X0 X1 X2 X3 49 (by decide) := by subst e; rfl
theorem r3_accB_at (X3 : Fin 50 → Vec Ideal S4000x1 .i32) (n : ℕ) (h : n < 50) (e : n = 49) :
    r3_accB X3 n h = r3_accB X3 49 (by decide) := by subst e; rfl

theorem r3_sumA (c : Dev nD) (t : Fin cfg3.N) (h49 : t.val = 49) :
    (outsAt3 V c t.val t.isLt).2.1 = Spec.ohsum (Spec.gfin (V c main_v59) (V c main_v14) (V c main_v24)) (V c main_v26) :=
  ((r3_outs V c t.val t.isLt (by omega)).1).trans
    ((r3_accA_at (r3_X0 V c) (r3_X1 V c) (r3_X2 V c) (r3_X3 V c) t.val (by omega) h49).trans
      (r3_accA_last (r3_X0 V c) (r3_X1 V c) (r3_X2 V c) (r3_X3 V c) (V c main_v59) (V c main_v14) (V c main_v24) (V c main_v26)
        (fun t r j => r3_blk0 V c (r3_pt t) r j (Spec.brow t r) (Spec.brow_val t r))
        (fun t r => r3_blk1 V c (r3_pt t) r (Spec.brow t r) (Spec.brow_val t r))
        (fun t j => congrFun (r3_blk2 V c (r3_pt t)) _)
        (fun t r => r3_blk3 V c (r3_pt t) r (Spec.brow t r) (Spec.brow_val t r))))

theorem r3_sumB (c : Dev nD) (t : Fin cfg3.N) (h49 : t.val = 49) : (outsAt3 V c t.val t.isLt).2.2 = Spec.ohcnt (V c main_v26) :=
  ((r3_outs V c t.val t.isLt (by omega)).2).trans
    ((r3_accB_at (r3_X3 V c) t.val (by omega) h49).trans
      (r3_accB_last (r3_X3 V c) (V c main_v26) (fun t r => r3_blk3 V c (r3_pt t) r (Spec.brow t r) (Spec.brow_val t r))))

theorem r3_last (c : Dev nD) (t : Fin cfg3.N) (h49 : t.val = 49) :
    (outsAt3 V c t.val t.isLt).1
      = k3_pay1 (F := Ideal) (outsAt3 V c t.val t.isLt).2.1 (outsAt3 V c t.val t.isLt).2.2 (iblk3 V c 4 t) (iblk3 V c 5 t) := by
  rw [outsAt3_last V c t (by omega) h49]
  dsimp only
  rw [(r3_lastp (F := Ideal) ..).1, (r3_lastp (F := Ideal) ..).2.1, (r3_lastp (F := Ideal) ..).2.2]

theorem r3_flushed (c : Dev nD) (t : Fin cfg3.N) (hf : (cfg3.win 6).flush t = true) :
    (dat3 (F := Ideal) V c).flushed 6 t = ((cfg3.win 6).blk t).view.read (Elt Ideal) (R3 V c) := by
  have hN := r3_N
  have h49 : t.val = 49 := by have := (flush3_6 t).mp hf; have := t.isLt; omega
  show (cfg3.win 6).cut (grid3.coords t) ((dat3 (F := Ideal) V c).after 6 t) = _
  rw [after3_6, r3_last V c t h49, r3_sumA V c t h49, r3_sumB V c t h49, pay1_eq, r3_blk4, r3_blk5]
  funext y
  exact congrArg (R3 V c) (r3_emb6 t y).symm

theorem r3_cover6 (i : S64x1.Idx) : ∃ t : Fin cfg3.N, (cfg3.win 6).flush t = true ∧ i ∈ ((cfg3.win 6).blk t).view.set := by
  obtain ⟨t, ht⟩ : ∃ t : Fin cfg3.N, t.val = 49 := ⟨⟨49, by rw [r3_N]; decide⟩, rfl⟩
  exact ⟨t, (flush3_6 t).mpr (by rw [ht]), Finset.mem_map.mpr ⟨i, Finset.mem_univ _, r3_emb6 t i⟩⟩

theorem val3 (c : Dev nD) : (dat3 (F := Ideal) V c).arrAt 6 cfg3.N
  = Spec.qout (Spec.ohsum (Spec.gfin (V c main_v59) (V c main_v14) (V c main_v24)) (V c main_v26)) (Spec.ohcnt (V c main_v26)) (V c main_arg16) (V c main_v25) :=
  (dat3 (F := Ideal) V c).arrAt_eq_of_cover 6 (R3 V c) (fun t hf => r3_flushed V c t hf) (fun i => r3_cover6 i)

end Value

end Cert.KernelIdeal.HV
end
-- ==== Proof.Ref.RefStages.lean ====
import proofs.«420467_j63230508531831_3_alg».proof.Proof.Gen.ReferenceIdeal.Read
import proofs.«420467_j63230508531831_3_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo

abbrev row {n : Nat} (b : (⟨1, ![n]⟩ : Shape).Idx → EReal) : Spec.M 1 n := fun i => b (ix1 (i 1))

abbrev col {n : Nat} (v : (⟨1, ![n]⟩ : Shape).Idx → EReal) : Spec.M n 1 := fun i => v (ix1 (i 0))

abbrev unrow {n : Nat} (s : Spec.M 1 n) : (⟨1, ![n]⟩ : Shape).Idx → EReal := fun i => s (ix2 0 (i 0))

variable (x0 x1 x2 : (⟨S200000x8, .f32⟩ : BufTy).Contents (Elt Ideal))
  (x3 x4 : (⟨S3200000, .i32⟩ : BufTy).Contents (Elt Ideal))
  (x5 : (⟨S200000, .i32⟩ : BufTy).Contents (Elt Ideal))
  (x6 : (⟨S40x16, .f32⟩ : BufTy).Contents (Elt Ideal))
  (x7 x8 x9 : (⟨S40, .f32⟩ : BufTy).Contents (Elt Ideal))
  (x10 : (⟨S40x24, .f32⟩ : BufTy).Contents (Elt Ideal))
  (x11 : (⟨S24, .f32⟩ : BufTy).Contents (Elt Ideal))
  (x12 : (⟨S24x32, .f32⟩ : BufTy).Contents (Elt Ideal))
  (x13 : (⟨S24, .f32⟩ : BufTy).Contents (Elt Ideal))
  (x14 : (⟨S24x24, .f32⟩ : BufTy).Contents (Elt Ideal))
  (x15 : (⟨S24, .f32⟩ : BufTy).Contents (Elt Ideal))
  (x16 : (⟨S1x24, .f32⟩ : BufTy).Contents (Elt Ideal))
  (x17 : (⟨S1, .f32⟩ : BufTy).Contents (Elt Ideal))

theorem v6_eq :
    val_main_v6 (F := Ideal) x0 x1 x6 x7 = Spec.h1 (val_main_v0 (F := Ideal) x0 x1) x6 (row x7) := by
  funext i

  have eL : ∀ k : Fin 16, lidx_main_v2 i k = ix2 (i 0) k := fun k => funext fun a => by
    match a with
    | ⟨0, _⟩ => rfl
    | ⟨1, _⟩ => rfl
  have eR : ∀ k : Fin 16, idx_main_v1 (ridx_main_v2 i k) = ix2 (i 1) k := fun k => funext fun a => by
    match a with
    | ⟨0, _⟩ => rfl
    | ⟨1, _⟩ => rfl
  have eB : idx_main_v3 (idx_main_v4 i) = ix1 (i 1) := funext fun a => by
    match a with
    | ⟨0, _⟩ => rfl
  rw [val_main_v6_apply, val_main_v5_apply, val_main_v2_apply, val_main_v4_apply, val_main_v3_apply,
    val_main_call0_v0_apply, val_main_call0_cst_apply]
  simp only [val_main_v1_apply, eL, eR, eB, Ideal.addf_def, Ideal.maximumf_def, Ideal.ofBits_def, Ideal.ofBits_zero_f32]
  rfl

theorem v9_eq :
    val_main_v9 (F := Ideal) x0 x1 x6 x7 = unrow (Spec.mean (Spec.colsum (val_main_v6 (F := Ideal) x0 x1 x6 x7))) := by
  funext i
  have eS : ∀ k : Fin 200000, idx_main_v7 i k = ix2 k (i 0) := fun k => funext fun a => by
    match a with
    | ⟨0, _⟩ => rfl
    | ⟨1, _⟩ => rfl
  rw [val_main_v9_apply, val_main_v7_apply, val_main_v8_apply, val_main_cst_apply, val_main_cst_0_apply]
  simp only [eS, Ideal.hostDivf_def, Ideal.ofBits_def, Ideal.ofBits_zero_f32, zero_add]
  rfl

theorem row_v9_eq :
    row (val_main_v9 (F := Ideal) x0 x1 x6 x7) = Spec.mean (Spec.colsum (val_main_v6 (F := Ideal) x0 x1 x6 x7)) := by
  funext i
  rw [v9_eq]
  rfl

theorem v16_eq :
    val_main_v16 (F := Ideal) x0 x1 x6 x7
      = unrow (Spec.varR (val_main_v6 (F := Ideal) x0 x1 x6 x7) (row (val_main_v9 (F := Ideal) x0 x1 x6 x7))) := by
  funext i
  obtain ⟨c, rfl⟩ : ∃ c : Fin 40, i = ix1 c := ⟨i 0, eq_ix1 i⟩

  have hk : ∀ k : Fin 200000, val_main_v13 (F := Ideal) x0 x1 x6 x7 (idx_main_v14 (ix1 c) k)
      = (val_main_v6 (F := Ideal) x0 x1 x6 x7 (ix2 k c) - val_main_v9 (F := Ideal) x0 x1 x6 x7 (ix1 c))
        * (val_main_v6 (F := Ideal) x0 x1 x6 x7 (ix2 k c) - val_main_v9 (F := Ideal) x0 x1 x6 x7 (ix1 c)) := by
    intro k
    have eS : idx_main_v14 (ix1 c) k = ix2 k c := funext fun a => by
      match a with
      | ⟨0, _⟩ => rfl
      | ⟨1, _⟩ => rfl
    have eM : idx_main_v10 (idx_main_v11 (ix2 k c)) = ix1 c := funext fun a => by
      match a with
      | ⟨0, _⟩ => rfl
    rw [eS, val_main_v13_apply, val_main_v12_apply, val_main_v11_apply, val_main_v10_apply, eM]
    rfl
  rw [val_main_v16_apply, val_main_v14_apply, val_main_v15_apply, val_main_cst_1_apply, val_main_cst_2_apply]
  simp only [hk, Ideal.hostDivf_def, Ideal.ofBits_def, Ideal.ofBits_zero_f32, zero_add]
  rfl

theorem row_v16_eq :
    row (val_main_v16 (F := Ideal) x0 x1 x6 x7)
      = Spec.varR (val_main_v6 (F := Ideal) x0 x1 x6 x7) (row (val_main_v9 (F := Ideal) x0 x1 x6 x7)) := by
  funext i
  rw [v16_eq]
  rfl

theorem v31_eq :
    val_main_v31 (F := Ideal) x0 x1 x6 x7 x8 x9
      = Spec.h1n (val_main_v6 (F := Ideal) x0 x1 x6 x7) (row (val_main_v9 (F := Ideal) x0 x1 x6 x7))
          (row (val_main_v16 (F := Ideal) x0 x1 x6 x7)) (row x8) (row x9) := by
  funext i
  have e18 : idx_main_v17 (idx_main_v18 i) = ix1 (i 1) := funext fun a => by
    match a with
    | ⟨0, _⟩ => rfl
  have e24 : idx_main_v23 (idx_main_v24 i) = ix1 (i 1) := funext fun a => by
    match a with
    | ⟨0, _⟩ => rfl
  have e27 : idx_main_v26 (idx_main_v27 i) = ix1 (i 1) := funext fun a => by
    match a with
    | ⟨0, _⟩ => rfl
  have e30 : idx_main_v29 (idx_main_v30 i) = ix1 (i 1) := funext fun a => by
    match a with
    | ⟨0, _⟩ => rfl
  rw [val_main_v31_apply, val_main_v28_apply, val_main_v25_apply, val_main_v19_apply, val_main_v18_apply,
    val_main_v17_apply, val_main_v24_apply, val_main_v23_apply, val_main_v22_apply, val_main_v21_apply,
    val_main_v20_apply, val_main_cst_3_apply, val_main_v27_apply, val_main_v26_apply, val_main_v30_apply,
    val_main_v29_apply, e18, e24, e27, e30]
  simp only [Ideal.addf_def, Ideal.mulf_def, Ideal.subf_def, Ideal.hostUnary_rsqrt_def, Ideal.ofBits_def]
  rfl

theorem v48_eq :
    val_main_v48 (F := Ideal) x0 x1 x3 x6 x7 x8 x9 x10
      = Spec.conv (val_main_v31 (F := Ideal) x0 x1 x6 x7 x8 x9) (col (val_main_v41 (F := Ideal) x3)) x10 := by
  funext i
  obtain ⟨p, q, rfl⟩ : ∃ (p : Fin 200000) (q : Fin 24), i = ix2 p q := ⟨i 0, i 1, eq_ix2 i⟩

  have hk : ∀ k : Fin 40, val_main_v47 (F := Ideal) x0 x1 x3 x6 x7 x8 x9 (lidx_main_v48 (ix2 p q) k)
      = val_main_v31 (F := Ideal) x0 x1 x6 x7 x8 x9 (ix2 p k) * val_main_v41 (F := Ideal) x3 (ix1 p) := by
    intro k
    have eL : lidx_main_v48 (ix2 p q) k = ix2 p k := funext fun a => by
      match a with
      | ⟨0, _⟩ => rfl
      | ⟨1, _⟩ => rfl
    have eC : idx_main_v45 (idx_main_v46 (ix2 p k)) = ix1 p := funext fun a => by
      match a with
      | ⟨0, _⟩ => rfl
    rw [eL, val_main_v47_apply, val_main_v46_apply, val_main_v45_apply, eC]
    rfl
  have eR : ∀ k : Fin 40, ridx_main_v48 (ix2 p q) k = ix2 k q := fun k => funext fun a => by
    match a with
    | ⟨0, _⟩ => rfl
    | ⟨1, _⟩ => rfl
  rw [val_main_v48_apply]
  simp only [hk, eR]
  rfl

theorem v64_eq :
    val_main_v64 (F := Ideal) x0 x1 x3 x4 x6 x7 x8 x9 x10 x11
      = Spec.gfin (val_main_v58 (F := Ideal) x0 x1 x3 x4 x6 x7 x8 x9 x10) (col (val_main_v44 (F := Ideal) x4)) (row x11) := by
  funext i
  have eC : idx_main_v59 (idx_main_v60 i) = ix1 (i 0) := funext fun a => by
    match a with
    | ⟨0, _⟩ => rfl
  have eB : idx_main_v62 (idx_main_v63 i) = ix1 (i 1) := funext fun a => by
    match a with
    | ⟨0, _⟩ => rfl
  rw [val_main_v64_apply, val_main_v61_apply, val_main_v60_apply, val_main_v59_apply,
    val_main_v63_apply, val_main_v62_apply, eC, eB]
  simp only [Ideal.addf_def, Ideal.mulf_def]
  rfl

theorem v65_left (r : Fin 200000) (j : Fin 24) :
    val_main_v65 (F := Ideal) x0 x1 x2 x3 x4 x6 x7 x8 x9 x10 x11 (ix2 r (Fin.castAdd 8 j))
      = val_main_v64 (F := Ideal) x0 x1 x3 x4 x6 x7 x8 x9 x10 x11 (ix2 r j) := by
  unfold val_main_v65
  exact concatenate_pair_apply_left _ _ x2 concatenates_S200000x24_S200000x8_S200000x32_d1
    (ix2 r (Fin.castAdd 8 j)) rfl (ix2 r j) (fun b => by
      match b with
      | ⟨0, _⟩ => rfl
      | ⟨1, _⟩ => rfl)

theorem v65_right (r : Fin 200000) (j : Fin 8) :
    val_main_v65 (F := Ideal) x0 x1 x2 x3 x4 x6 x7 x8 x9 x10 x11 (ix2 r (Fin.natAdd 24 j)) = x2 (ix2 r j) := by
  unfold val_main_v65
  exact concatenate_pair_apply_right _ _ x2 concatenates_S200000x24_S200000x8_S200000x32_d1
    (ix2 r (Fin.natAdd 24 j)) rfl rfl (ix2 r j) (fun b hb => by
      match b, hb with
      | ⟨0, _⟩, _ => rfl
      | ⟨1, _⟩, hb => exact absurd rfl hb)
    (by show j.val + 24 = 24 + j.val; omega)

theorem v71_eq :
    val_main_v71 (F := Ideal) x0 x1 x2 x3 x4 x6 x7 x8 x9 x10 x11 x12 x13
      = Spec.h2 (val_main_v64 (F := Ideal) x0 x1 x3 x4 x6 x7 x8 x9 x10 x11) x2
          (fun i => x12 (ix2 (i 0) (Fin.castAdd 8 (i 1)))) (fun i => x12 (ix2 (i 0) (Fin.natAdd 24 (i 1)))) (row x13) := by
  funext i
  obtain ⟨p, q, rfl⟩ : ∃ (p : Fin 200000) (q : Fin 24), i = ix2 p q := ⟨i 0, i 1, eq_ix2 i⟩
  have eL : ∀ k : Fin 32, lidx_main_v67 (ix2 p q) k = ix2 p k := fun k => funext fun a => by
    match a with
    | ⟨0, _⟩ => rfl
    | ⟨1, _⟩ => rfl
  have eR : ∀ k : Fin 32, idx_main_v66 (ridx_main_v67 (ix2 p q) k) = ix2 q k := fun k => funext fun a => by
    match a with
    | ⟨0, _⟩ => rfl
    | ⟨1, _⟩ => rfl
  have eB : idx_main_v68 (idx_main_v69 (ix2 p q)) = ix1 q := funext fun a => by
    match a with
    | ⟨0, _⟩ => rfl

  have hs : ∀ f : Fin 32 → EReal,
      (∑ k : Fin 32, f k) = (∑ j : Fin 24, f (Fin.castAdd 8 j)) + ∑ j : Fin 8, f (Fin.natAdd 24 j) :=
    fun f => Fin.sum_univ_add (a := 24) (b := 8) f
  rw [val_main_v71_apply, val_main_v70_apply, val_main_v67_apply, val_main_v69_apply, val_main_v68_apply,
    val_main_call3_v0_apply, val_main_call3_cst_apply, eB, hs]
  simp only [eL, val_main_v66_apply, eR, v65_left, v65_right, Ideal.addf_def, Ideal.maximumf_def, Ideal.ofBits_def,
    Ideal.ofBits_zero_f32]
  rfl

theorem v88_eq :
    val_main_v88 (F := Ideal) x0 x1 x2 x3 x4 x6 x7 x8 x9 x10 x11 x12 x13 x14
      = Spec.conv (val_main_v71 (F := Ideal) x0 x1 x2 x3 x4 x6 x7 x8 x9 x10 x11 x12 x13) (col (val_main_v81 (F := Ideal) x3)) x14 := by
  funext i
  obtain ⟨p, q, rfl⟩ : ∃ (p : Fin 200000) (q : Fin 24), i = ix2 p q := ⟨i 0, i 1, eq_ix2 i⟩

  have hk : ∀ k : Fin 24, val_main_v87 (F := Ideal) x0 x1 x2 x3 x4 x6 x7 x8 x9 x10 x11 x12 x13 (lidx_main_v88 (ix2 p q) k)
      = val_main_v71 (F := Ideal) x0 x1 x2 x3 x4 x6 x7 x8 x9 x10 x11 x12 x13 (ix2 p k) * val_main_v81 (F := Ideal) x3 (ix1 p) := by
    intro k
    have eL : lidx_main_v88 (ix2 p q) k = ix2 p k := funext fun a => by
      match a with
      | ⟨0, _⟩ => rfl
      | ⟨1, _⟩ => rfl
    have eC : idx_main_v85 (idx_main_v86 (ix2 p k)) = ix1 p := funext fun a => by
      match a with
      | ⟨0, _⟩ => rfl
    rw [eL, val_main_v87_apply, val_main_v86_apply, val_main_v85_apply, eC]
    rfl
  have eR : ∀ k : Fin 24, ridx_main_v88 (ix2 p q) k = ix2 k q := fun k => funext fun a => by
    match a with
    | ⟨0, _⟩ => rfl
    | ⟨1, _⟩ => rfl
  rw [val_main_v88_apply]
  simp only [hk, eR]
  rfl

theorem v104_eq :
    val_main_v104 (F := Ideal) x0 x1 x2 x3 x4 x6 x7 x8 x9 x10 x11 x12 x13 x14 x15
      = Spec.gfin (val_main_v98 (F := Ideal) x0 x1 x2 x3 x4 x6 x7 x8 x9 x10 x11 x12 x13 x14) (col (val_main_v84 (F := Ideal) x4)) (row x15) := by
  funext i
  have eC : idx_main_v99 (idx_main_v100 i) = ix1 (i 0) := funext fun a => by
    match a with
    | ⟨0, _⟩ => rfl
  have eB : idx_main_v102 (idx_main_v103 i) = ix1 (i 1) := funext fun a => by
    match a with
    | ⟨0, _⟩ => rfl
  rw [val_main_v104_apply, val_main_v101_apply, val_main_v100_apply, val_main_v99_apply,
    val_main_v103_apply, val_main_v102_apply, eC, eB]
  simp only [Ideal.addf_def, Ideal.mulf_def]
  rfl

theorem v120_eq :
    val_main_v120 (F := Ideal) x0 x1 x2 x3 x4 x5 x6 x7 x8 x9 x10 x11 x12 x13 x14 x15 x16 x17
      = Spec.qout (val_main_v107 (F := Ideal) x0 x1 x2 x3 x4 x5 x6 x7 x8 x9 x10 x11 x12 x13 x14 x15)
          (col (val_main_v111 (F := Ideal) x5)) x16 (row x17) := by
  funext i
  obtain ⟨a, b, rfl⟩ : ∃ (a : Fin 64) (b : Fin 1), i = ix2 a b := ⟨i 0, i 1, eq_ix2 i⟩
  obtain rfl : b = 0 := Subsingleton.elim _ _

  have hk : ∀ k : Fin 24,
      val_main_v115 (F := Ideal) x0 x1 x2 x3 x4 x5 x6 x7 x8 x9 x10 x11 x12 x13 x14 x15 (lidx_main_v117 (ix2 a (0 : Fin 1)) k)
        * val_main_v116 (F := Ideal) x16 (ridx_main_v117 (ix2 a (0 : Fin 1)) k)
      = Ideal.div (val_main_v107 (F := Ideal) x0 x1 x2 x3 x4 x5 x6 x7 x8 x9 x10 x11 x12 x13 x14 x15 (ix2 a k))
          (max Spec.one (val_main_v111 (F := Ideal) x5 (ix1 a))) * x16 (ix2 0 k) := by
    intro k
    have eL : lidx_main_v117 (ix2 a (0 : Fin 1)) k = ix2 a k := funext fun d => by
      match d with
      | ⟨0, _⟩ => rfl
      | ⟨1, _⟩ => rfl
    have eR : idx_main_v116 (ridx_main_v117 (ix2 a (0 : Fin 1)) k) = ix2 0 k := funext fun d => by
      match d with
      | ⟨0, _⟩ => rfl
      | ⟨1, _⟩ => rfl
    have eC : idx_main_v113 (idx_main_v114 (ix2 a k)) = ix1 a := funext fun d => by
      match d with
      | ⟨0, _⟩ => rfl
    rw [eL, val_main_v116_apply, eR, val_main_v115_apply, val_main_v114_apply, val_main_v113_apply, eC,
      val_main_v112_apply, val_main_call6_v1_apply, val_main_call6_v0_apply, val_main_cst_26_apply]
    rfl
  have eB : idx_main_v118 (idx_main_v119 (ix2 a (0 : Fin 1))) = ix1 0 := funext fun d => by
    match d with
    | ⟨0, _⟩ => rfl
  rw [val_main_v120_apply, val_main_v117_apply, val_main_v119_apply, val_main_v118_apply, eB]
  simp only [hk, Ideal.addf_def]
  rfl

theorem v121_eq :
    val_main_v121 (F := Ideal) x0 x1 x2 x3 x4 x5 x6 x7 x8 x9 x10 x11 x12 x13 x14 x15 x16 x17
      = fun i => val_main_v120 (F := Ideal) x0 x1 x2 x3 x4 x5 x6 x7 x8 x9 x10 x11 x12 x13 x14 x15 x16 x17 (ix2 (i 0) 0) := by
  funext i
  have e : idx_main_v121 i = ix2 (i 0) 0 := funext fun a => by
    match a with
    | ⟨0, _⟩ => exact Fin.ext (Nat.div_one _)
    | ⟨1, _⟩ => rfl
  rw [val_main_v121_apply, e]
  rfl

end Cert.ReferenceIdeal.RefValue

end
-- ==== Proof.Ref.Agg.lean ====
import proofs.«420467_j63230508531831_3_alg».proof.Proof.Gen.ReferenceIdeal.Read
import proofs.«420467_j63230508531831_3_alg».proof.Proof.Spec
noncomputable section
namespace Cert.KernelIdeal.HV
open Cert.ReferenceIdeal.Read Idealize.ShloMosaic Idealize.ShloMosaic.StableHlo

def AggF (src dst : (⟨Cert.ReferenceIdeal.S3200000, .i32⟩ : BufTy).Contents (Elt Ideal)) (h : Spec.M 200000 24) : Spec.M 200000 24 :=
  Host.scatterAdd (F := Ideal) (φ := .f32) Cert.ReferenceIdeal.scatter_S200000x24_S3200000x1_S3200000x24_1_0_0_1
    (val_main_v56 (F := Ideal)) (val_main_v57 (F := Ideal) dst)
    (Host.gather Cert.ReferenceIdeal.gather_S200000x24_S3200000x1_S3200000x24_1_0_n_n_0_1_124 h (val_main_v54 (F := Ideal) src))

section
open Cert.ReferenceIdeal

variable (x0 x1 x2 : (⟨S200000x8, .f32⟩ : BufTy).Contents (Elt Ideal))
  (x3 x4 : (⟨S3200000, .i32⟩ : BufTy).Contents (Elt Ideal))
  (x5 : (⟨S200000, .i32⟩ : BufTy).Contents (Elt Ideal))
  (x6 : (⟨S40x16, .f32⟩ : BufTy).Contents (Elt Ideal))
  (x7 x8 x9 : (⟨S40, .f32⟩ : BufTy).Contents (Elt Ideal))
  (x10 : (⟨S40x24, .f32⟩ : BufTy).Contents (Elt Ideal))
  (x11 : (⟨S24, .f32⟩ : BufTy).Contents (Elt Ideal))
  (x12 : (⟨S24x32, .f32⟩ : BufTy).Contents (Elt Ideal))
  (x13 : (⟨S24, .f32⟩ : BufTy).Contents (Elt Ideal))
  (x14 : (⟨S24x24, .f32⟩ : BufTy).Contents (Elt Ideal))
  (x15 : (⟨S24, .f32⟩ : BufTy).Contents (Elt Ideal))
  (x16 : (⟨S1x24, .f32⟩ : BufTy).Contents (Elt Ideal))
  (x17 : (⟨S1, .f32⟩ : BufTy).Contents (Elt Ideal))

theorem r_v58 : val_main_v58 (F := Ideal) x0 x1 x3 x4 x6 x7 x8 x9 x10 = AggF x3 x4 (val_main_v48 (F := Ideal) x0 x1 x3 x6 x7 x8 x9 x10) := rfl

theorem r_v98 : val_main_v98 (F := Ideal) x0 x1 x2 x3 x4 x6 x7 x8 x9 x10 x11 x12 x13 x14
    = AggF x3 x4 (val_main_v88 (F := Ideal) x0 x1 x2 x3 x4 x6 x7 x8 x9 x10 x11 x12 x13 x14) := rfl

theorem r_v81 : val_main_v81 (F := Ideal) x3 = val_main_v41 (F := Ideal) x3 := rfl

theorem r_v84 : val_main_v84 (F := Ideal) x4 = val_main_v44 (F := Ideal) x4 := rfl
end

end Cert.KernelIdeal.HV
end
-- ==== Proof.KI.Chain.lean ====
import proofs.«420467_j63230508531831_3_alg».proof.Proof.Gen.KernelIdeal.Regions
import proofs.«420467_j63230508531831_3_alg».proof.Proof.Gen.ReferenceIdeal.Read
import proofs.«420467_j63230508531831_3_alg».proof.Proof.Spec
import proofs.«420467_j63230508531831_3_alg».proof.Proof.Ref.RefStages
import proofs.«420467_j63230508531831_3_alg».proof.Proof.Ref.Agg
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HV

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.RefValue (row col)

open Cert.ReferenceIdeal.Read (val_main_v0 val_main_v32 val_main_v33 val_main_v34 val_main_v35 val_main_v36 val_main_v37 val_main_v38 val_main_v39 val_main_v40 val_main_v41 val_main_v42 val_main_v43 val_main_v44 val_main_v48 val_main_v49 val_main_v50 val_main_v51 val_main_v52 val_main_v53 val_main_v54 val_main_v55 val_main_v56 val_main_v57 val_main_v58 val_main_v81 val_main_v84 val_main_v88 val_main_v94 val_main_v95 val_main_v96 val_main_v97 val_main_v98 val_main_v104 val_main_v105 val_main_v106 val_main_v107 val_main_v108 val_main_v109 val_main_v110 val_main_v111 val_main_v105_apply val_main_v108_apply val_main_v106_apply val_main_cst_23_apply val_main_cst_24_apply val_main_v109_apply val_main_cst_25_apply idx_main_v106)

section Layout
variable {α : Type}

theorem shapeCast_row {n : Nat} (x : (⟨1, ![n]⟩ : Shape).Idx → α) (h : (⟨1, ![n]⟩ : Shape).ShapeCasts ⟨2, ![1, n]⟩) :
    shapeCast ⟨2, ![1, n]⟩ x h = fun i => x (ix1 (i 1)) := by
  funext i
  obtain ⟨u, j, rfl⟩ : ∃ (u : Fin 1) (j : Fin n), i = ix2 u j := ⟨i 0, i 1, eq_ix2 i⟩
  exact shapeCast_a_1a_apply x h u j

theorem shapeCast_col {n : Nat} (x : (⟨1, ![n]⟩ : Shape).Idx → α) (h : (⟨1, ![n]⟩ : Shape).ShapeCasts ⟨2, ![n, 1]⟩) :
    shapeCast ⟨2, ![n, 1]⟩ x h = fun i => x (ix1 (i 0)) := by
  funext i
  obtain ⟨j, u, rfl⟩ : ∃ (j : Fin n) (u : Fin 1), i = ix2 j u := ⟨i 0, i 1, eq_ix2 i⟩
  refine shapeCast_apply x h _ (ix1 j) ?_
  have hu : u.val = 0 := by omega
  rw [Shape.rowMajor_val_two, Shape.rowMajor_val_one]
  show j.val = j.val * 1 + u.val
  omega

theorem shapeCast_uncol {n : Nat} (x : (⟨2, ![n, 1]⟩ : Shape).Idx → α) (h : (⟨2, ![n, 1]⟩ : Shape).ShapeCasts ⟨1, ![n]⟩) :
    shapeCast ⟨1, ![n]⟩ x h = fun i => x (ix2 (i 0) 0) := by
  funext i
  obtain ⟨j, rfl⟩ : ∃ j : Fin n, i = ix1 j := ⟨i 0, eq_ix1 i⟩
  refine shapeCast_apply x h _ (ix2 j 0) ?_
  rw [Shape.rowMajor_val_two, Shape.rowMajor_val_one]
  show j.val * 1 + 0 = j.val
  omega

end Layout

variable (m : (ℓ : Loc nD τ sig) → Buf (Elt Ideal) ℓ) (outs : Outs (F := Ideal)) (c : Dev nD)

abbrev a0 : (⟨S200000x8, .f32⟩ : BufTy).Contents (Elt Ideal) := m ((c : Thread nD τ).loc main_arg0)
abbrev a1 : (⟨S200000x8, .f32⟩ : BufTy).Contents (Elt Ideal) := m ((c : Thread nD τ).loc main_arg1)
abbrev a2 : (⟨S200000x8, .f32⟩ : BufTy).Contents (Elt Ideal) := m ((c : Thread nD τ).loc main_arg2)
abbrev a3 : (⟨S3200000, .i32⟩ : BufTy).Contents (Elt Ideal) := m ((c : Thread nD τ).loc main_arg3)
abbrev a4 : (⟨S3200000, .i32⟩ : BufTy).Contents (Elt Ideal) := m ((c : Thread nD τ).loc main_arg4)
abbrev a5 : (⟨S200000, .i32⟩ : BufTy).Contents (Elt Ideal) := m ((c : Thread nD τ).loc main_arg5)
abbrev a6 : (⟨S40x16, .f32⟩ : BufTy).Contents (Elt Ideal) := m ((c : Thread nD τ).loc main_arg6)
abbrev a7 : (⟨S40, .f32⟩ : BufTy).Contents (Elt Ideal) := m ((c : Thread nD τ).loc main_arg7)
abbrev a8 : (⟨S40, .f32⟩ : BufTy).Contents (Elt Ideal) := m ((c : Thread nD τ).loc main_arg8)
abbrev a9 : (⟨S40, .f32⟩ : BufTy).Contents (Elt Ideal) := m ((c : Thread nD τ).loc main_arg9)
abbrev a10 : (⟨S40x24, .f32⟩ : BufTy).Contents (Elt Ideal) := m ((c : Thread nD τ).loc main_arg10)
abbrev a11 : (⟨S24, .f32⟩ : BufTy).Contents (Elt Ideal) := m ((c : Thread nD τ).loc main_arg11)
abbrev a12 : (⟨S24x32, .f32⟩ : BufTy).Contents (Elt Ideal) := m ((c : Thread nD τ).loc main_arg12)
abbrev a13 : (⟨S24, .f32⟩ : BufTy).Contents (Elt Ideal) := m ((c : Thread nD τ).loc main_arg13)
abbrev a14 : (⟨S24x24, .f32⟩ : BufTy).Contents (Elt Ideal) := m ((c : Thread nD τ).loc main_arg14)
abbrev a15 : (⟨S24, .f32⟩ : BufTy).Contents (Elt Ideal) := m ((c : Thread nD τ).loc main_arg15)
abbrev a16 : (⟨S1x24, .f32⟩ : BufTy).Contents (Elt Ideal) := m ((c : Thread nD τ).loc main_arg16)
abbrev a17 : (⟨S1, .f32⟩ : BufTy).Contents (Elt Ideal) := m ((c : Thread nD τ).loc main_arg17)

theorem V4_launch (r : Ref sig .tc)
    (h : r ∉ hostOps0_W ∧ r ∉ hostOps0_1_W ∧ r ∉ hostOps0_2_W ∧ r ∉ hostOps0_3_W) :
    V4 m c r = m ((c : Thread nD τ).loc r) :=
  (V4_of m c r h.2.2.2).trans <| (V3_of m c r h.2.2.1).trans <| (V2_of m c r h.2.1).trans <| (V1_of m c r h.1).trans rfl

theorem V5_launch (r : Ref sig .tc)
    (h : r ∉ hostOps0_W ∧ r ∉ hostOps0_1_W ∧ r ∉ hostOps0_2_W ∧ r ∉ hostOps0_3_W ∧ r ∉ hostOps0_4_W) :
    V5 m c r = m ((c : Thread nD τ).loc r) :=
  (V5_of m c r h.2.2.2.2).trans (V4_launch m c r ⟨h.1, h.2.1, h.2.2.1, h.2.2.2.1⟩)

theorem V7_keep (r : Ref sig .tc) (h : r ∉ ([main_v27_0, main_v27_1] : List (Ref sig .tc)) ∧ r ∉ hostOps1_W) :
    V7 m outs c r = V5 m c r :=
  (V7_of m outs c r h.2).trans (V6_of m outs c r h.1)

theorem V8_keep (r : Ref sig .tc)
    (h : r ∉ ([main_v27_0, main_v27_1] : List (Ref sig .tc)) ∧ r ∉ hostOps1_W ∧ r ∉ ([main_v36] : List (Ref sig .tc))) :
    V8 m outs c r = V5 m c r :=
  (V8_of m outs c r h.2.2).trans (V7_keep m outs c r ⟨h.1, h.2.1⟩)

theorem V9_keep (r : Ref sig .tc)
    (h : r ∉ ([main_v27_0, main_v27_1] : List (Ref sig .tc)) ∧ r ∉ hostOps1_W ∧ r ∉ ([main_v36] : List (Ref sig .tc))
      ∧ r ∉ hostOps2_W) :
    V9 m outs c r = V5 m c r :=
  (V9_of m outs c r h.2.2.2).trans (V8_keep m outs c r ⟨h.1, h.2.1, h.2.2.1⟩)

theorem V10_keep (r : Ref sig .tc)
    (h : r ∉ ([main_v27_0, main_v27_1] : List (Ref sig .tc)) ∧ r ∉ hostOps1_W ∧ r ∉ ([main_v36] : List (Ref sig .tc))
      ∧ r ∉ hostOps2_W ∧ r ∉ ([main_v48] : List (Ref sig .tc))) :
    V10 m outs c r = V5 m c r :=
  (V10_of m outs c r h.2.2.2.2).trans (V9_keep m outs c r ⟨h.1, h.2.1, h.2.2.1, h.2.2.2.1⟩)

theorem V11_keep (r : Ref sig .tc)
    (h : r ∉ ([main_v27_0, main_v27_1] : List (Ref sig .tc)) ∧ r ∉ hostOps1_W ∧ r ∉ ([main_v36] : List (Ref sig .tc))
      ∧ r ∉ hostOps2_W ∧ r ∉ ([main_v48] : List (Ref sig .tc)) ∧ r ∉ hostOps3_W) :
    V11 m outs c r = V5 m c r :=
  (V11_of m outs c r h.2.2.2.2.2).trans (V10_keep m outs c r ⟨h.1, h.2.1, h.2.2.1, h.2.2.2.1, h.2.2.2.2.1⟩)

theorem V8_launch (r : Ref sig .tc)
    (h : (r ∉ hostOps0_W ∧ r ∉ hostOps0_1_W ∧ r ∉ hostOps0_2_W ∧ r ∉ hostOps0_3_W ∧ r ∉ hostOps0_4_W)
      ∧ r ∉ ([main_v27_0, main_v27_1] : List (Ref sig .tc)) ∧ r ∉ hostOps1_W ∧ r ∉ ([main_v36] : List (Ref sig .tc))) :
    V8 m outs c r = m ((c : Thread nD τ).loc r) :=
  (V8_keep m outs c r h.2).trans (V5_launch m c r h.1)

theorem V10_launch (r : Ref sig .tc)
    (h : (r ∉ hostOps0_W ∧ r ∉ hostOps0_1_W ∧ r ∉ hostOps0_2_W ∧ r ∉ hostOps0_3_W ∧ r ∉ hostOps0_4_W)
      ∧ r ∉ ([main_v27_0, main_v27_1] : List (Ref sig .tc)) ∧ r ∉ hostOps1_W ∧ r ∉ ([main_v36] : List (Ref sig .tc))
      ∧ r ∉ hostOps2_W ∧ r ∉ ([main_v48] : List (Ref sig .tc))) :
    V10 m outs c r = m ((c : Thread nD τ).loc r) :=
  (V10_keep m outs c r h.2).trans (V5_launch m c r h.1)

theorem V6_v27_0 : V6 m outs c main_v27_0 = outs 6 main_v27_0 c := by
  show Function.update (Function.update (V5 m c) (Proc.devRef .tc main_v27_0) (outs 6 main_v27_0 c))
    (Proc.devRef .tc main_v27_1) (outs 6 main_v27_1 c) (Proc.devRef .tc main_v27_0) = _
  rw [Function.update_of_ne (StableHlo.devRef_ne_of_ne (by decide) :
    (Proc.devRef .tc main_v27_0 : DevRef τ sig) ≠ Proc.devRef .tc main_v27_1), Function.update_self]
theorem V6_v27_1 : V6 m outs c main_v27_1 = outs 6 main_v27_1 c := Function.update_self ..
theorem V8_v36 : V8 m outs c main_v36 = outs 8 main_v36 c := Function.update_self ..
theorem V10_v48 : V10 m outs c main_v48 = outs 10 main_v48 c := Function.update_self ..
theorem V12_v60 : V12 m outs c main_v60 = outs 12 main_v60 c := Function.update_self ..

theorem k_v3 : V1 m c main_v3 = val_main_v35 (F := Ideal) (a3 m c) := by
  show StableHlo.after hostOps0 (V0 m c) (Proc.devRef .tc main_v3) = _
  generalize hW : V0 m c = W
  after_results
  subst hW
  rfl

theorem k_v6 : V1 m c main_v6 = val_main_v38 (F := Ideal) (a4 m c) := by
  show StableHlo.after hostOps0 (V0 m c) (Proc.devRef .tc main_v6) = _
  generalize hW : V0 m c = W
  after_results
  subst hW
  rfl
theorem k_cst2 : V1 m c main_cst_2 = constant (F := Ideal) S_ .f32 0x3F800000#32 := by
  show StableHlo.after hostOps0 (V0 m c) (Proc.devRef .tc main_cst_2) = _
  generalize V0 m c = W
  after_results

theorem s01_v7 (W : Valuation τ sig (Elt Ideal)) :
    StableHlo.after hostOps0_1 W (Proc.devRef .tc main_v7)
      = maximumf (F := Ideal) (φ := .f32) (broadcastInDim S200000 ![] bcast_S_S200000 (id (W (Proc.devRef .tc main_cst_2))))
          (W (Proc.devRef .tc main_v3)) := by
  after_results
  rfl
theorem k_v7 : V2 m c main_v7 = val_main_v39 (F := Ideal) (a3 m c) := by
  refine (s01_v7 (V1 m c)).trans ?_
  rw [k_cst2, k_v3]
  rfl

theorem k_v10 : V3 m c main_v10 = col (val_main_v41 (F := Ideal) (a3 m c)) := by
  show StableHlo.after hostOps0_2 (V2 m c) (Proc.devRef .tc main_v10) = _
  generalize hW : V2 m c = W
  after_results
  subst hW
  rw [k_v7]
  exact shapeCast_col (val_main_v41 (F := Ideal) (a3 m c)) shapeCasts_S200000_S200000x1
theorem k_cst4 : V3 m c main_cst_4 = constant (F := Ideal) S_ .f32 0x3F800000#32 := by
  show StableHlo.after hostOps0_2 (V2 m c) (Proc.devRef .tc main_cst_4) = _
  generalize V2 m c = W
  after_results

theorem s03_v11 (W : Valuation τ sig (Elt Ideal)) :
    StableHlo.after hostOps0_3 W (Proc.devRef .tc main_v11)
      = maximumf (F := Ideal) (φ := .f32) (broadcastInDim S200000 ![] bcast_S_S200000 (id (W (Proc.devRef .tc main_cst_4))))
          (W (Proc.devRef .tc main_v6)) := by
  after_results
  rfl
theorem k_v11 : V4 m c main_v11 = val_main_v42 (F := Ideal) (a4 m c) := by
  refine (s03_v11 (V3 m c)).trans ?_
  rw [k_cst4, V3_of m c main_v6 (by decide), V2_of m c main_v6 (by decide), k_v6]
  rfl

theorem e_v14 : V5 m c main_v14 = col (val_main_v44 (F := Ideal) (a4 m c)) := by
  show StableHlo.after hostOps0_4 (V4 m c) (Proc.devRef .tc main_v14) = _
  generalize hW : V4 m c = W
  after_results
  subst hW
  rw [k_v11]
  exact shapeCast_col (val_main_v44 (F := Ideal) (a4 m c)) shapeCasts_S200000_S200000x1

theorem e_v10 : V5 m c main_v10 = col (val_main_v41 (F := Ideal) (a3 m c)) :=
  (V5_of m c main_v10 (by decide)).trans ((V4_of m c main_v10 (by decide)).trans (k_v10 m c))

theorem e_v15_0 (r : Fin 200000) : V5 m c main_v15 (ix2 r 0) = val_main_v44 (F := Ideal) (a4 m c) (ix1 r) := by
  have e : V5 m c main_v15 = concatenate S200000x2 1 [⟨S200000x1, V5 m c main_v14⟩, ⟨S200000x1, V4 m c main_v10⟩]
      concatenates_S200000x1_S200000x1_S200000x2_d1 := by
    show StableHlo.after hostOps0_4 (V4 m c) (Proc.devRef .tc main_v15)
      = concatenate S200000x2 1 [⟨S200000x1, StableHlo.after hostOps0_4 (V4 m c) (Proc.devRef .tc main_v14)⟩, ⟨S200000x1, V4 m c main_v10⟩] _
    generalize hW : V4 m c = W
    after_results
  rw [e, e_v14]
  exact concatenate_pair_apply_left _ _ _ concatenates_S200000x1_S200000x1_S200000x2_d1 (ix2 r 0) rfl (ix2 r 0)
    (fun b => by
      match b with
      | ⟨0, _⟩ => rfl
      | ⟨1, _⟩ => rfl)

theorem e_v15_1 (r : Fin 200000) : V5 m c main_v15 (ix2 r 1) = val_main_v41 (F := Ideal) (a3 m c) (ix1 r) := by
  have e : V5 m c main_v15 = concatenate S200000x2 1 [⟨S200000x1, V5 m c main_v14⟩, ⟨S200000x1, V4 m c main_v10⟩]
      concatenates_S200000x1_S200000x1_S200000x2_d1 := by
    show StableHlo.after hostOps0_4 (V4 m c) (Proc.devRef .tc main_v15)
      = concatenate S200000x2 1 [⟨S200000x1, StableHlo.after hostOps0_4 (V4 m c) (Proc.devRef .tc main_v14)⟩, ⟨S200000x1, V4 m c main_v10⟩] _
    generalize hW : V4 m c = W
    after_results
  rw [e, (V4_of m c main_v10 (by decide)).trans (k_v10 m c)]
  exact concatenate_pair_apply_right _ _ _ concatenates_S200000x1_S200000x1_S200000x2_d1 (ix2 r 1) rfl rfl (ix2 r 0)
    (fun b hb => by
      match b, hb with
      | ⟨0, _⟩, _ => rfl
      | ⟨1, _⟩, hb => exact absurd rfl hb)
    rfl

theorem e_v17 : V5 m c main_v17 = row (a7 m c) := by
  show StableHlo.after hostOps0_4 (V4 m c) (Proc.devRef .tc main_v17) = _
  generalize hW : V4 m c = W
  after_results
  subst hW
  rw [V4_launch m c main_arg7 (by decide)]
  exact shapeCast_row (a7 m c) shapeCasts_S40_S1x40
theorem e_v18 : V5 m c main_v18 = row (a8 m c) := by
  show StableHlo.after hostOps0_4 (V4 m c) (Proc.devRef .tc main_v18) = _
  generalize hW : V4 m c = W
  after_results
  subst hW
  rw [V4_launch m c main_arg8 (by decide)]
  exact shapeCast_row (a8 m c) shapeCasts_S40_S1x40
theorem e_v19 : V5 m c main_v19 = row (a9 m c) := by
  show StableHlo.after hostOps0_4 (V4 m c) (Proc.devRef .tc main_v19) = _
  generalize hW : V4 m c = W
  after_results
  subst hW
  rw [V4_launch m c main_arg9 (by decide)]
  exact shapeCast_row (a9 m c) shapeCasts_S40_S1x40
theorem e_v20 : V5 m c main_v20 = row (a11 m c) := by
  show StableHlo.after hostOps0_4 (V4 m c) (Proc.devRef .tc main_v20) = _
  generalize hW : V4 m c = W
  after_results
  subst hW
  rw [V4_launch m c main_arg11 (by decide)]
  exact shapeCast_row (a11 m c) shapeCasts_S24_S1x24
theorem e_v23 : V5 m c main_v23 = row (a13 m c) := by
  show StableHlo.after hostOps0_4 (V4 m c) (Proc.devRef .tc main_v23) = _
  generalize hW : V4 m c = W
  after_results
  subst hW
  rw [V4_launch m c main_arg13 (by decide)]
  exact shapeCast_row (a13 m c) shapeCasts_S24_S1x24
theorem e_v24 : V5 m c main_v24 = row (a15 m c) := by
  show StableHlo.after hostOps0_4 (V4 m c) (Proc.devRef .tc main_v24) = _
  generalize hW : V4 m c = W
  after_results
  subst hW
  rw [V4_launch m c main_arg15 (by decide)]
  exact shapeCast_row (a15 m c) shapeCasts_S24_S1x24
theorem e_v25 : V5 m c main_v25 = row (a17 m c) := by
  show StableHlo.after hostOps0_4 (V4 m c) (Proc.devRef .tc main_v25) = _
  generalize hW : V4 m c = W
  after_results
  subst hW
  rw [V4_launch m c main_arg17 (by decide)]
  exact shapeCast_row (a17 m c) shapeCasts_S1_S1x1
theorem e_v16 : V5 m c main_v16 = val_main_v0 (F := Ideal) (a0 m c) (a1 m c) := by
  show StableHlo.after hostOps0_4 (V4 m c) (Proc.devRef .tc main_v16) = _
  generalize hW : V4 m c = W
  after_results
  subst hW
  rw [V4_launch m c main_arg0 (by decide), V4_launch m c main_arg1 (by decide)]
  rfl
theorem e_v21 : V5 m c main_v21 = (fun i => (a12 m c) (ix2 (i 0) (Fin.castAdd 8 (i 1))) : Spec.M 24 24) := by
  show StableHlo.after hostOps0_4 (V4 m c) (Proc.devRef .tc main_v21) = _
  generalize hW : V4 m c = W
  after_results
  subst hW
  rw [V4_launch m c main_arg12 (by decide)]
  funext i
  obtain ⟨p, q, rfl⟩ : ∃ (p : Fin 24) (q : Fin 24), i = ix2 p q := ⟨i 0, i 1, eq_ix2 i⟩
  exact slice2_axis1_apply 0 (a12 m c) slices_S24x32_S24x24_0_0 p q (Fin.castAdd 8 q) (Nat.zero_add _).symm
theorem e_v22 : V5 m c main_v22 = (fun i => (a12 m c) (ix2 (i 0) (Fin.natAdd 24 (i 1))) : Spec.M 24 8) := by
  show StableHlo.after hostOps0_4 (V4 m c) (Proc.devRef .tc main_v22) = _
  generalize hW : V4 m c = W
  after_results
  subst hW
  rw [V4_launch m c main_arg12 (by decide)]
  funext i
  obtain ⟨p, q, rfl⟩ : ∃ (p : Fin 24) (q : Fin 8), i = ix2 p q := ⟨i 0, i 1, eq_ix2 i⟩
  exact slice2_axis1_apply 24 (a12 m c) slices_S24x32_S24x8_0_24 p q (Fin.natAdd 24 q) rfl
theorem e_v26 : V5 m c main_v26 = val_main_v106 (F := Ideal) (a5 m c) := by
  show StableHlo.after hostOps0_4 (V4 m c) (Proc.devRef .tc main_v26) = _
  generalize hW : V4 m c = W
  after_results
  subst hW
  rw [V4_launch m c main_arg5 (by decide)]
  refine (shapeCast_col (a5 m c) shapeCasts_S200000_S200000x1).trans ?_
  funext i
  rw [val_main_v106_apply]
  exact congrArg (a5 m c) (funext fun a => by
    match a with
    | ⟨0, _⟩ => rfl)

theorem c0_v16 : V5 m c main_v16 = val_main_v0 (F := Ideal) (a0 m c) (a1 m c) := e_v16 m c

theorem c0_arg6 : V5 m c main_arg6 = (a6 m c) :=
  V5_launch m c main_arg6 (by decide)

theorem c0_v17 : V5 m c main_v17 = row (a7 m c) := e_v17 m c

theorem c1_v16 : V7 m outs c main_v16 = val_main_v0 (F := Ideal) (a0 m c) (a1 m c) :=
  (V7_keep m outs c main_v16 (by decide)).trans (e_v16 m c)

theorem c1_arg6 : V7 m outs c main_arg6 = (a6 m c) :=
  (V7_keep m outs c main_arg6 (by decide)).trans (V5_launch m c main_arg6 (by decide))

theorem c1_v17 : V7 m outs c main_v17 = row (a7 m c) :=
  (V7_keep m outs c main_v17 (by decide)).trans (e_v17 m c)

theorem c1_v18 : V7 m outs c main_v18 = row (a8 m c) :=
  (V7_keep m outs c main_v18 (by decide)).trans (e_v18 m c)

theorem c1_v19 : V7 m outs c main_v19 = row (a9 m c) :=
  (V7_keep m outs c main_v19 (by decide)).trans (e_v19 m c)

theorem c1_v29 : V7 m outs c main_v29 = Spec.mean (outs 6 main_v27_0 c) := by
  show StableHlo.after hostOps1 (V6 m outs c) (Proc.devRef .tc main_v29) = _
  generalize hW : V6 m outs c = W
  after_results
  subst hW
  rw [V6_v27_0]
  rfl

theorem c1_v35 : V7 m outs c main_v35 = Spec.varK (outs 6 main_v27_0 c) (outs 6 main_v27_1 c) := by
  show StableHlo.after hostOps1 (V6 m outs c) (Proc.devRef .tc main_v35) = _
  generalize hW : V6 m outs c = W
  after_results
  subst hW
  rw [V6_v27_0, V6_v27_1]
  funext i
  show max (Ideal.div (outs 6 main_v27_1 c i) Spec.nN
      - Ideal.div (outs 6 main_v27_0 c i) Spec.nN * Ideal.div (outs 6 main_v27_0 c i) Spec.nN) (Ideal.ofBits .f32 0x00000000#32) = _
  rw [Ideal.ofBits_zero_f32]
  rfl

theorem c1_v10 : V7 m outs c main_v10 = col (val_main_v41 (F := Ideal) (a3 m c)) :=
  (V7_keep m outs c main_v10 (by decide)).trans (e_v10 m c)

theorem c1_arg10 : V7 m outs c main_arg10 = (a10 m c) :=
  (V7_keep m outs c main_arg10 (by decide)).trans (V5_launch m c main_arg10 (by decide))

theorem c2_v47 : V9 m outs c main_v47 = AggF (a3 m c) (a4 m c) (outs 8 main_v36 c) := by
  show StableHlo.after hostOps2 (V8 m outs c) (Proc.devRef .tc main_v47) = _
  generalize hW : V8 m outs c = W
  after_results
  subst hW
  rw [V8_launch m outs c main_arg3 (by decide), V8_launch m outs c main_arg4 (by decide), V8_v36]
  rfl

theorem c2_cd : (fun i => V9 m outs c main_v15 (ix2 (i 0) 0) : Spec.M 200000 1) = col (val_main_v44 (F := Ideal) (a4 m c)) := by
  funext i
  obtain ⟨r, u, rfl⟩ : ∃ (r : Fin 200000) (u : Fin 1), i = ix2 r u := ⟨i 0, i 1, eq_ix2 i⟩
  show V9 m outs c main_v15 (ix2 r 0) = val_main_v44 (F := Ideal) (a4 m c) (ix1 r)
  rw [V9_keep m outs c main_v15 (by decide)]
  exact e_v15_0 m c r

theorem c2_cs : (fun i => V9 m outs c main_v15 (ix2 (i 0) 1) : Spec.M 200000 1) = col (val_main_v41 (F := Ideal) (a3 m c)) := by
  funext i
  obtain ⟨r, u, rfl⟩ : ∃ (r : Fin 200000) (u : Fin 1), i = ix2 r u := ⟨i 0, i 1, eq_ix2 i⟩
  show V9 m outs c main_v15 (ix2 r 1) = val_main_v41 (F := Ideal) (a3 m c) (ix1 r)
  rw [V9_keep m outs c main_v15 (by decide)]
  exact e_v15_1 m c r

theorem c2_v20 : V9 m outs c main_v20 = row (a11 m c) :=
  (V9_keep m outs c main_v20 (by decide)).trans (e_v20 m c)

theorem c2_arg2 : V9 m outs c main_arg2 = (a2 m c) :=
  (V9_keep m outs c main_arg2 (by decide)).trans (V5_launch m c main_arg2 (by decide))

theorem c2_v21 : V9 m outs c main_v21 = (fun i => (a12 m c) (ix2 (i 0) (Fin.castAdd 8 (i 1))) : Spec.M 24 24) :=
  (V9_keep m outs c main_v21 (by decide)).trans (e_v21 m c)

theorem c2_v22 : V9 m outs c main_v22 = (fun i => (a12 m c) (ix2 (i 0) (Fin.natAdd 24 (i 1))) : Spec.M 24 8) :=
  (V9_keep m outs c main_v22 (by decide)).trans (e_v22 m c)

theorem c2_v23 : V9 m outs c main_v23 = row (a13 m c) :=
  (V9_keep m outs c main_v23 (by decide)).trans (e_v23 m c)

theorem c2_arg14 : V9 m outs c main_arg14 = (a14 m c) :=
  (V9_keep m outs c main_arg14 (by decide)).trans (V5_launch m c main_arg14 (by decide))

theorem c3_v59 : V11 m outs c main_v59 = AggF (a3 m c) (a4 m c) (outs 10 main_v48 c) := by
  show StableHlo.after hostOps3 (V10 m outs c) (Proc.devRef .tc main_v59) = _
  generalize hW : V10 m outs c = W
  after_results
  subst hW
  rw [V10_launch m outs c main_arg3 (by decide), V10_launch m outs c main_arg4 (by decide), V10_v48]
  rfl

theorem c3_v14 : V11 m outs c main_v14 = col (val_main_v44 (F := Ideal) (a4 m c)) :=
  (V11_keep m outs c main_v14 (by decide)).trans (e_v14 m c)

theorem c3_v24 : V11 m outs c main_v24 = row (a15 m c) :=
  (V11_keep m outs c main_v24 (by decide)).trans (e_v24 m c)

theorem c3_v26 : V11 m outs c main_v26 = val_main_v106 (F := Ideal) (a5 m c) :=
  (V11_keep m outs c main_v26 (by decide)).trans (e_v26 m c)

theorem c3_arg16 : V11 m outs c main_arg16 = (a16 m c) :=
  (V11_keep m outs c main_arg16 (by decide)).trans (V5_launch m c main_arg16 (by decide))

theorem c3_v25 : V11 m outs c main_v25 = row (a17 m c) :=
  (V11_keep m outs c main_v25 (by decide)).trans (e_v25 m c)

theorem c4_v61 : V13 m outs c main_v61 = fun i => outs 12 main_v60 c (ix2 (i 0) 0) := by
  show StableHlo.after hostOps4 (V12 m outs c) (Proc.devRef .tc main_v61) = _
  generalize hW : V12 m outs c = W
  after_results
  subst hW
  rw [V12_v60]
  exact shapeCast_uncol (outs 12 main_v60 c) shapeCasts_S64x1_S64

end Cert.KernelIdeal.HV

end
-- ==== Proof.Math.Variance.lean ====
import proofs.«420467_j63230508531831_3_alg».proof.Proof.Spec
import Idealize.ShloMosaic.PureOps.Ideal
import Idealize.ShloMosaic.PureOps.Ideal.Laws
import Idealize.ShloMosaic.Lib.ValueIdx
import Mathlib.Data.EReal.Operations
import Mathlib.Algebra.BigOperators.Ring.Finset
import Mathlib.Algebra.Order.BigOperators.Ring.Finset
import Mathlib.Tactic.Ring
import Mathlib.Tactic.FieldSimp
import Mathlib.Tactic.Linarith
import Mathlib.Tactic.NormNum

noncomputable section

namespace Cert.Spec

open Idealize.ShloMosaic Idealize.ShloMosaic.ValueIdx

theorem nN_eq : nN = ((200000 : ℝ) : EReal) := by
  unfold nN
  simp [Ideal.ofBits, Ideal.ieee, -EReal.coe_mul]; norm_num

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem real_variance (n : ℕ) (hn : (n : ℝ) ≠ 0) (f : Fin n → ℝ) :
    (∑ r, f r * f r) * (1 / (n : ℝ)) - ((∑ r, f r) * (1 / (n : ℝ))) * ((∑ r, f r) * (1 / (n : ℝ)))
      = (∑ r, (f r - (∑ r, f r) * (1 / (n : ℝ))) * (f r - (∑ r, f r) * (1 / (n : ℝ)))) * (1 / (n : ℝ)) := by

  have hexp : ∀ μ : ℝ, ∑ r, (f r - μ) * (f r - μ) = (∑ r, f r * f r) - 2 * μ * (∑ r, f r) + (n : ℝ) * (μ * μ) := by
    intro μ
    have e : ∀ r, (f r - μ) * (f r - μ) = f r * f r - 2 * μ * f r + μ * μ := fun r => by ring
    simp only [e]
    rw [Finset.sum_add_distrib, Finset.sum_sub_distrib, ← Finset.mul_sum, Finset.sum_const, Finset.card_univ,
      Fintype.card_fin, nsmul_eq_mul]
  rw [hexp]
  field_simp
  ring

theorem varK_eq_varR (H : M 200000 40) (hH : ∀ i, ∃ x : ℝ, H i = (x : EReal)) :
    varK (colsum H) (colsumsq H) = varR H (mean (colsum H)) := by
  choose x hx using hH
  obtain rfl : H = fun i => (x i : EReal) := funext hx
  funext i
  have hn : (200000 : ℝ) ≠ 0 := by norm_num
  have hn' : ((200000 : ℕ) : ℝ) ≠ 0 := by norm_num

  set f : Fin 200000 → ℝ := fun r => x (ix2 r (i 1)) with hf
  have hs : (∑ r : Fin 200000, ((f r : ℝ) : EReal)) = ((∑ r, f r : ℝ) : EReal) := (coe_sum _ _).symm
  have hq : (∑ r : Fin 200000, ((f r : ℝ) : EReal) * ((f r : ℝ) : EReal)) = ((∑ r, f r * f r : ℝ) : EReal) := by
    rw [coe_sum]; simp only [EReal.coe_mul]
  show max (Ideal.div (∑ r : Fin 200000, ((f r : ℝ) : EReal) * ((f r : ℝ) : EReal)) nN
        - Ideal.div (∑ r : Fin 200000, ((f r : ℝ) : EReal)) nN * Ideal.div (∑ r : Fin 200000, ((f r : ℝ) : EReal)) nN) 0
      = Ideal.div (∑ r : Fin 200000, (((f r : ℝ) : EReal) - Ideal.div (∑ r : Fin 200000, ((f r : ℝ) : EReal)) nN)
          * (((f r : ℝ) : EReal) - Ideal.div (∑ r : Fin 200000, ((f r : ℝ) : EReal)) nN)) nN
  rw [nN_eq, hs, hq]
  simp only [Ideal.div_coe hn]
  have hd : (∑ r : Fin 200000, (((f r : ℝ) : EReal) - ((∑ r, f r : ℝ) : EReal) * ((1 / 200000 : ℝ) : EReal))
        * (((f r : ℝ) : EReal) - ((∑ r, f r : ℝ) : EReal) * ((1 / 200000 : ℝ) : EReal)))
      = ((∑ r, (f r - (∑ r, f r) * (1 / 200000)) * (f r - (∑ r, f r) * (1 / 200000)) : ℝ) : EReal) := by
    rw [coe_sum Finset.univ fun r => (f r - (∑ r, f r) * (1 / 200000)) * (f r - (∑ r, f r) * (1 / 200000))]
    exact Finset.sum_congr rfl fun r _ => by rw [EReal.coe_mul, EReal.coe_sub, EReal.coe_mul]
  rw [hd]
  simp only [← EReal.coe_mul, ← EReal.coe_sub]

  have hv := real_variance 200000 hn' f
  simp only [Nat.cast_ofNat] at hv
  rw [hv]
  refine max_eq_left (EReal.coe_nonneg.mpr ?_)
  exact mul_nonneg (Finset.sum_nonneg fun r _ => mul_self_nonneg _) (by norm_num)

theorem h1_real (X : M 200000 16) (w : M 40 16) (b : M 1 40)
    (hX : ∀ i, ∃ x : ℝ, X i = (x : EReal)) (hw : ∀ i, ∃ x : ℝ, w i = (x : EReal))
    (hb : ∀ i, ∃ x : ℝ, b i = (x : EReal)) :
    ∀ i, ∃ x : ℝ, h1 X w b i = (x : EReal) := by
  choose xX hxX using hX
  choose xw hxw using hw
  choose xb hxb using hb
  intro i
  refine ⟨max ((∑ k : Fin 16, xX (ix2 (i 0) k) * xw (ix2 (i 1) k)) + xb (ix2 0 (i 1))) 0, ?_⟩
  unfold h1
  simp only [hxX, hxw, hxb]
  rw [coe_max, EReal.coe_add, coe_sum, EReal.coe_zero]
  simp only [EReal.coe_mul]

theorem varK_h1_eq_varR (X : M 200000 16) (w : M 40 16) (b : M 1 40)
    (hX : ∀ i, ∃ x : ℝ, X i = (x : EReal)) (hw : ∀ i, ∃ x : ℝ, w i = (x : EReal))
    (hb : ∀ i, ∃ x : ℝ, b i = (x : EReal)) :
    varK (colsum (h1 X w b)) (colsumsq (h1 X w b)) = varR (h1 X w b) (mean (colsum (h1 X w b))) :=
  varK_eq_varR _ (h1_real X w b hX hw hb)

end Cert.Spec

end
-- ==== Proof.Math.Finite.lean ====
import proofs.«420467_j63230508531831_3_alg».proof.Pre_finite_inputs
import proofs.«420467_j63230508531831_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Spec

open Idealize.ShloMosaic Idealize.ShloMosaic.ValueIdx
open Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_all_lt {s : Shape} (a : FVec Ideal s .f32) (dims : Fin S_.rank → Fin s.rank)
    (hb : S_.BroadcastsInDim s dims) (i : s.Idx)
    (h : cmpf .olt (Host.absf a) (broadcastInDim s dims hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [inf_eq_top] at h'
  refine real_of_abs_lt_top (a i) ?_
  by_contra hlt
  simp [Ideal.cmp, hlt] at h'

theorem finite_inputs_real [hF : Cert.Pre_finite_inputs.Facts]
    (a0 a1 a2 : FVec Ideal S200000x8 .f32) (a3 a4 : IVec S3200000 32) (a5 : IVec S200000 32)
    (a6 : FVec Ideal S40x16 .f32) (a7 a8 a9 : FVec Ideal S40 .f32) (a10 : FVec Ideal S40x24 .f32)
    (a11 : FVec Ideal S24 .f32) (a12 : FVec Ideal S24x32 .f32) (a13 : FVec Ideal S24 .f32)
    (a14 : FVec Ideal S24x24 .f32) (a15 : FVec Ideal S24 .f32) (a16 : FVec Ideal S1x24 .f32)
    (a17 : FVec Ideal S1 .f32)
    (h : Cert.Pre_finite_inputs.fn (F := Ideal) a0 a1 a2 a3 a4 a5 a6 a7 a8 a9 a10 a11 a12 a13 a14 a15 a16 a17
      = fun _ => 1#1) :
    (∀ i, ∃ x : ℝ, a0 i = (x : EReal)) ∧ (∀ i, ∃ x : ℝ, a1 i = (x : EReal))
      ∧ (∀ i, ∃ x : ℝ, a6 i = (x : EReal)) ∧ (∀ i, ∃ x : ℝ, a7 i = (x : EReal)) := by
  have h0 := congrFun h ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨h_0, h_1⟩, -⟩, h_6⟩, h_7⟩, -⟩, -⟩, -⟩, -⟩, -⟩, -⟩, -⟩, -⟩, -⟩, -⟩ := h0
  exact ⟨fun i => real_of_all_lt _ _ _ i (Host.reduce_andi_all _ _ _ _ ix0 h_0 i),
    fun i => real_of_all_lt _ _ _ i (Host.reduce_andi_all _ _ _ _ ix0 h_1 i),
    fun i => real_of_all_lt _ _ _ i (Host.reduce_andi_all _ _ _ _ ix0 h_6 i),
    fun i => real_of_all_lt _ _ _ i (Host.reduce_andi_all _ _ _ _ ix0 h_7 i)⟩

end Cert.Spec

end
-- ==== Proof.Math.Pool.lean ====
import proofs.«420467_j63230508531831_3_alg».proof.ReferenceIdeal
import proofs.«420467_j63230508531831_3_alg».proof.Proof.Spec
import Idealize.ShloMosaic.PureOps.Ideal
import Idealize.ShloMosaic.PureOps.Ideal.Laws
import Idealize.ShloMosaic.Lib.ValueIdx
import Mathlib.Tactic.NormNum

noncomputable section

namespace Cert.Spec

open Idealize.ShloMosaic Idealize.ShloMosaic.ValueIdx
open Cert.ReferenceIdeal

variable [Cert.ReferenceIdeal.Facts₀]

theorem one_eq : one = 1 := by
  unfold one
  simp [Ideal.ofBits, Ideal.ieee, -EReal.coe_mul]; norm_num

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · rintro rfl a
      have := h a
      simp only
      omega
    · intro e
      funext a
      apply Fin.ext
      have := e a
      simp only
      omega
  · constructor
    · intro e; cases e
    · intro e
      exfalso
      apply h
      intro a
      have := e a
      have := (i a).isLt
      omega

theorem toInt_eq_iff (g : BitVec 32) (n : Nat) (hn : n < 64) : g.toInt = (n : ℤ) ↔ g = BitVec.ofNat 32 n := by
  rw [← BitVec.toNat_inj, BitVec.toNat_ofNat, BitVec.toInt_eq_toNat_cond]
  have := g.isLt
  split_ifs <;> omega

def idxEquiv1 {n : Nat} : (⟨1, ![n]⟩ : Shape).Idx ≃ Fin n where
  toFun i := i 0
  invFun a := ix1 a
  left_inv i := (eq_ix1 i).symm
  right_inv _ := rfl

theorem sum_start0 (gid : MI 200000 1) (j : S200000x24.Idx) :
    scatter_S64x24_S200000x1_S200000x24_1_0_0_1.start j gid 0 = (gid (ix2 (j 0) 0)).toInt := by
  unfold ScatterDims.start
  rw [dif_pos (show (0 : Fin 2) ∈ scatter_S64x24_S200000x1_S200000x24_1_0_0_1.scatterDimsToOperandDims from
    List.mem_singleton.mpr rfl)]
  congr 2
  funext b
  refine Fin.ext ?_
  match b with
  | ⟨0, _⟩ => rfl
  | ⟨1, _⟩ => rfl

theorem sum_lands_iff (gid : MI 200000 1) (j : S200000x24.Idx) (i : S64x24.Idx) :
    scatter_S64x24_S200000x1_S200000x24_1_0_0_1.resultIdx? j gid = some i
      ↔ gid (ix2 (j 0) 0) = BitVec.ofNat 32 (i 0).val ∧ (j 1).val = (i 1).val := by
  have hs1 : scatter_S64x24_S200000x1_S200000x24_1_0_0_1.start j gid 1 = 0 := by
    unfold ScatterDims.start
    have hn : ¬ (1 : Fin 2) ∈ scatter_S64x24_S200000x1_S200000x24_1_0_0_1.scatterDimsToOperandDims := by
      show ¬ (1 : Fin 2) ∈ [(0 : Fin 2)]
      decide
    rw [dif_neg hn]
  have hw0 : scatter_S64x24_S200000x1_S200000x24_1_0_0_1.window j 0 = 0 := by
    unfold ScatterDims.window
    have hn : ¬ (0 : Fin 2) ∈ scatter_S64x24_S200000x1_S200000x24_1_0_0_1.sKept := by
      show ¬ (0 : Fin 2) ∈ S64x24.kept [0]
      decide
    rw [dif_neg hn]
  have hw1 : scatter_S64x24_S200000x1_S200000x24_1_0_0_1.window j 1 = (j 1).val := by
    unfold ScatterDims.window
    have hp : (1 : Fin 2) ∈ scatter_S64x24_S200000x1_S200000x24_1_0_0_1.sKept := by
      show (1 : Fin 2) ∈ S64x24.kept [0]
      decide
    rw [dif_pos hp]
    rfl
  rw [resultIdx?_eq_some_iff, Fin.forall_fin_two, sum_start0, hs1, hw0, hw1,
    ← toInt_eq_iff _ _ (i 0).isLt]
  constructor
  · rintro ⟨h0, h1⟩
    exact ⟨by simpa using h0, by omega⟩
  · rintro ⟨h0, h1⟩
    exact ⟨by simpa using h0, by omega⟩

theorem scatter_ohsum (gid : MI 200000 1) (G : M 200000 24) :
    Host.scatterAdd (F := Ideal) (φ := .f32) scatter_S64x24_S200000x1_S200000x24_1_0_0_1 (fun _ => (0 : EReal)) gid G
      = ohsum G gid := by
  funext i
  obtain ⟨a, c, rfl⟩ : ∃ (a : Fin 64) (c : Fin 24), i = ix2 a c := ⟨i 0, i 1, eq_ix2 i⟩
  show (0 : EReal) + ∑ j ∈ Finset.univ.filter
      (fun j => scatter_S64x24_S200000x1_S200000x24_1_0_0_1.resultIdx? j gid = some (ix2 a c)), G j
    = ∑ r : Fin 200000, oh gid r a * G (ix2 r c)
  rw [zero_add, Finset.sum_filter, sum_idx2]
  refine Finset.sum_congr rfl fun r _ => ?_
  have e : ∀ b : Fin 24,
      (if scatter_S64x24_S200000x1_S200000x24_1_0_0_1.resultIdx? (ix2 r b) gid = some (ix2 a c) then G (ix2 r b)
        else 0)
        = if (gid (ix2 r 0) = BitVec.ofNat 32 a.val ∧ b = c) then G (ix2 r b) else 0 := fun b =>
    if_congr ((sum_lands_iff gid (ix2 r b) (ix2 a c)).trans (and_congr_right' Fin.val_inj)) rfl rfl
  rw [Finset.sum_congr rfl fun b _ => e b]
  by_cases hP : gid (ix2 r 0) = BitVec.ofNat 32 a.val
  · simp [hP, oh]
  · simp [hP, oh]

theorem cnt_start0 (gid : MI 200000 1) (j : S200000.Idx) :
    scatter_S64_S200000x1_S200000_n_0_0_1.start j gid 0 = (gid (ix2 (j 0) 0)).toInt := by
  unfold ScatterDims.start
  rw [dif_pos (show (0 : Fin 1) ∈ scatter_S64_S200000x1_S200000_n_0_0_1.scatterDimsToOperandDims from
    List.mem_singleton.mpr rfl)]
  congr 2
  funext b
  refine Fin.ext ?_
  match b with
  | ⟨0, _⟩ => rfl
  | ⟨1, _⟩ => rfl

theorem cnt_lands_iff (gid : MI 200000 1) (j : S200000.Idx) (i : S64.Idx) :
    scatter_S64_S200000x1_S200000_n_0_0_1.resultIdx? j gid = some i
      ↔ gid (ix2 (j 0) 0) = BitVec.ofNat 32 (i 0).val := by
  have hw0 : scatter_S64_S200000x1_S200000_n_0_0_1.window j 0 = 0 := by
    unfold ScatterDims.window
    have hn : ¬ (0 : Fin 1) ∈ scatter_S64_S200000x1_S200000_n_0_0_1.sKept := by
      show ¬ (0 : Fin 1) ∈ S64.kept [0]
      decide
    rw [dif_neg hn]
  rw [resultIdx?_eq_some_iff, Fin.forall_fin_one, cnt_start0, hw0, ← toInt_eq_iff _ _ (i 0).isLt]
  simp

theorem scatter_ohcnt (gid : MI 200000 1) :
    Host.scatterAdd (F := Ideal) (φ := .f32) scatter_S64_S200000x1_S200000_n_0_0_1 (fun _ => (0 : EReal)) gid
        (fun _ => one)
      = fun i => ohcnt gid (ix2 (i 0) 0) := by
  funext i
  show (0 : EReal) + ∑ j ∈ Finset.univ.filter
      (fun j => scatter_S64_S200000x1_S200000_n_0_0_1.resultIdx? j gid = some i), one
    = ∑ r : Fin 200000, oh gid r (i 0)
  rw [zero_add, Finset.sum_filter, ← Equiv.sum_comp (idxEquiv1 (n := 200000)).symm]
  refine Finset.sum_congr rfl fun r _ => ?_
  rw [one_eq]
  unfold oh
  exact if_congr (cnt_lands_iff gid (ix1 r) i) rfl rfl

end Cert.Spec

end
-- ==== Proof.Asm.Composite.lean ====
import proofs.«420467_j63230508531831_3_alg».proof.Proof.Ref.RefStages
import proofs.«420467_j63230508531831_3_alg».proof.Proof.Math.Variance
import proofs.«420467_j63230508531831_3_alg».proof.Proof.Math.Finite
import proofs.«420467_j63230508531831_3_alg».proof.Proof.Math.Pool
import proofs.«420467_j63230508531831_3_alg».proof.Proof.Ref.Agg
import proofs.«420467_j63230508531831_3_alg».proof.Defs
import Idealize.ShloMosaic.Lib.Pipeline.Value
import Idealize.ShloMosaic.Lib.ValueIdx
import Idealize.ShloMosaic.PureOps.Ideal.Laws
set_option maxRecDepth 16384
noncomputable section
namespace Cert.Asm
open Cert.ReferenceIdeal Cert.ReferenceIdeal.Gen Cert.ReferenceIdeal.Read Cert.ReferenceIdeal.RefValue
open Idealize.ShloMosaic Idealize.ShloMosaic.ValueIdx Idealize.ShloMosaic.StableHlo
open Cert.KernelIdeal.HV (AggF r_v58 r_v98 r_v81 r_v84)

variable (x0 x1 x2 : (⟨S200000x8, .f32⟩ : BufTy).Contents (Elt Ideal))
  (x3 x4 : (⟨S3200000, .i32⟩ : BufTy).Contents (Elt Ideal))
  (x5 : (⟨S200000, .i32⟩ : BufTy).Contents (Elt Ideal))
  (x6 : (⟨S40x16, .f32⟩ : BufTy).Contents (Elt Ideal))
  (x7 x8 x9 : (⟨S40, .f32⟩ : BufTy).Contents (Elt Ideal))
  (x10 : (⟨S40x24, .f32⟩ : BufTy).Contents (Elt Ideal))
  (x11 : (⟨S24, .f32⟩ : BufTy).Contents (Elt Ideal))
  (x12 : (⟨S24x32, .f32⟩ : BufTy).Contents (Elt Ideal))
  (x13 : (⟨S24, .f32⟩ : BufTy).Contents (Elt Ideal))
  (x14 : (⟨S24x24, .f32⟩ : BufTy).Contents (Elt Ideal))
  (x15 : (⟨S24, .f32⟩ : BufTy).Contents (Elt Ideal))
  (x16 : (⟨S1x24, .f32⟩ : BufTy).Contents (Elt Ideal))
  (x17 : (⟨S1, .f32⟩ : BufTy).Contents (Elt Ideal))

def H : Spec.M 200000 40 := Spec.h1 (val_main_v0 (F := Ideal) x0 x1) x6 (row x7)

def hc1 (var : Spec.M 1 40) : Spec.M 200000 24 :=
  Spec.conv (Spec.h1n (H x0 x1 x6 x7) (Spec.mean (Spec.colsum (H x0 x1 x6 x7))) var (row x8) (row x9))
    (col (val_main_v41 (F := Ideal) x3)) x10

def g1 (var : Spec.M 1 40) : Spec.M 200000 24 :=
  Spec.gfin (AggF x3 x4 (hc1 x0 x1 x3 x6 x7 x8 x9 x10 var)) (col (val_main_v44 (F := Ideal) x4)) (row x11)

def hc2 (var : Spec.M 1 40) : Spec.M 200000 24 :=
  Spec.conv (Spec.h2 (g1 x0 x1 x3 x4 x6 x7 x8 x9 x10 x11 var) x2 (fun i => x12 (ix2 (i 0) (Fin.castAdd 8 (i 1))))
      (fun i => x12 (ix2 (i 0) (Fin.natAdd 24 (i 1)))) (row x13))
    (col (val_main_v41 (F := Ideal) x3)) x14

def g2 (var : Spec.M 1 40) : Spec.M 200000 24 :=
  Spec.gfin (AggF x3 x4 (hc2 x0 x1 x2 x3 x4 x6 x7 x8 x9 x10 x11 x12 x13 x14 var)) (col (val_main_v44 (F := Ideal) x4)) (row x15)

def q (var : Spec.M 1 40) : Spec.M 64 1 :=
  Spec.qout (Spec.ohsum (g2 x0 x1 x2 x3 x4 x6 x7 x8 x9 x10 x11 x12 x13 x14 x15 var) (val_main_v106 (F := Ideal) x5))
    (Spec.ohcnt (val_main_v106 (F := Ideal) x5)) x16 (row x17)

theorem ref_ohsum : val_main_v107 (F := Ideal) x0 x1 x2 x3 x4 x5 x6 x7 x8 x9 x10 x11 x12 x13 x14 x15
    = Spec.ohsum (val_main_v104 (F := Ideal) x0 x1 x2 x3 x4 x6 x7 x8 x9 x10 x11 x12 x13 x14 x15) (val_main_v106 (F := Ideal) x5) := by
  rw [← Spec.scatter_ohsum]
  unfold val_main_v107
  congr 1
  funext i
  show Ideal.ofBits .f32 0x00000000#32 = 0
  exact Ideal.ofBits_zero_f32

theorem ref_ohcnt : col (val_main_v111 (F := Ideal) x5) = Spec.ohcnt (val_main_v106 (F := Ideal) x5) := by
  have h := Spec.scatter_ohcnt (val_main_v106 (F := Ideal) x5)
  funext i
  obtain ⟨p, z, rfl⟩ : ∃ (p : Fin 64) (z : Fin 1), i = ix2 p z := ⟨i 0, i 1, eq_ix2 i⟩
  have hz : z = 0 := Subsingleton.elim _ _
  subst hz
  have h' := congrFun h (ix1 p)
  show val_main_v111 (F := Ideal) x5 (ix1 p) = _
  refine Eq.trans ?_ h'
  have e1 : (val_main_v109 (F := Ideal)) = (fun _ => (0 : EReal) : FVec Ideal S64 .f32) :=
    funext fun j => by show Ideal.ofBits .f32 0x00000000#32 = 0; exact Ideal.ofBits_zero_f32
  have e2 : val_main_v110 (F := Ideal) x5 = val_main_v106 (F := Ideal) x5 := rfl
  have e3 : (val_main_v108 (F := Ideal)) = (fun _ => Spec.one : FVec Ideal S200000 .f32) := rfl
  unfold val_main_v111
  rw [e1, e2, e3]

theorem v0_left (r : Fin 200000) (j : Fin 8) :
    val_main_v0 (F := Ideal) x0 x1 (ix2 r (Fin.castAdd 8 j)) = x0 (ix2 r j) := by
  unfold val_main_v0
  exact concatenate_pair_apply_left _ x0 x1 concatenates_S200000x8_S200000x8_S200000x16_d1
    (ix2 r (Fin.castAdd 8 j)) rfl (ix2 r j) (fun b => by
      match b with
      | ⟨0, _⟩ => rfl
      | ⟨1, _⟩ => rfl)

theorem v0_right (r : Fin 200000) (j : Fin 8) :
    val_main_v0 (F := Ideal) x0 x1 (ix2 r (Fin.natAdd 8 j)) = x1 (ix2 r j) := by
  unfold val_main_v0
  exact concatenate_pair_apply_right _ x0 x1 concatenates_S200000x8_S200000x8_S200000x16_d1
    (ix2 r (Fin.natAdd 8 j)) rfl rfl (ix2 r j) (fun b hb => by
      match b, hb with
      | ⟨0, _⟩, _ => rfl
      | ⟨1, _⟩, hb => exact absurd rfl hb)
    (by show j.val + 8 = 8 + j.val; omega)

theorem ref_result :
    val_main_v121 (F := Ideal) x0 x1 x2 x3 x4 x5 x6 x7 x8 x9 x10 x11 x12 x13 x14 x15 x16 x17
      = fun i => q x0 x1 x2 x3 x4 x5 x6 x7 x8 x9 x10 x11 x12 x13 x14 x15 x16 x17
          (Spec.varR (H x0 x1 x6 x7) (Spec.mean (Spec.colsum (H x0 x1 x6 x7)))) (ix2 (i 0) 0) := by
  have e : val_main_v120 (F := Ideal) x0 x1 x2 x3 x4 x5 x6 x7 x8 x9 x10 x11 x12 x13 x14 x15 x16 x17
      = q x0 x1 x2 x3 x4 x5 x6 x7 x8 x9 x10 x11 x12 x13 x14 x15 x16 x17
          (Spec.varR (H x0 x1 x6 x7) (Spec.mean (Spec.colsum (H x0 x1 x6 x7)))) := by
    rw [v120_eq, ref_ohsum, ref_ohcnt, v104_eq, r_v98, r_v84, v88_eq, r_v81, v71_eq, v64_eq, r_v58, v48_eq, v31_eq,
      row_v16_eq, row_v9_eq, v6_eq]
    rfl
  rw [v121_eq, e]

theorem var_eq (hx0 : ∀ i, ∃ r : ℝ, x0 i = (r : EReal)) (hx1 : ∀ i, ∃ r : ℝ, x1 i = (r : EReal))
    (hx6 : ∀ i, ∃ r : ℝ, x6 i = (r : EReal)) (hx7 : ∀ i, ∃ r : ℝ, x7 i = (r : EReal)) :
    Spec.varK (Spec.colsum (H x0 x1 x6 x7)) (Spec.colsumsq (H x0 x1 x6 x7))
      = Spec.varR (H x0 x1 x6 x7) (Spec.mean (Spec.colsum (H x0 x1 x6 x7))) := by
  have hX : ∀ i, ∃ x : ℝ, val_main_v0 (F := Ideal) x0 x1 i = (x : EReal) := by
    intro i
    obtain ⟨p, k, rfl⟩ : ∃ (p : Fin 200000) (k : Fin 16), i = ix2 p k := ⟨i 0, i 1, eq_ix2 i⟩
    by_cases hk : k.val < 8
    · have ek : k = Fin.castAdd 8 (⟨k.val, hk⟩ : Fin 8) := Fin.ext rfl
      rw [ek, v0_left]; exact hx0 _
    · have ek : k = Fin.natAdd 8 (⟨k.val - 8, by have := k.isLt; omega⟩ : Fin 8) := Fin.ext (by show k.val = 8 + (k.val - 8); omega)
      rw [ek, v0_right]; exact hx1 _
  exact Spec.varK_h1_eq_varR (val_main_v0 (F := Ideal) x0 x1) x6 (row x7) hX hx6 (fun i => hx7 _)

theorem finite_args [hF : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, (m ((c.tc : Thread Cert.KernelIdeal.nD Cert.KernelIdeal.τ).loc Cert.KernelIdeal.main_arg0)
        : FVec Ideal Cert.Pre_finite_inputs.S200000x8 .f32) i = (x : EReal))
    ∧ (∀ i, ∃ x : ℝ, (m ((c.tc : Thread Cert.KernelIdeal.nD Cert.KernelIdeal.τ).loc Cert.KernelIdeal.main_arg1)
        : FVec Ideal Cert.Pre_finite_inputs.S200000x8 .f32) i = (x : EReal))
    ∧ (∀ i, ∃ x : ℝ, (m ((c.tc : Thread Cert.KernelIdeal.nD Cert.KernelIdeal.τ).loc Cert.KernelIdeal.main_arg6)
        : FVec Ideal Cert.Pre_finite_inputs.S40x16 .f32) i = (x : EReal))
    ∧ (∀ i, ∃ x : ℝ, (m ((c.tc : Thread Cert.KernelIdeal.nD Cert.KernelIdeal.τ).loc Cert.KernelIdeal.main_arg7)
        : FVec Ideal Cert.Pre_finite_inputs.S40 .f32) i = (x : EReal)) := Cert.Spec.finite_inputs_real _ _ _ _ _ _ _ _ _ _ _ _ _ _ _ _ _ _ (hpre c)

end Cert.Asm
end
-- ==== Proof.Asm.KerResult.lean ====
import proofs.«420467_j63230508531831_3_alg».proof.Proof.KI.Run
import proofs.«420467_j63230508531831_3_alg».proof.Proof.KI.Val0
import proofs.«420467_j63230508531831_3_alg».proof.Proof.KI.Val1
import proofs.«420467_j63230508531831_3_alg».proof.Proof.KI.Val2
import proofs.«420467_j63230508531831_3_alg».proof.Proof.KI.Val3
import proofs.«420467_j63230508531831_3_alg».proof.Proof.KI.Chain
import proofs.«420467_j63230508531831_3_alg».proof.Proof.Asm.Composite

set_option maxRecDepth 16384

noncomputable section

namespace Cert.Asm

open Cert.KernelIdeal Cert.KernelIdeal.Gen Cert.KernelIdeal.H Cert.KernelIdeal.HV
open Idealize.ShloMosaic Idealize.ShloMosaic.TcCoe Idealize.ShloMosaic.ValueIdx Idealize.SL.Sem
open Cert.ReferenceIdeal.RefValue (row col)

variable (m : (ℓ : Loc nD τ sig) → Buf (Elt Ideal) ℓ) (c : Dev nD)

abbrev HK : Spec.M 200000 40 := H (a0 m c) (a1 m c) (a6 m c) (a7 m c)

abbrev varKrow : Spec.M 1 40 := Spec.varK (Spec.colsum (HK m c)) (Spec.colsumsq (HK m c))

theorem ker_sum : outs m 6 main_v27_0 c = Spec.colsum (HK m c) := by
  rw [outs_v27_0 m c, val0_sum (Vin0 m) c]
  show Spec.colsum (Spec.h1 (V5 m c main_v16) (V5 m c main_arg6) (V5 m c main_v17)) = _
  rw [c0_v16, c0_arg6, c0_v17]
  rfl

theorem ker_sumsq : outs m 6 main_v27_1 c = Spec.colsumsq (HK m c) := by
  rw [outs_v27_1 m c, val0_sumsq (Vin0 m) c]
  show Spec.colsumsq (Spec.h1 (V5 m c main_v16) (V5 m c main_arg6) (V5 m c main_v17)) = _
  rw [c0_v16, c0_arg6, c0_v17]
  rfl

theorem ker_hc1 : outs m 8 main_v36 c
    = hc1 (a0 m c) (a1 m c) (a3 m c) (a6 m c) (a7 m c) (a8 m c) (a9 m c) (a10 m c) (varKrow m c) := by
  rw [outs_v36 m c, val1 (Vin1 m) c]
  show Spec.conv (Spec.h1n (Spec.h1 (V7 m (outs m) c main_v16) (V7 m (outs m) c main_arg6) (V7 m (outs m) c main_v17))
      (V7 m (outs m) c main_v29) (V7 m (outs m) c main_v35) (V7 m (outs m) c main_v18) (V7 m (outs m) c main_v19))
    (V7 m (outs m) c main_v10) (V7 m (outs m) c main_arg10) = _
  rw [c1_v16, c1_arg6, c1_v17, c1_v29, c1_v35, c1_v18, c1_v19, c1_v10, c1_arg10, ker_sum, ker_sumsq]
  rfl

theorem ker_hc2 : outs m 10 main_v48 c
    = hc2 (a0 m c) (a1 m c) (a2 m c) (a3 m c) (a4 m c) (a6 m c) (a7 m c) (a8 m c) (a9 m c) (a10 m c) (a11 m c) (a12 m c) (a13 m c) (a14 m c) (varKrow m c) := by
  rw [outs_v48 m c, val2 (Vin2 m) c]
  show Spec.conv (Spec.h2 (Spec.gfin (V9 m (outs m) c main_v47) (fun i => V9 m (outs m) c main_v15 (ix2 (i 0) 0)) (V9 m (outs m) c main_v20))
      (V9 m (outs m) c main_arg2) (V9 m (outs m) c main_v21) (V9 m (outs m) c main_v22) (V9 m (outs m) c main_v23))
    (fun i => V9 m (outs m) c main_v15 (ix2 (i 0) 1)) (V9 m (outs m) c main_arg14) = _
  rw [c2_v47, c2_cd, c2_cs, c2_v20, c2_arg2, c2_v21, c2_v22, c2_v23, c2_arg14, ker_hc1]
  rfl

theorem ker_q : outs m 12 main_v60 c = q (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (varKrow m c) := by
  rw [outs_v60 m c, val3 (Vin3 m) c]
  show Spec.qout (Spec.ohsum (Spec.gfin (V11 m (outs m) c main_v59) (V11 m (outs m) c main_v14) (V11 m (outs m) c main_v24)) (V11 m (outs m) c main_v26))
      (Spec.ohcnt (V11 m (outs m) c main_v26)) (V11 m (outs m) c main_arg16) (V11 m (outs m) c main_v25) = _
  rw [c3_v59, c3_v14, c3_v24, c3_v26, c3_arg16, c3_v25, ker_hc2]
  rfl

theorem ker_result : V13 m (outs m) c main_v61 = fun i => q (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (varKrow m c) (ix2 (i 0) 0) := by
  rw [c4_v61, ker_q]

end Cert.Asm

end
-- ==== Proof.Algebraic.lean ====
import proofs.«420467_j63230508531831_3_alg».proof.Defs
import proofs.«420467_j63230508531831_3_alg».proof.Proof.Asm.KerResult
import proofs.«420467_j63230508531831_3_alg».proof.Proof.Gen.Pre_finite_inputs

set_option maxRecDepth 16384

noncomputable section

namespace Cert.Proof.Alg

open Idealize.ShloMosaic Idealize.ShloMosaic.TcCoe Idealize.SL.Sem

-- Both programs end with one result: each call's output is a whole-array function of its inputs, and the reference's stages are the same functions; the variance identity needs finite inputs.
set_option maxHeartbeats 4000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.V13 m (Cert.KernelIdeal.H.outs m) c Cert.KernelIdeal.main_v61, ?_, ?_⟩
  ·
    refine (θ_run (Cert.KernelIdeal.defs (F := Ideal)) _ _).mono (fun r h c => ?_) (Cert.KernelIdeal.H.run_val (F := Ideal) m ρ)
    exact ⟨h c _ (Cert.KernelIdeal.H.mem_uc Cert.KernelIdeal.main_v61 (by decide)),
      (h c _ (Cert.KernelIdeal.H.mem_uc Cert.KernelIdeal.main_arg0 (by decide))).trans (Cert.KernelIdeal.Gen.V13_main_arg0 m (Cert.KernelIdeal.H.outs m) c),
      (h c _ (Cert.KernelIdeal.H.mem_uc Cert.KernelIdeal.main_arg1 (by decide))).trans (Cert.KernelIdeal.Gen.V13_main_arg1 m (Cert.KernelIdeal.H.outs m) c),
      (h c _ (Cert.KernelIdeal.H.mem_uc Cert.KernelIdeal.main_arg2 (by decide))).trans (Cert.KernelIdeal.Gen.V13_main_arg2 m (Cert.KernelIdeal.H.outs m) c),
      (h c _ (Cert.KernelIdeal.H.mem_uc Cert.KernelIdeal.main_arg3 (by decide))).trans (Cert.KernelIdeal.Gen.V13_main_arg3 m (Cert.KernelIdeal.H.outs m) c),
      (h c _ (Cert.KernelIdeal.H.mem_uc Cert.KernelIdeal.main_arg4 (by decide))).trans (Cert.KernelIdeal.Gen.V13_main_arg4 m (Cert.KernelIdeal.H.outs m) c),
      (h c _ (Cert.KernelIdeal.H.mem_uc Cert.KernelIdeal.main_arg5 (by decide))).trans (Cert.KernelIdeal.Gen.V13_main_arg5 m (Cert.KernelIdeal.H.outs m) c),
      (h c _ (Cert.KernelIdeal.H.mem_uc Cert.KernelIdeal.main_arg6 (by decide))).trans (Cert.KernelIdeal.Gen.V13_main_arg6 m (Cert.KernelIdeal.H.outs m) c),
      (h c _ (Cert.KernelIdeal.H.mem_uc Cert.KernelIdeal.main_arg7 (by decide))).trans (Cert.KernelIdeal.Gen.V13_main_arg7 m (Cert.KernelIdeal.H.outs m) c),
      (h c _ (Cert.KernelIdeal.H.mem_uc Cert.KernelIdeal.main_arg8 (by decide))).trans (Cert.KernelIdeal.Gen.V13_main_arg8 m (Cert.KernelIdeal.H.outs m) c),
      (h c _ (Cert.KernelIdeal.H.mem_uc Cert.KernelIdeal.main_arg9 (by decide))).trans (Cert.KernelIdeal.Gen.V13_main_arg9 m (Cert.KernelIdeal.H.outs m) c),
      (h c _ (Cert.KernelIdeal.H.mem_uc Cert.KernelIdeal.main_arg10 (by decide))).trans (Cert.KernelIdeal.Gen.V13_main_arg10 m (Cert.KernelIdeal.H.outs m) c),
      (h c _ (Cert.KernelIdeal.H.mem_uc Cert.KernelIdeal.main_arg11 (by decide))).trans (Cert.KernelIdeal.Gen.V13_main_arg11 m (Cert.KernelIdeal.H.outs m) c),
      (h c _ (Cert.KernelIdeal.H.mem_uc Cert.KernelIdeal.main_arg12 (by decide))).trans (Cert.KernelIdeal.Gen.V13_main_arg12 m (Cert.KernelIdeal.H.outs m) c),
      (h c _ (Cert.KernelIdeal.H.mem_uc Cert.KernelIdeal.main_arg13 (by decide))).trans (Cert.KernelIdeal.Gen.V13_main_arg13 m (Cert.KernelIdeal.H.outs m) c),
      (h c _ (Cert.KernelIdeal.H.mem_uc Cert.KernelIdeal.main_arg14 (by decide))).trans (Cert.KernelIdeal.Gen.V13_main_arg14 m (Cert.KernelIdeal.H.outs m) c),
      (h c _ (Cert.KernelIdeal.H.mem_uc Cert.KernelIdeal.main_arg15 (by decide))).trans (Cert.KernelIdeal.Gen.V13_main_arg15 m (Cert.KernelIdeal.H.outs m) c),
      (h c _ (Cert.KernelIdeal.H.mem_uc Cert.KernelIdeal.main_arg16 (by decide))).trans (Cert.KernelIdeal.Gen.V13_main_arg16 m (Cert.KernelIdeal.H.outs m) c),
      (h c _ (Cert.KernelIdeal.H.mem_uc Cert.KernelIdeal.main_arg17 (by decide))).trans (Cert.KernelIdeal.Gen.V13_main_arg17 m (Cert.KernelIdeal.H.outs m) c)⟩
  ·
    refine (θ_run (Cert.ReferenceIdeal.defs (F := Ideal)) _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17⟩ := hagree c
    obtain ⟨f0, f1, f6, f7⟩ := Cert.Asm.finite_args m hpre c
    rw [Cert.ReferenceIdeal.Read.val_main_v121_eq m' c, e0, e1, e2, e3, e4, e5, e6, e7, e8, e9, e10, e11, e12, e13, e14, e15, e16, e17, Cert.Asm.ref_result]
    refine Eq.trans ?_ (Cert.Asm.ker_result m c).symm
    have hv := Cert.Asm.var_eq (Cert.KernelIdeal.HV.a0 m c) (Cert.KernelIdeal.HV.a1 m c) (Cert.KernelIdeal.HV.a6 m c)
      (Cert.KernelIdeal.HV.a7 m c) f0 f1 f6 f7
    dsimp only [Cert.Asm.varKrow, Cert.Asm.HK]
    rw [hv]
    rfl

end Cert.Proof.Alg

end
-- ==== Proof.lean ====
import proofs.«420467_j63230508531831_3_alg».proof.Defs
import proofs.«420467_j63230508531831_3_alg».proof.Proof.Gen.Kernel
import proofs.«420467_j63230508531831_3_alg».proof.Proof.Gen.KernelIdeal
import proofs.«420467_j63230508531831_3_alg».proof.Proof.Gen.ReferenceIdeal
import proofs.«420467_j63230508531831_3_alg».proof.Proof.Gen.Pre_finite_inputs
import proofs.«420467_j63230508531831_3_alg».proof.Proof.Gen.ReferenceIdeal.Run
import proofs.«420467_j63230508531831_3_alg».proof.Proof.Gen.ReferenceIdeal.Read
import proofs.«420467_j63230508531831_3_alg».proof.Proof.Frames
import proofs.«420467_j63230508531831_3_alg».proof.Proof.Algebraic

noncomputable section

namespace Cert.Proof

-- The five conjuncts: three frames, the empty ledger, and equal results at the ideal instance.
theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Alg.algebraic⟩

end Cert.Proof

end
